-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x20 : Shape := ⟨2, ![50000, 20]⟩
abbrev S2x800000 : Shape := ⟨2, ![2, 800000]⟩
abbrev S20x128 : Shape := ⟨2, ![20, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S50000x20 : S_.BroadcastsInDim S50000x20 (![] : Fin 0 → Fin S50000x20.rank)
  reducesTo_S50000x20_S_d0_1 : S50000x20.ReducesTo [0, 1] S_
  h_S_ : 0 < S_.numel
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v50 : IVec S2x800000 1) : IVec S_ 1 :=
  let main_c_19 : IVec S_ 1 := constantI S_ 1 1#1
  let main_v51 : IVec S_ 1 := (fun x v => Host.reduce IntOp.andi x v reducesTo_S2x800000_S_d0_1 h_S_) main_v50 main_c_19
  let main_v52 : IVec S_ 1 := andi main_v48 main_v51
  let main_c_20 : IVec S_ 32 := constantI S_ 32 50000#32
  let main_v53 : IVec S2x800000 32 := broadcastInDim S2x800000 ![] bcast_S_S2x800000 main_c_20
  let main_v54 : IVec S2x800000 1 := cmpi .slt main_arg1 main_v53
  let main_c_21 : IVec S_ 1 := constantI S_ 1 1#1
  let main_v55 : IVec S_ 1 := (fun x v => Host.reduce IntOp.andi x v reducesTo_S2x800000_S_d0_1 h_S_) main_v54 main_c_21
  let main_v56 : IVec S_ 1 := andi main_v52 main_v55
  main_v56

def fn_part2 {F : FTy → Type} [FloatOps F] (main_arg1 : IVec S2x800000 32) (main_arg8 : FVec F S2x128x128 .f32) (main_arg9 : FVec F S2x128 .f32) (main_arg10 : FVec F S2x128 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_c_18 : IVec S_ 32 := constantI S_ 32 0#32
  let main_v49 : IVec S2x800000 32 := broadcastInDim S2x800000 ![] bcast_S_S2x800000 main_c_18
  let main_v50 : IVec S2x800000 1 := cmpi .sge main_arg1 main_v49
  fn_part3 (F := F) main_arg1 main_v48 main_v50

def fn_part1 {F : FTy → Type} [FloatOps F] (main_arg1 : IVec S2x800000 32) (main_arg5 : FVec F S2x128x128 .f32) (main_arg6 : FVec F S2x128x128 .f32) (main_arg7 : FVec F S2x128x128 .f32) (main_arg8 : FVec F S2x128x128 .f32) (main_arg9 : FVec F S2x128 .f32) (main_arg10 : FVec F S2x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128x128 .f32 := Host.absf main_arg7
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x20 .f32) (main_arg1 : IVec S2x800000 32) (main_arg2 : FVec F S20x128 .f32) (main_arg3 : FVec F S128 .f32) (main_arg4 : FVec F S128 .f32) (main_arg5 : FVec F S2x128x128 .f32) (main_arg6 : FVec F S2x128x128 .f32) (main_arg7 : FVec F S2x128x128 .f32) (main_arg8 : FVec F S2x128x128 .f32) (main_arg9 : FVec F S2x128 .f32) (main_arg10 : FVec F S2x128 .f32) : IVec S_ 1 :=
  let main_v0 : FVec F S50000x20 .f32 := Host.absf main_arg0
  let main_cst : FVec F S_ .f32 := constant S_ .f32 0x7F800000#32
  let main_v1 : FVec F S50000x20 .f32 := broadcastInDim S50000x20 ![] bcast_S_S50000x20 main_cst
  let main_v2 : IVec S50000x20 1 := cmpf .olt main_v0 main_v1
  let main_c : IVec S_ 1 := constantI S_ 1 1#1
  let main_v3 : IVec S_ 1 := (fun x v => Host.reduce IntOp.andi x v reducesTo_S50000x20_S_d0_1 h_S_) main_v2 main_c
  let main_v4 : FVec F S20x128 .f32 := Host.absf main_arg2
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x20 : Shape := ⟨2, ![50000, 20]⟩
abbrev S2x800000 : Shape := ⟨2, ![2, 800000]⟩
abbrev S20x128 : Shape := ⟨2, ![20, 128]⟩
abbrev S128 : Shape := ⟨1, ![128]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S50000x128 : Shape := ⟨2, ![50000, 128]⟩
abbrev S2000x20 : Shape := ⟨2, ![2000, 20]⟩
abbrev S2000x128 : Shape := ⟨2, ![2000, 128]⟩
abbrev S_ : Shape := ⟨0, ![]⟩
abbrev S1x128 : Shape := ⟨2, ![1, 128]⟩
abbrev S2000 : Shape := ⟨1, ![2000]⟩
abbrev S2000x1 : Shape := ⟨2, ![2000, 1]⟩
abbrev S1x128x128 : Shape := ⟨3, ![1, 128, 128]⟩
abbrev S128x128 : Shape := ⟨2, ![128, 128]⟩
abbrev S128x512 : Shape := ⟨2, ![128, 512]⟩
abbrev S50000x512 : Shape := ⟨2, ![50000, 512]⟩
abbrev S2000x512 : Shape := ⟨2, ![2000, 512]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S4000x128 : Shape := ⟨2, ![4000, 128]⟩

abbrev nBuf : Space → Nat
  | .hbm => 301
  | .vmem => 59
  | .smem => 0
  | _ => 0

abbrev hbmTy0_0 (i : Nat) : BufTy := match i % 128 with
  | 0 => ⟨S50000x20, .f32⟩
  | 1 => ⟨S2x800000, .i32⟩
  | 2 => ⟨S20x128, .f32⟩
  | 3 => ⟨S128, .f32⟩
  | 4 => ⟨S128, .f32⟩
  | 5 => ⟨S2x128x128, .f32⟩
  | 6 => ⟨S2x128x128, .f32⟩
  | 7 => ⟨S2x128x128, .f32⟩
  | 8 => ⟨S2x128x128, .f32⟩
  | 9 => ⟨S2x128, .f32⟩
  | 10 => ⟨S2x128, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S50000x128, .f32⟩
  | 30 => ⟨S50000x128, .f32⟩
  | 31 => ⟨S50000x128, .f32⟩
  | 32 => ⟨S_, .f32⟩
  | 33 => ⟨S_, .f32⟩
  | 34 => ⟨S_, .f32⟩
  | 35 => ⟨S_, .f32⟩
  | 36 => ⟨S128, .f32⟩
  | 37 => ⟨S1x128, .f32⟩
  | 38 => ⟨S1x128, .f32⟩
  | 39 => ⟨S1x128, .f32⟩
  | 40 => ⟨S_, .f32⟩
  | 41 => ⟨S_, .i1⟩
  | 42 => ⟨S_, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S50000x128, .f32⟩
  | 49 => ⟨S1x128x128, .f32⟩
  | 50 => ⟨S128x128, .f32⟩
  | 51 => ⟨S1x128x128, .f32⟩
  | 52 => ⟨S128x128, .f32⟩
  | 53 => ⟨S1x128x128, .f32⟩
  | 54 => ⟨S128x128, .f32⟩
  | 55 => ⟨S1x128x128, .f32⟩
  | 56 => ⟨S128x128, .f32⟩
  | 57 => ⟨S128x512, .f32⟩
  | 58 => ⟨S50000x512, .f32⟩
  | 59 => ⟨S50000x128, .f32⟩
  | 60 => ⟨S50000x128, .f32⟩
  | 61 => ⟨S50000x128, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S1, .i32⟩
  | 72 => ⟨S_, .i32⟩
  | 73 => ⟨S800000x1, .i32⟩
  | 74 => ⟨S800000x1, .i1⟩
  | 75 => ⟨S1x1, .i32⟩
  | 76 => ⟨S800000x1, .i32⟩
  | 77 => ⟨S800000x1, .i1⟩
  | 78 => ⟨S800000x1, .i1⟩
  | 79 => ⟨S_, .i1⟩
  | 80 => ⟨S800000, .i1⟩
  | 81 => ⟨S800000x128, .f32⟩
  | 82 => ⟨S800000x128, .i1⟩
  | 83 => ⟨S_, .f32⟩
  | 84 => ⟨S800000x128, .f32⟩
  | 85 => ⟨S800000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S1, .i32⟩
  | 95 => ⟨S_, .i32⟩
  | 96 => ⟨S800000x1, .i32⟩
  | 97 => ⟨S800000x1, .i1⟩
  | 98 => ⟨S1x1, .i32⟩
  | 99 => ⟨S800000x1, .i32⟩
  | 100 => ⟨S800000x1, .i1⟩
  | 101 => ⟨S800000x1, .i1⟩
  | 102 => ⟨S_, .i1⟩
  | 103 => ⟨S800000, .i1⟩
  | 104 => ⟨S800000x128, .f32⟩
  | 105 => ⟨S800000x128, .i1⟩
  | 106 => ⟨S_, .f32⟩
  | 107 => ⟨S800000x128, .f32⟩
  | 108 => ⟨S800000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S1, .i32⟩
  | 118 => ⟨S_, .i32⟩
  | 119 => ⟨S800000x1, .i32⟩
  | 120 => ⟨S800000x1, .i1⟩
  | 121 => ⟨S1x1, .i32⟩
  | 122 => ⟨S800000x1, .i32⟩
  | 123 => ⟨S800000x1, .i1⟩
  | 124 => ⟨S800000x1, .i1⟩
  | 125 => ⟨S_, .i1⟩
  | 126 => ⟨S800000, .i1⟩
  | 127 => ⟨S800000x128, .f32⟩
  | _ => ⟨S50000x20, .f32⟩

abbrev hbmTy0_1 (i : Nat) : BufTy := match i % 128 with
  | 0 => ⟨S800000x128, .i1⟩
  | 1 => ⟨S_, .f32⟩
  | 2 => ⟨S800000x128, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000x128, .f32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S_, .f32⟩
  | 29 => ⟨S_, .f32⟩
  | 30 => ⟨S128, .f32⟩
  | 31 => ⟨S1x128, .f32⟩
  | 32 => ⟨S1x128, .f32⟩
  | 33 => ⟨S1x128, .f32⟩
  | 34 => ⟨S_, .f32⟩
  | 35 => ⟨S_, .i1⟩
  | 36 => ⟨S_, .f32⟩
  | 37 => ⟨S_, .f32⟩
  | 38 => ⟨S1x128, .f32⟩
  | 39 => ⟨S1x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S50000x128, .f32⟩
  | 47 => ⟨S1x128x128, .f32⟩
  | 48 => ⟨S128x128, .f32⟩
  | 49 => ⟨S1x128x128, .f32⟩
  | 50 => ⟨S128x128, .f32⟩
  | 51 => ⟨S1x128x128, .f32⟩
  | 52 => ⟨S128x128, .f32⟩
  | 53 => ⟨S1x128x128, .f32⟩
  | 54 => ⟨S128x128, .f32⟩
  | 55 => ⟨S128x512, .f32⟩
  | 56 => ⟨S50000x512, .f32⟩
  | 57 => ⟨S50000x128, .f32⟩
  | 58 => ⟨S50000x128, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000x128, .f32⟩
  | 80 => ⟨S800000x128, .i1⟩
  | 81 => ⟨S_, .f32⟩
  | 82 => ⟨S800000x128, .f32⟩
  | 83 => ⟨S800000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x128, .f32⟩
  | 103 => ⟨S800000x128, .i1⟩
  | 104 => ⟨S_, .f32⟩
  | 105 => ⟨S800000x128, .f32⟩
  | 106 => ⟨S800000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S1, .i32⟩
  | 116 => ⟨S_, .i32⟩
  | 117 => ⟨S800000x1, .i32⟩
  | 118 => ⟨S800000x1, .i1⟩
  | 119 => ⟨S1x1, .i32⟩
  | 120 => ⟨S800000x1, .i32⟩
  | 121 => ⟨S800000x1, .i1⟩
  | 122 => ⟨S800000x1, .i1⟩
  | 123 => ⟨S_, .i1⟩
  | 124 => ⟨S800000, .i1⟩
  | 125 => ⟨S800000x128, .f32⟩
  | 126 => ⟨S800000x128, .i1⟩
  | 127 => ⟨S_, .f32⟩
  | _ => ⟨S50000x20, .f32⟩

abbrev hbmTy0_2 (i : Nat) : BufTy := match i % 128 with
  | 0 => ⟨S800000x128, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x128, .f32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S128, .f32⟩
  | 29 => ⟨S1x128, .f32⟩
  | 30 => ⟨S1x128, .f32⟩
  | 31 => ⟨S1x128, .f32⟩
  | 32 => ⟨S_, .f32⟩
  | 33 => ⟨S_, .i1⟩
  | 34 => ⟨S_, .f32⟩
  | 35 => ⟨S_, .f32⟩
  | 36 => ⟨S1x128, .f32⟩
  | 37 => ⟨S1x128, .f32⟩
  | 38 => ⟨S1x128, .f32⟩
  | 39 => ⟨S128, .f32⟩
  | 40 => ⟨S1x128, .f32⟩
  | 41 => ⟨S1x128, .f32⟩
  | 42 => ⟨S128, .f32⟩
  | 43 => ⟨S1x128, .f32⟩
  | 44 => ⟨S50000x128, .f32⟩
  | _ => ⟨S50000x20, .f32⟩

abbrev hbmTy (i : Nat) : BufTy := match i / 128 with
  | 0 => hbmTy0_0 i
  | 1 => hbmTy0_1 i
  | 2 => hbmTy0_2 i
  | _ => ⟨S50000x20, .f32⟩

abbrev bufTy : (tb : Table) → Fin (tcTables nBuf tb) → BufTy
  | .hbm, ⟨i, _⟩ => hbmTy i
  | .local _ .vmem, ⟨0, _⟩ => ⟨S2000x20, .f32⟩
  | .local _ .vmem, ⟨1, _⟩ => ⟨S2000x20, .f32⟩
  | .local _ .vmem, ⟨2, _⟩ => ⟨S20x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x512, .f32⟩
  | .local _ .vmem, ⟨16, _⟩ => ⟨S2000x512, .f32⟩
  | .local _ .vmem, ⟨17, _⟩ => ⟨S2000x512, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x512, .f32⟩
  | .local _ .vmem, ⟨39, _⟩ => ⟨S2000x512, .f32⟩
  | .local _ .vmem, ⟨40, _⟩ => ⟨S2000x512, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S2000x128, .f32⟩
  | .local _ .vmem, ⟨58, _⟩ => ⟨S2000x128, .f32⟩
  | _, _ => ⟨S50000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v27 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v28 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v29 : Ref sig .tc := ⟨.hbm, 131, rfl⟩
abbrev main_v30 : Ref sig .tc := ⟨.hbm, 132, rfl⟩
abbrev main_cst_1 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_cst_2 : Ref sig .tc := ⟨.hbm, 138, rfl⟩
abbrev main_v35 : Ref sig .tc := ⟨.hbm, 139, rfl⟩
abbrev main_v36 : Ref sig .tc := ⟨.hbm, 140, rfl⟩
abbrev main_cst_3 : Ref sig .tc := ⟨.hbm, 141, rfl⟩
abbrev main_v37 : Ref sig .tc := ⟨.hbm, 142, rfl⟩
abbrev main_v38 : Ref sig .tc := ⟨.hbm, 143, rfl⟩
abbrev main_c_4 : Ref sig .tc := ⟨.hbm, 144, rfl⟩
abbrev main_call4_cst : Ref sig .tc := ⟨.hbm, 145, rfl⟩
abbrev main_call4_v0 : Ref sig .tc := ⟨.hbm, 146, rfl⟩
abbrev main_call4_v1 : Ref sig .tc := ⟨.hbm, 147, rfl⟩
abbrev main_call4_cst_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_cst_1 : Ref sig .tc := ⟨.hbm, 155, rfl⟩
abbrev main_call4_v8 : Ref sig .tc := ⟨.hbm, 156, rfl⟩
abbrev main_call4_cst_2 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_v12 : Ref sig .tc := ⟨.hbm, 161, rfl⟩
abbrev main_call4_cst_3 : Ref sig .tc := ⟨.hbm, 162, rfl⟩
abbrev main_call4_v13 : Ref sig .tc := ⟨.hbm, 163, rfl⟩
abbrev main_call4_cst_4 : Ref sig .tc := ⟨.hbm, 164, rfl⟩
abbrev main_call4_call0_v0 : Ref sig .tc := ⟨.hbm, 165, rfl⟩
abbrev main_call4_call0_v1 : Ref sig .tc := ⟨.hbm, 166, rfl⟩
abbrev main_v39 : Ref sig .tc := ⟨.hbm, 167, rfl⟩
abbrev main_v40 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_v44 : Ref sig .tc := ⟨.hbm, 172, rfl⟩
abbrev main_v45 : Ref sig .tc := ⟨.hbm, 173, rfl⟩
abbrev main_v46 : Ref sig .tc := ⟨.hbm, 174, rfl⟩
abbrev main_v47 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_v60 : Ref sig .tc := ⟨.hbm, 188, rfl⟩
abbrev main_call5_c : Ref sig .tc := ⟨.hbm, 189, rfl⟩
abbrev main_call5_v0 : Ref sig .tc := ⟨.hbm, 190, rfl⟩
abbrev main_call5_v1 : Ref sig .tc := ⟨.hbm, 191, rfl⟩
abbrev main_call5_c_0 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_call5_v5 : Ref sig .tc := ⟨.hbm, 196, rfl⟩
abbrev main_call5_c_1 : Ref sig .tc := ⟨.hbm, 197, rfl⟩
abbrev main_call5_c_2 : Ref sig .tc := ⟨.hbm, 198, rfl⟩
abbrev main_call5_v6 : Ref sig .tc := ⟨.hbm, 199, rfl⟩
abbrev main_call5_v7 : Ref sig .tc := ⟨.hbm, 200, rfl⟩
abbrev main_call5_v8 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_call5_c_3 : Ref sig .tc := ⟨.hbm, 205, rfl⟩
abbrev main_call5_v12 : Ref sig .tc := ⟨.hbm, 206, rfl⟩
abbrev main_call5_v13 : Ref sig .tc := ⟨.hbm, 207, rfl⟩
abbrev main_call5_v14 : Ref sig .tc := ⟨.hbm, 208, rfl⟩
abbrev main_call5_cst : Ref sig .tc := ⟨.hbm, 209, rfl⟩
abbrev main_call5_v15 : Ref sig .tc := ⟨.hbm, 210, rfl⟩
abbrev main_v61 : Ref sig .tc := ⟨.hbm, 211, rfl⟩
abbrev main_call6_c : Ref sig .tc := ⟨.hbm, 212, rfl⟩
abbrev main_call6_v0 : Ref sig .tc := ⟨.hbm, 213, rfl⟩
abbrev main_call6_v1 : Ref sig .tc := ⟨.hbm, 214, rfl⟩
abbrev main_call6_c_0 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_call6_v5 : Ref sig .tc := ⟨.hbm, 219, rfl⟩
abbrev main_call6_c_1 : Ref sig .tc := ⟨.hbm, 220, rfl⟩
abbrev main_call6_c_2 : Ref sig .tc := ⟨.hbm, 221, rfl⟩
abbrev main_call6_v6 : Ref sig .tc := ⟨.hbm, 222, rfl⟩
abbrev main_call6_v7 : Ref sig .tc := ⟨.hbm, 223, rfl⟩
abbrev main_call6_v8 : Ref sig .tc := ⟨.hbm, 224, rfl⟩
abbrev main_call6_v9 : Ref sig .tc := ⟨.hbm, 225, rfl⟩
abbrev main_call6_v10 : Ref sig .tc := ⟨.hbm, 226, rfl⟩
abbrev main_call6_v11 : Ref sig .tc := ⟨.hbm, 227, rfl⟩
abbrev main_call6_c_3 : Ref sig .tc := ⟨.hbm, 228, rfl⟩
abbrev main_call6_v12 : Ref sig .tc := ⟨.hbm, 229, rfl⟩
abbrev main_call6_v13 : Ref sig .tc := ⟨.hbm, 230, rfl⟩
abbrev main_call6_v14 : Ref sig .tc := ⟨.hbm, 231, rfl⟩
abbrev main_call6_cst : Ref sig .tc := ⟨.hbm, 232, rfl⟩
abbrev main_call6_v15 : Ref sig .tc := ⟨.hbm, 233, rfl⟩
abbrev main_v62 : Ref sig .tc := ⟨.hbm, 234, rfl⟩
abbrev main_call7_c : Ref sig .tc := ⟨.hbm, 235, rfl⟩
abbrev main_call7_v0 : Ref sig .tc := ⟨.hbm, 236, rfl⟩
abbrev main_call7_v1 : Ref sig .tc := ⟨.hbm, 237, rfl⟩
abbrev main_call7_c_0 : Ref sig .tc := ⟨.hbm, 238, rfl⟩
abbrev main_call7_v2 : Ref sig .tc := ⟨.hbm, 239, rfl⟩
abbrev main_call7_v3 : Ref sig .tc := ⟨.hbm, 240, rfl⟩
abbrev main_call7_v4 : Ref sig .tc := ⟨.hbm, 241, rfl⟩
abbrev main_call7_v5 : Ref sig .tc := ⟨.hbm, 242, rfl⟩
abbrev main_call7_c_1 : Ref sig .tc := ⟨.hbm, 243, rfl⟩
abbrev main_call7_c_2 : Ref sig .tc := ⟨.hbm, 244, rfl⟩
abbrev main_call7_v6 : Ref sig .tc := ⟨.hbm, 245, rfl⟩
abbrev main_call7_v7 : Ref sig .tc := ⟨.hbm, 246, rfl⟩
abbrev main_call7_v8 : Ref sig .tc := ⟨.hbm, 247, rfl⟩
abbrev main_call7_v9 : Ref sig .tc := ⟨.hbm, 248, rfl⟩
abbrev main_call7_v10 : Ref sig .tc := ⟨.hbm, 249, rfl⟩
abbrev main_call7_v11 : Ref sig .tc := ⟨.hbm, 250, rfl⟩
abbrev main_call7_c_3 : Ref sig .tc := ⟨.hbm, 251, rfl⟩
abbrev main_call7_v12 : Ref sig .tc := ⟨.hbm, 252, rfl⟩
abbrev main_call7_v13 : Ref sig .tc := ⟨.hbm, 253, rfl⟩
abbrev main_call7_v14 : Ref sig .tc := ⟨.hbm, 254, rfl⟩
abbrev main_call7_cst : Ref sig .tc := ⟨.hbm, 255, rfl⟩
abbrev main_call7_v15 : Ref sig .tc := ⟨.hbm, 256, rfl⟩
abbrev main_v63 : Ref sig .tc := ⟨.hbm, 257, rfl⟩
abbrev main_v64 : Ref sig .tc := ⟨.hbm, 258, rfl⟩
abbrev main_cst_5 : Ref sig .tc := ⟨.hbm, 259, rfl⟩
abbrev main_v65 : Ref sig .tc := ⟨.hbm, 260, rfl⟩
abbrev main_v66 : Ref sig .tc := ⟨.hbm, 261, rfl⟩
abbrev main_v67 : Ref sig .tc := ⟨.hbm, 262, rfl⟩
abbrev main_v68 : Ref sig .tc := ⟨.hbm, 263, rfl⟩
abbrev main_cst_6 : Ref sig .tc := ⟨.hbm, 264, rfl⟩
abbrev main_v69 : Ref sig .tc := ⟨.hbm, 265, rfl⟩
abbrev main_v70 : Ref sig .tc := ⟨.hbm, 266, rfl⟩
abbrev main_cst_7 : Ref sig .tc := ⟨.hbm, 267, rfl⟩
abbrev main_v71 : Ref sig .tc := ⟨.hbm, 268, rfl⟩
abbrev main_v72 : Ref sig .tc := ⟨.hbm, 269, rfl⟩
abbrev main_c_8 : Ref sig .tc := ⟨.hbm, 270, rfl⟩
abbrev main_call8_cst : Ref sig .tc := ⟨.hbm, 271, rfl⟩
abbrev main_call8_v0 : Ref sig .tc := ⟨.hbm, 272, rfl⟩
abbrev main_call8_v1 : Ref sig .tc := ⟨.hbm, 273, rfl⟩
abbrev main_call8_cst_0 : Ref sig .tc := ⟨.hbm, 274, rfl⟩
abbrev main_call8_v2 : Ref sig .tc := ⟨.hbm, 275, rfl⟩
abbrev main_call8_v3 : Ref sig .tc := ⟨.hbm, 276, rfl⟩
abbrev main_call8_v4 : Ref sig .tc := ⟨.hbm, 277, rfl⟩
abbrev main_call8_v5 : Ref sig .tc := ⟨.hbm, 278, rfl⟩
abbrev main_call8_v6 : Ref sig .tc := ⟨.hbm, 279, rfl⟩
abbrev main_call8_v7 : Ref sig .tc := ⟨.hbm, 280, rfl⟩
abbrev main_call8_cst_1 : Ref sig .tc := ⟨.hbm, 281, rfl⟩
abbrev main_call8_v8 : Ref sig .tc := ⟨.hbm, 282, rfl⟩
abbrev main_call8_cst_2 : Ref sig .tc := ⟨.hbm, 283, rfl⟩
abbrev main_call8_v9 : Ref sig .tc := ⟨.hbm, 284, rfl⟩
abbrev main_call8_v10 : Ref sig .tc := ⟨.hbm, 285, rfl⟩
abbrev main_call8_v11 : Ref sig .tc := ⟨.hbm, 286, rfl⟩
abbrev main_call8_v12 : Ref sig .tc := ⟨.hbm, 287, rfl⟩
abbrev main_call8_cst_3 : Ref sig .tc := ⟨.hbm, 288, rfl⟩
abbrev main_call8_v13 : Ref sig .tc := ⟨.hbm, 289, rfl⟩
abbrev main_call8_cst_4 : Ref sig .tc := ⟨.hbm, 290, rfl⟩
abbrev main_call8_call0_v0 : Ref sig .tc := ⟨.hbm, 291, rfl⟩
abbrev main_call8_call0_v1 : Ref sig .tc := ⟨.hbm, 292, rfl⟩
abbrev main_v73 : Ref sig .tc := ⟨.hbm, 293, rfl⟩
abbrev main_v74 : Ref sig .tc := ⟨.hbm, 294, rfl⟩
abbrev main_v75 : Ref sig .tc := ⟨.hbm, 295, rfl⟩
abbrev main_v76 : Ref sig .tc := ⟨.hbm, 296, rfl⟩
abbrev main_v77 : Ref sig .tc := ⟨.hbm, 297, rfl⟩
abbrev main_v78 : Ref sig .tc := ⟨.hbm, 298, rfl⟩
abbrev main_v79 : Ref sig .tc := ⟨.hbm, 299, rfl⟩
abbrev main_v80 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg6_0 : Ref sig .tc := ⟨.vmem, 57, rfl⟩
abbrev cc7_stg6_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem4_0 : DmaSem sig := 55
abbrev cc7_sem5_0 : DmaSem sig := 56
abbrev cc7_sem6_0 : DmaSem sig := 57
abbrev cc7_sem6_1 : DmaSem sig := 58

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x20_S2000x20_0_0 : ∀ a, (![0, 0] : Fin 2 → Nat) a + S2000x20.size a ≤ S2000x20.size a
  h_S2000x20 : 0 < S2000x20.numel
  bitsLt_bf16_f32 : FTy.bits .bf16 < FTy.bits .f32
  inb_S20x128_S20x128_0_0 : ∀ a, (![0, 0] : Fin 2 → Nat) a + S20x128.size a ≤ S20x128.size a
  h_S20x128 : 0 < S20x128.numel
  inb_S2000x128_S2000x128_0_0 : ∀ a, (![0, 0] : Fin 2 → Nat) a + S2000x128.size a ≤ S2000x128.size a
  h_S2000x128 : 0 < S2000x128.numel
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S2x128x128_S1x128x128_0_0_0 : S2x128x128.Slices ![0, 0, 0] S1x128x128
  shapeCasts_S1x128x128_S128x128 : S1x128x128.ShapeCasts S128x128
  concatenates_S128x128_S128x128_S128x128_S128x128_S128x512_d1 : Shape.Concatenates [S128x128, S128x128, S128x128, S128x128] S128x512 1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x512_S2000x512_0_0 : ∀ a, (![0, 0] : Fin 2 → Nat) a + S2000x512.size a ≤ S2000x512.size a
  h_S2000x512 : 0 < S2000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  dot_S2000x20_S20x128_S2000x128_1_0_0_1_n_n_wf : DotDims.WF S2000x20 S20x128 S2000x128 [1] [0] [0] [1] [] []
  dot_S2000x128_S128x512_S2000x512_1_0_0_1_n_n_wf : DotDims.WF S2000x128 S128x512 S2000x512 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x20.size a ≤ S50000x20.size a
  hwx0_0 : ∀ i : grid0.Coords, EltTy.bits .f32 = 32 ∨ (Rect.block (s := S50000x20) S2000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x128.size a ≤ S20x128.size a
  hwx0_1 : ∀ i : grid0.Coords, EltTy.bits .f32 = 32 ∨ (Rect.block (s := S20x128) S20x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .f32 = 32 ∨ (Rect.block (s := S128x512) S128x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S800000x128.size a
  hwx3_0 : ∀ i : grid3.Coords, EltTy.bits .f32 = 32 ∨ (Rect.block (s := S800000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S800000x128.size a
  hwx3_1 : ∀ i : grid3.Coords, EltTy.bits .f32 = 32 ∨ (Rect.block (s := S800000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S800000x128.size a
  hwx3_2 : ∀ i : grid3.Coords, EltTy.bits .f32 = 32 ∨ (Rect.block (s := S800000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S800000x128.size a
  hwx3_3 : ∀ i : grid3.Coords, EltTy.bits .f32 = 32 ∨ (Rect.block (s := S800000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x512.size a ≤ S128x512.size a
  hwx5_1 : ∀ i : grid5.Coords, EltTy.bits .f32 = 32 ∨ (Rect.block (s := S128x512) S128x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x512.size a ≤ S50000x512.size a
  hwx5_2 : ∀ i : grid5.Coords, EltTy.bits .f32 = 32 ∨ (Rect.block (s := S50000x512) S2000x512.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S800000x128.size a
  hwx6_0 : ∀ i : grid6.Coords, EltTy.bits .f32 = 32 ∨ (Rect.block (s := S800000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S800000x128.size a
  hwx6_1 : ∀ i : grid6.Coords, EltTy.bits .f32 = 32 ∨ (Rect.block (s := S800000x128) S4000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S800000x128.size a
  hwx6_2 : ∀ i : grid6.Coords, EltTy.bits .f32 = 32 ∨ (Rect.block (s := S800000x128) S4000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x128.size a ≤ S800000x128.size a
  hwx6_3 : ∀ i : grid6.Coords, EltTy.bits .f32 = 32 ∨ (Rect.block (s := S800000x128) S4000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)

variable [Facts₀]

def dot_S2000x20_S20x128_S2000x128_1_0_0_1_n_n : DotDims S2000x20 S20x128 S2000x128 where
  lhsContracting := [1]
  rhsContracting := [0]
  lhsNonContracting := [0]
  rhsNonContracting := [1]
  lhsBatch := []
  rhsBatch := []
  wf := dot_S2000x20_S20x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S20x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v12) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v26) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v45) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v46) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v46) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S128x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S2000x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v61) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v63) S4000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v64) S4000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v60) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v67) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v73) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v76) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v79) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v80) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x20 : Shape := ⟨2, ![50000, 20]⟩
abbrev S2x800000 : Shape := ⟨2, ![2, 800000]⟩
abbrev S20x128 : Shape := ⟨2, ![20, 128]⟩
abbrev S128 : Shape := ⟨1, ![128]⟩
abbrev S2x128x128 : Shape := ⟨3, ![2, 128, 128]⟩
abbrev S2x128 : Shape := ⟨2, ![2, 128]⟩
abbrev S50000x128 : Shape := ⟨2, ![50000, 128]⟩
abbrev S_ : Shape := ⟨0, ![]⟩
abbrev S1x128 : Shape := ⟨2, ![1, 128]⟩
abbrev S50000 : Shape := ⟨1, ![50000]⟩
abbrev S50000x1 : Shape := ⟨2, ![50000, 1]⟩
abbrev S1x128x128 : Shape := ⟨3, ![1, 128, 128]⟩
abbrev S128x128 : Shape := ⟨2, ![128, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩

abbrev nBuf : Space → Nat
  | .hbm => 307
  | .vmem => 0
  | .smem => 0
  | _ => 0

abbrev hbmTy0_0 (i : Nat) : BufTy := match i % 128 with
  | 0 => ⟨S50000x20, .f32⟩
  | 1 => ⟨S2x800000, .i32⟩
  | 2 => ⟨S20x128, .f32⟩
  | 3 => ⟨S128, .f32⟩
  | 4 => ⟨S128, .f32⟩
  | 5 => ⟨S2x128x128, .f32⟩
  | 6 => ⟨S2x128x128, .f32⟩
  | 7 => ⟨S2x128x128, .f32⟩
  | 8 => ⟨S2x128x128, .f32⟩
  | 9 => ⟨S2x128, .f32⟩
  | 10 => ⟨S2x128, .f32⟩
  | 11 => ⟨S50000x128, .f32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S50000x128, .f32⟩
  | 26 => ⟨S50000x128, .f32⟩
  | 27 => ⟨S50000x128, .f32⟩
  | 28 => ⟨S_, .f32⟩
  | 29 => ⟨S_, .f32⟩
  | 30 => ⟨S_, .f32⟩
  | 31 => ⟨S_, .f32⟩
  | 32 => ⟨S128, .f32⟩
  | 33 => ⟨S1x128, .f32⟩
  | 34 => ⟨S1x128, .f32⟩
  | 35 => ⟨S1x128, .f32⟩
  | 36 => ⟨S_, .f32⟩
  | 37 => ⟨S_, .i1⟩
  | 38 => ⟨S_, .f32⟩
  | 39 => ⟨S_, .f32⟩
  | 40 => ⟨S1x128, .f32⟩
  | 41 => ⟨S1x128, .f32⟩
  | 42 => ⟨S50000x128, .f32⟩
  | 43 => ⟨S50000x128, .f32⟩
  | 44 => ⟨S_, .f32⟩
  | 45 => ⟨S1x128, .f32⟩
  | 46 => ⟨S1x128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S_, .f32⟩
  | 61 => ⟨S50000, .f32⟩
  | 62 => ⟨S50000x1, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S1x128x128, .f32⟩
  | 70 => ⟨S128x128, .f32⟩
  | 71 => ⟨S1x128x128, .f32⟩
  | 72 => ⟨S128x128, .f32⟩
  | 73 => ⟨S1x128x128, .f32⟩
  | 74 => ⟨S128x128, .f32⟩
  | 75 => ⟨S1x128x128, .f32⟩
  | 76 => ⟨S128x128, .f32⟩
  | 77 => ⟨S1x800000, .i32⟩
  | 78 => ⟨S800000, .i32⟩
  | 79 => ⟨S1x800000, .i32⟩
  | 80 => ⟨S800000, .i32⟩
  | 81 => ⟨S50000x128, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x128, .f32⟩
  | 103 => ⟨S800000x128, .f32⟩
  | 104 => ⟨S800000x128, .f32⟩
  | 105 => ⟨S_, .f32⟩
  | 106 => ⟨S800000x128, .f32⟩
  | 107 => ⟨S800000x128, .f32⟩
  | 108 => ⟨S_, .f32⟩
  | 109 => ⟨S800000x128, .f32⟩
  | 110 => ⟨S800000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000x128, .f32⟩
  | 126 => ⟨S50000x128, .f32⟩
  | 127 => ⟨S1x128, .f32⟩
  | _ => ⟨S50000x20, .f32⟩

abbrev hbmTy0_1 (i : Nat) : BufTy := match i % 128 with
  | 0 => ⟨S128, .f32⟩
  | 1 => ⟨S1x128, .f32⟩
  | 2 => ⟨S128, .f32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S1x128, .f32⟩
  | 25 => ⟨S1x128, .f32⟩
  | 26 => ⟨S1x128, .f32⟩
  | 27 => ⟨S_, .f32⟩
  | 28 => ⟨S_, .i1⟩
  | 29 => ⟨S_, .f32⟩
  | 30 => ⟨S_, .f32⟩
  | 31 => ⟨S1x128, .f32⟩
  | 32 => ⟨S1x128, .f32⟩
  | 33 => ⟨S50000x128, .f32⟩
  | 34 => ⟨S50000x128, .f32⟩
  | 35 => ⟨S_, .f32⟩
  | 36 => ⟨S1x128, .f32⟩
  | 37 => ⟨S1x128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S50000x128, .f32⟩
  | 51 => ⟨S_, .f32⟩
  | 52 => ⟨S50000, .f32⟩
  | 53 => ⟨S50000x1, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S1x128x128, .f32⟩
  | 61 => ⟨S128x128, .f32⟩
  | 62 => ⟨S1x128x128, .f32⟩
  | 63 => ⟨S128x128, .f32⟩
  | 64 => ⟨S1x128x128, .f32⟩
  | 65 => ⟨S128x128, .f32⟩
  | 66 => ⟨S1x128x128, .f32⟩
  | 67 => ⟨S128x128, .f32⟩
  | 68 => ⟨S1x800000, .i32⟩
  | 69 => ⟨S800000, .i32⟩
  | 70 => ⟨S1x800000, .i32⟩
  | 71 => ⟨S800000, .i32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x128, .f32⟩
  | 94 => ⟨S800000x128, .f32⟩
  | 95 => ⟨S800000x128, .f32⟩
  | 96 => ⟨S_, .f32⟩
  | 97 => ⟨S800000x128, .f32⟩
  | 98 => ⟨S800000x128, .f32⟩
  | 99 => ⟨S_, .f32⟩
  | 100 => ⟨S800000x128, .f32⟩
  | 101 => ⟨S800000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S128, .f32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S50000x20, .f32⟩

abbrev hbmTy0_2 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S_, .f32⟩
  | 12 => ⟨S_, .f32⟩
  | 13 => ⟨S_, .f32⟩
  | 14 => ⟨S128, .f32⟩
  | 15 => ⟨S1x128, .f32⟩
  | 16 => ⟨S1x128, .f32⟩
  | 17 => ⟨S1x128, .f32⟩
  | 18 => ⟨S_, .f32⟩
  | 19 => ⟨S_, .i1⟩
  | 20 => ⟨S_, .f32⟩
  | 21 => ⟨S_, .f32⟩
  | 22 => ⟨S1x128, .f32⟩
  | 23 => ⟨S1x128, .f32⟩
  | 24 => ⟨S50000x128, .f32⟩
  | 25 => ⟨S50000x128, .f32⟩
  | 26 => ⟨S_, .f32⟩
  | 27 => ⟨S1x128, .f32⟩
  | 28 => ⟨S1x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S_, .f32⟩
  | 43 => ⟨S50000, .f32⟩
  | 44 => ⟨S50000x1, .f32⟩
  | 45 => ⟨S50000x1, .f32⟩
  | 46 => ⟨S_, .f32⟩
  | 47 => ⟨S50000x1, .f32⟩
  | 48 => ⟨S50000x1, .f32⟩
  | 49 => ⟨S50000x128, .f32⟩
  | 50 => ⟨S50000x128, .f32⟩
  | _ => ⟨S50000x20, .f32⟩

abbrev hbmTy (i : Nat) : BufTy := match i / 128 with
  | 0 => hbmTy0_0 i
  | 1 => hbmTy0_1 i
  | 2 => hbmTy0_2 i
  | _ => ⟨S50000x20, .f32⟩

abbrev bufTy : (tb : Table) → Fin (tcTables nBuf tb) → BufTy
  | .hbm, ⟨i, _⟩ => hbmTy i
  | _, _ => ⟨S50000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_call1_cst : Ref sig .tc := ⟨.hbm, 56, rfl⟩
abbrev main_call1_v0 : Ref sig .tc := ⟨.hbm, 57, rfl⟩
abbrev main_v19 : Ref sig .tc := ⟨.hbm, 58, rfl⟩
abbrev main_v20 : Ref sig .tc := ⟨.hbm, 59, rfl⟩
abbrev main_cst_2 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_3 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_4 : Ref sig .tc := ⟨.hbm, 84, rfl⟩
abbrev main_v43 : Ref sig .tc := ⟨.hbm, 85, rfl⟩
abbrev main_v44 : Ref sig .tc := ⟨.hbm, 86, rfl⟩
abbrev main_c_5 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_6 : Ref sig .tc := ⟨.hbm, 93, rfl⟩
abbrev main_v50 : Ref sig .tc := ⟨.hbm, 94, rfl⟩
abbrev main_v51 : Ref sig .tc := ⟨.hbm, 95, rfl⟩
abbrev main_c_7 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_8 : Ref sig .tc := ⟨.hbm, 105, rfl⟩
abbrev main_v60 : Ref sig .tc := ⟨.hbm, 106, rfl⟩
abbrev main_v61 : Ref sig .tc := ⟨.hbm, 107, rfl⟩
abbrev main_cst_9 : Ref sig .tc := ⟨.hbm, 108, rfl⟩
abbrev main_v62 : Ref sig .tc := ⟨.hbm, 109, rfl⟩
abbrev main_v63 : Ref sig .tc := ⟨.hbm, 110, rfl⟩
abbrev main_c_10 : Ref sig .tc := ⟨.hbm, 111, rfl⟩
abbrev main_v64 : Ref sig .tc := ⟨.hbm, 112, rfl⟩
abbrev main_v65 : Ref sig .tc := ⟨.hbm, 113, rfl⟩
abbrev main_c_11 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_12 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_13 : Ref sig .tc := ⟨.hbm, 131, rfl⟩
abbrev main_v81 : Ref sig .tc := ⟨.hbm, 132, rfl⟩
abbrev main_v82 : Ref sig .tc := ⟨.hbm, 133, rfl⟩
abbrev main_cst_14 : Ref sig .tc := ⟨.hbm, 134, rfl⟩
abbrev main_v83 : Ref sig .tc := ⟨.hbm, 135, rfl⟩
abbrev main_v84 : Ref sig .tc := ⟨.hbm, 136, rfl⟩
abbrev main_c_15 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_v12 : Ref sig .tc := ⟨.hbm, 154, rfl⟩
abbrev main_call2_cst_3 : Ref sig .tc := ⟨.hbm, 155, rfl⟩
abbrev main_call2_v13 : Ref sig .tc := ⟨.hbm, 156, rfl⟩
abbrev main_call2_cst_4 : Ref sig .tc := ⟨.hbm, 157, rfl⟩
abbrev main_call2_call0_v0 : Ref sig .tc := ⟨.hbm, 158, rfl⟩
abbrev main_call2_call0_v1 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_16 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_call3_cst : Ref sig .tc := ⟨.hbm, 175, rfl⟩
abbrev main_call3_v0 : Ref sig .tc := ⟨.hbm, 176, rfl⟩
abbrev main_v99 : Ref sig .tc := ⟨.hbm, 177, rfl⟩
abbrev main_v100 : Ref sig .tc := ⟨.hbm, 178, rfl⟩
abbrev main_cst_17 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_18 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_c_19 : Ref sig .tc := ⟨.hbm, 203, rfl⟩
abbrev main_v123 : Ref sig .tc := ⟨.hbm, 204, rfl⟩
abbrev main_v124 : Ref sig .tc := ⟨.hbm, 205, rfl⟩
abbrev main_c_20 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_c_21 : Ref sig .tc := ⟨.hbm, 212, rfl⟩
abbrev main_v130 : Ref sig .tc := ⟨.hbm, 213, rfl⟩
abbrev main_v131 : Ref sig .tc := ⟨.hbm, 214, rfl⟩
abbrev main_c_22 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_23 : Ref sig .tc := ⟨.hbm, 224, rfl⟩
abbrev main_v140 : Ref sig .tc := ⟨.hbm, 225, rfl⟩
abbrev main_v141 : Ref sig .tc := ⟨.hbm, 226, rfl⟩
abbrev main_cst_24 : Ref sig .tc := ⟨.hbm, 227, rfl⟩
abbrev main_v142 : Ref sig .tc := ⟨.hbm, 228, rfl⟩
abbrev main_v143 : Ref sig .tc := ⟨.hbm, 229, rfl⟩
abbrev main_c_25 : Ref sig .tc := ⟨.hbm, 230, rfl⟩
abbrev main_v144 : Ref sig .tc := ⟨.hbm, 231, rfl⟩
abbrev main_v145 : Ref sig .tc := ⟨.hbm, 232, rfl⟩
abbrev main_c_26 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_cst_27 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_cst_28 : Ref sig .tc := ⟨.hbm, 250, rfl⟩
abbrev main_v161 : Ref sig .tc := ⟨.hbm, 251, rfl⟩
abbrev main_v162 : Ref sig .tc := ⟨.hbm, 252, rfl⟩
abbrev main_cst_29 : Ref sig .tc := ⟨.hbm, 253, rfl⟩
abbrev main_v163 : Ref sig .tc := ⟨.hbm, 254, rfl⟩
abbrev main_v164 : Ref sig .tc := ⟨.hbm, 255, rfl⟩
abbrev main_c_30 : Ref sig .tc := ⟨.hbm, 256, rfl⟩
abbrev main_call4_cst : Ref sig .tc := ⟨.hbm, 257, rfl⟩
abbrev main_call4_v0 : Ref sig .tc := ⟨.hbm, 258, rfl⟩
abbrev main_call4_v1 : Ref sig .tc := ⟨.hbm, 259, rfl⟩
abbrev main_call4_cst_0 : Ref sig .tc := ⟨.hbm, 260, rfl⟩
abbrev main_call4_v2 : Ref sig .tc := ⟨.hbm, 261, rfl⟩
abbrev main_call4_v3 : Ref sig .tc := ⟨.hbm, 262, rfl⟩
abbrev main_call4_v4 : Ref sig .tc := ⟨.hbm, 263, rfl⟩
abbrev main_call4_v5 : Ref sig .tc := ⟨.hbm, 264, rfl⟩
abbrev main_call4_v6 : Ref sig .tc := ⟨.hbm, 265, rfl⟩
abbrev main_call4_v7 : Ref sig .tc := ⟨.hbm, 266, rfl⟩
abbrev main_call4_cst_1 : Ref sig .tc := ⟨.hbm, 267, rfl⟩
abbrev main_call4_v8 : Ref sig .tc := ⟨.hbm, 268, rfl⟩
abbrev main_call4_cst_2 : Ref sig .tc := ⟨.hbm, 269, rfl⟩
abbrev main_call4_v9 : Ref sig .tc := ⟨.hbm, 270, rfl⟩
abbrev main_call4_v10 : Ref sig .tc := ⟨.hbm, 271, rfl⟩
abbrev main_call4_v11 : Ref sig .tc := ⟨.hbm, 272, rfl⟩
abbrev main_call4_v12 : Ref sig .tc := ⟨.hbm, 273, rfl⟩
abbrev main_call4_cst_3 : Ref sig .tc := ⟨.hbm, 274, rfl⟩
abbrev main_call4_v13 : Ref sig .tc := ⟨.hbm, 275, rfl⟩
abbrev main_call4_cst_4 : Ref sig .tc := ⟨.hbm, 276, rfl⟩
abbrev main_call4_call0_v0 : Ref sig .tc := ⟨.hbm, 277, rfl⟩
abbrev main_call4_call0_v1 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_cst_31 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_call5_cst : Ref sig .tc := ⟨.hbm, 294, rfl⟩
abbrev main_call5_v0 : Ref sig .tc := ⟨.hbm, 295, rfl⟩
abbrev main_v179 : Ref sig .tc := ⟨.hbm, 296, rfl⟩
abbrev main_v180 : Ref sig .tc := ⟨.hbm, 297, rfl⟩
abbrev main_cst_32 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_cst_33 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩

abbrev nD : Nat := 1
abbrev τ : Topo := Topo.v7x

variable {F : FTy → Type} [FloatOps F]

class Facts₀ : Prop where
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  dot_S50000x20_S20x128_S50000x128_1_0_0_1_n_n_wf : DotDims.WF S50000x20 S20x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x20_S20x128_S50000x128_1_0_0_1_n_n : DotDims S50000x20 S20x128 S50000x128 where
  lhsContracting := [1]
  rhsContracting := [0]
  lhsNonContracting := [0]
  rhsNonContracting := [1]
  lhsBatch := []
  rhsBatch := []
  wf := dot_S50000x20_S20x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Stages.lean ====
import proofs.«411794_j45286135169328_1_alg».proof.ReferenceIdeal

noncomputable section

namespace Cert.Stages

open Idealize.ShloMosaic Idealize.ShloMosaic.TcCoe Cert.ReferenceIdeal

variable {F : FTy → Type} [FloatOps F] [Facts]
open Facts₀ Facts

def lin (x : FVec F S50000x20 .f32) (w : FVec F S20x128 .f32) : FVec F S50000x128 .f32 :=
  Host.dotGeneral dot_S50000x20_S20x128_S50000x128_1_0_0_1_n_n none x w

def mean (h : FVec F S50000x128 .f32) : FVec F S1x128 .f32 :=
  let s : FVec F S128 .f32 := Host.reduceAdd h (constant S_ .f32 0x00000000#32) reducesTo_S50000x128_S128_d0 h_S_
  let s1 : FVec F S1x128 .f32 := broadcastInDim S1x128 ![1] bcast_S128_S1x128_1 s
  let n : FVec F S1x128 .f32 := broadcastInDim S1x128 ![] bcast_S_S1x128 (constant S_ .f32 0x47435000#32)
  Host.divf s1 n

def var (h : FVec F S50000x128 .f32) : FVec F S1x128 .f32 :=
  let ddof : IVec S_ 32 := constantI S_ 32 0#32
  let s : FVec F S128 .f32 := Host.reduceAdd h (constant S_ .f32 0x00000000#32) reducesTo_S50000x128_S128_d0 h_S_
  let s1 : FVec F S1x128 .f32 := broadcastInDim S1x128 ![1] bcast_S128_S1x128_1 s
  let n : FVec F S1x128 .f32 := broadcastInDim S1x128 ![] bcast_S_S1x128 (constant S_ .f32 0x47435000#32)
  let mu : FVec F S1x128 .f32 := Host.divf s1 n
  let muB : FVec F S50000x128 .f32 := broadcastInDim S50000x128 ![0, 1] bcast_S1x128_S50000x128_0_1 mu
  let d : FVec F S50000x128 .f32 := subf h muB
  let d2 : FVec F S50000x128 .f32 := mulf d d
  let dd : FVec F S_ .f32 := sitofp .f32 ddof
  let cnt : FVec F S_ .f32 := subf (constant S_ .f32 0x47435000#32) dd
  let s2 : FVec F S128 .f32 := Host.reduceAdd d2 (constant S_ .f32 0x00000000#32) reducesTo_S50000x128_S128_d0 h_S_
  let s2r : FVec F S1x128 .f32 := broadcastInDim S1x128 ![1] bcast_S128_S1x128_1 s2
  let cntr : FVec F S1x128 .f32 := broadcastInDim S1x128 ![] bcast_S_S1x128 cnt
  let q : FVec F S1x128 .f32 := Host.divf s2r cntr
  let ok : IVec S_ 1 := cmpf .ogt cnt (constant S_ .f32 0x00000000#32)
  let nan : FVec F S_ .f32 := id (constant S_ .f32 0x7FC00000#32)
  let nanr : FVec F S1x128 .f32 := broadcastInDim S1x128 ![] bcast_S_S1x128 nan
  select (broadcastInDim S1x128 ![] bcast_S_S1x128 ok) q nanr

def asRow (g : FVec F S128 .f32) : FVec F S1x128 .f32 := broadcastInDim S1x128 ![1] bcast_S128_S1x128_1 g

def normCore (h : FVec F S50000x128 .f32) (mu va g b : FVec F S1x128 .f32) : FVec F S50000x128 .f32 :=
  let muB : FVec F S50000x128 .f32 := broadcastInDim S50000x128 ![0, 1] bcast_S1x128_S50000x128_0_1 mu
  let d : FVec F S50000x128 .f32 := subf h muB
  let eps : FVec F S1x128 .f32 := broadcastInDim S1x128 ![] bcast_S_S1x128 (constant S_ .f32 0x3727C5AC#32)
  let r : FVec F S1x128 .f32 := Host.rsqrt (addf va eps)
  let rB : FVec F S50000x128 .f32 := broadcastInDim S50000x128 ![0, 1] bcast_S1x128_S50000x128_0_1 r
  let y : FVec F S50000x128 .f32 := mulf d rB
  let gB : FVec F S50000x128 .f32 := broadcastInDim S50000x128 ![0, 1] bcast_S1x128_S50000x128_0_1 g
  let yg : FVec F S50000x128 .f32 := mulf y gB
  let bB : FVec F S50000x128 .f32 := broadcastInDim S50000x128 ![0, 1] bcast_S1x128_S50000x128_0_1 b
  let z : FVec F S50000x128 .f32 := addf yg bB
  let zero : FVec F S50000x128 .f32 := broadcastInDim S50000x128 ![] bcast_S_S50000x128 (constant S_ .f32 0x00000000#32)
  let p : FVec F S50000x128 .f32 := maximumf z zero
  let pp : FVec F S50000x128 .f32 := mulf p p
  let ss : FVec F S50000 .f32 := Host.reduceAdd pp (constant S_ .f32 0x00000000#32) reducesTo_S50000x128_S50000_d1 h_S_
  let ssc : FVec F S50000x1 .f32 := broadcastInDim S50000x1 ![0] bcast_S50000_S50000x1_0 ss
  let nrm : FVec F S50000x1 .f32 := Host.sqrt ssc
  let tiny : FVec F S50000x1 .f32 := broadcastInDim S50000x1 ![] bcast_S_S50000x1 (constant S_ .f32 0x2B8CBCCC#32)
  let den : FVec F S50000x1 .f32 := maximumf nrm tiny
  let denB : FVec F S50000x128 .f32 := broadcastInDim S50000x128 ![0, 1] bcast_S50000x1_S50000x128_0_1 den
  Host.divf p denB

def bn (h : FVec F S50000x128 .f32) (g b : FVec F S128 .f32) : FVec F S50000x128 .f32 :=
  normCore h (mean h) (var h) (asRow g) (asRow b)

def mat0 (w : FVec F S2x128x128 .f32) : FVec F S128x128 .f32 :=
  shapeCast S128x128 (extractStridedSlice S1x128x128 ![0, 0, 0] w slices_S2x128x128_S1x128x128_0_0_0) shapeCasts_S1x128x128_S128x128
def mat1 (w : FVec F S2x128x128 .f32) : FVec F S128x128 .f32 :=
  shapeCast S128x128 (extractStridedSlice S1x128x128 ![1, 0, 0] w slices_S2x128x128_S1x128x128_1_0_0) shapeCasts_S1x128x128_S128x128

def vec0 (g : FVec F S2x128 .f32) : FVec F S128 .f32 :=
  shapeCast S128 (extractStridedSlice S1x128 ![0, 0] g slices_S2x128_S1x128_0_0) shapeCasts_S1x128_S128
def vec1 (g : FVec F S2x128 .f32) : FVec F S128 .f32 :=
  shapeCast S128 (extractStridedSlice S1x128 ![1, 0] g slices_S2x128_S1x128_1_0) shapeCasts_S1x128_S128

def row0 (ei : IVec S2x800000 32) : IVec S800000 32 :=
  shapeCast S800000 (extractStridedSlice S1x800000 ![0, 0] ei slices_S2x800000_S1x800000_0_0) shapeCasts_S1x800000_S800000
def row1 (ei : IVec S2x800000 32) : IVec S800000 32 :=
  shapeCast S800000 (extractStridedSlice S1x800000 ![1, 0] ei slices_S2x800000_S1x800000_1_0) shapeCasts_S1x800000_S800000

def proj (h : FVec F S50000x128 .f32) (w : FVec F S128x128 .f32) : FVec F S50000x128 .f32 :=
  Host.dotGeneral dot_S50000x128_S128x128_S50000x128_1_0_0_1_n_n none h w

def wrapCol (idx : IVec S800000 32) : IVec S800000x1 32 :=
  let z : IVec S800000 32 := broadcastInDim S800000 ![] bcast_S_S800000 (constantI S_ 32 0#32)
  let neg : IVec S800000 1 := cmpi .slt idx z
  let n : IVec S800000 32 := broadcastInDim S800000 ![] bcast_S_S800000 (constantI S_ 32 50000#32)
  let w : IVec S800000 32 := select neg (addi idx n) idx
  broadcastInDim S800000x1 ![0] bcast_S800000_S800000x1_0 w

def take (t : FVec F S50000x128 .f32) (idx : IVec S800000 32) : FVec F S800000x128 .f32 :=
  Host.gather gather_S50000x128_S800000x1_S800000x128_1_0_n_n_0_1_1128 t (wrapCol idx)

def msg (kd qs vs : FVec F S800000x128 .f32) : FVec F S800000x128 .f32 :=
  let s : FVec F S800000x128 .f32 := addf kd qs
  let e : FVec F S800000x128 .f32 := Host.exp (Host.negf s)
  let one : FVec F S800000x128 .f32 := broadcastInDim S800000x128 ![] bcast_S_S800000x128 (constant S_ .f32 0x3F800000#32)
  let den : FVec F S800000x128 .f32 := addf one e
  let one' : FVec F S800000x128 .f32 := broadcastInDim S800000x128 ![] bcast_S_S800000x128 (constant S_ .f32 0x3F800000#32)
  let sg : FVec F S800000x128 .f32 := Host.divf one' den
  mulf sg vs

def agg (ms : FVec F S800000x128 .f32) (dst : IVec S800000 32) : FVec F S50000x128 .f32 :=
  let zero : FVec F S50000x128 .f32 := broadcastInDim S50000x128 ![] bcast_S_S50000x128 (constant S_ .f32 0x00000000#32)
  let col : IVec S800000x1 32 := broadcastInDim S800000x1 ![0] bcast_S800000_S800000x1_0 dst
  Host.scatterAdd scatter_S50000x128_S800000x1_S800000x128_1_0_0_1 zero col ms

def conv (h : FVec F S50000x128 .f32) (src dst : IVec S800000 32) (wk wq wv ws : FVec F S128x128 .f32) : FVec F S50000x128 .f32 :=
  addf (proj h ws) (agg (msg (take (proj h wk) dst) (take (proj h wq) src) (take (proj h wv) src)) dst)

def out (x : FVec F S50000x20 .f32) (ei : IVec S2x800000 32) (pw : FVec F S20x128 .f32) (pg pb : FVec F S128 .f32)
    (wk wq wv ws : FVec F S2x128x128 .f32) (g2 b2 : FVec F S2x128 .f32) : FVec F S50000x128 .f32 :=
  let h0 := bn (lin x pw) pg pb
  let h1 := bn (conv h0 (row0 ei) (row1 ei) (mat0 wk) (mat0 wq) (mat0 wv) (mat0 ws)) (vec0 g2) (vec0 b2)
  bn (conv h1 (row0 ei) (row1 ei) (mat1 wk) (mat1 wq) (mat1 wv) (mat1 ws)) (vec1 g2) (vec1 b2)

end Cert.Stages

end
-- ==== Proof.KB.Reg0.lean ====
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.KernelVsHost
import Idealize.ShloMosaic.Lib.StackMember
import Idealize.ShloMosaic.PureOps.Ideal
import Idealize.ShloMosaic.PureOps.Ideal.Laws

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x20 := Rect.unit (s := S2000x20) ![0, 0] S2000x20.size inb_S2000x20_S2000x20_0_0
abbrev r0_1 : Rect S20x128 := Rect.unit (s := S20x128) ![0, 0] S20x128.size inb_S20x128_S20x128_0_0
abbrev r0_2 : Rect S2000x128 := Rect.unit (s := S2000x128) ![0, 0] S2000x128.size inb_S2000x128_S2000x128_0_0

def out0_2 (x0 : Vec F S2000x20 .f32) (x1 : Vec F S20x128 .f32) : Vec F S2000x128 .f32 :=
  View.canon [⟨r0_2, k0_pay1 (View.ld x0 r0_0) (View.ld x1 r0_1)⟩]

theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

set_option maxHeartbeats 1000000 in
theorem sound_kernel0 (c : Dev nD) (E : Set ℕ) (i : grid0.Coords) (arg1 : Memref sig .tc .vmem S2000x20 .f32) (harg1 : arg1.IsWhole)
    (arg2 : Memref sig .tc .vmem S20x128 .f32) (harg2 : arg2.IsWhole) (arg3 : Memref sig .tc .vmem S2000x128 .f32) (harg3 : arg3.IsWhole)
    (x0 : Vec F S2000x20 .f32) (x1 : Vec F S20x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.NormSpec.lean ====
import proofs.«411794_j45286135169328_1_alg».proof.Proof.Stages
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal
import Idealize.ShloMosaic.PureOps.Ideal.Laws

noncomputable section

namespace Cert.NormSpec

open Idealize.ShloMosaic Idealize.ShloMosaic.TcCoe Idealize.ShloMosaic.ValueIdx Cert.ReferenceIdeal

def posPart (h mu va g b : EReal) : EReal :=
  max ((h - mu) * Ideal.rsqrt (va + Ideal.ofBits .f32 0x3727C5AC#32) * g + b) (Ideal.ofBits .f32 0x00000000#32)

def rowNorm (h mu va g b : Fin 128 → EReal) (j : Fin 128) : EReal :=
  Ideal.div (posPart (h j) (mu j) (va j) (g j) (b j))
    (max (Ideal.sqrt (∑ k : Fin 128, posPart (h k) (mu k) (va k) (g k) (b k) * posPart (h k) (mu k) (va k) (g k) (b k)))
      (Ideal.ofBits .f32 0x2B8CBCCC#32))

section Reference

variable [Facts]
open Facts₀ Facts

theorem bcastRow_apply {α : Type} (x : S1x128.Idx → α) (h : S1x128.BroadcastsInDim S50000x128 (![0, 1] : Fin 2 → Fin S50000x128.rank))
    (r : Fin 50000) (q : Fin 128) : broadcastInDim S50000x128 ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ => rfl

theorem bcastCol_apply {α : Type} (x : S50000x1.Idx → α) (h : S50000x1.BroadcastsInDim S50000x128 (![0, 1] : Fin 2 → Fin S50000x128.rank))
    (r : Fin 50000) (q : Fin 128) : broadcastInDim S50000x128 ![0, 1] h x (ix2 r q) = x (ix2 r (0 : Fin 1)) := by
  refine broadcastInDim_apply _ h x (ix2 r q) (ix2 r (0 : Fin 1)) fun a => ?_
  match a with
  | ⟨0, _⟩ => rfl
  | ⟨1, _⟩ => rfl

theorem asCol_apply {α : Type} (x : S50000.Idx → α) (h : S50000.BroadcastsInDim S50000x1 (![0] : Fin 1 → Fin S50000x1.rank))
    (r : Fin 50000) (u : Fin 1) : broadcastInDim S50000x1 ![0] h x (ix2 r u) = x (ix1 r) := by
  refine broadcastInDim_apply _ h x (ix2 r u) (ix1 r) fun a => ?_
  match a with
  | ⟨0, _⟩ => rfl

theorem hostSqrt_apply {s : Shape} {φ : FTy} (a : FVec Ideal s φ) (i : s.Idx) : Host.sqrt a i = Ideal.sqrt (a i) := rfl
theorem hostRsqrt_apply {s : Shape} {φ : FTy} (a : FVec Ideal s φ) (i : s.Idx) : Host.rsqrt a i = Ideal.rsqrt (a i) := rfl

theorem liftRow_apply (h : S50000x128.Reduces [1] S50000) (r : Fin 50000) (k : Fin 128) : h.lift (ix1 r) k = ix2 r k := by
  funext a
  apply Fin.ext
  match a with
  | ⟨0, _⟩ => rfl
  | ⟨1, _⟩ => rfl

def posArr (h : FVec Ideal S50000x128 .f32) (mu va g b : FVec Ideal S1x128 .f32) : FVec Ideal S50000x128 .f32 :=
  maximumf
    (addf
      (mulf
        (mulf (subf h (broadcastInDim S50000x128 ![0, 1] bcast_S1x128_S50000x128_0_1 mu))
          (broadcastInDim S50000x128 ![0, 1] bcast_S1x128_S50000x128_0_1
            (Host.rsqrt (addf va (broadcastInDim S1x128 ![] bcast_S_S1x128 (constant S_ .f32 0x3727C5AC#32))))))
        (broadcastInDim S50000x128 ![0, 1] bcast_S1x128_S50000x128_0_1 g))
      (broadcastInDim S50000x128 ![0, 1] bcast_S1x128_S50000x128_0_1 b))
    (broadcastInDim S50000x128 ![] bcast_S_S50000x128 (constant S_ .f32 0x00000000#32))

theorem posArr_apply (h : FVec Ideal S50000x128 .f32) (mu va g b : FVec Ideal S1x128 .f32) (r : Fin 50000) (k : Fin 128) :
    posArr h mu va g b (ix2 r k)
      = posPart (h (ix2 r k)) (mu (ix2 (0 : Fin 1) k)) (va (ix2 (0 : Fin 1) k)) (g (ix2 (0 : Fin 1) k)) (b (ix2 (0 : Fin 1) k)) := by
  unfold posArr posPart
  rw [maximumf_apply, addf_apply, mulf_apply, mulf_apply, subf_apply,
    bcastRow_apply mu bcast_S1x128_S50000x128_0_1 r k, bcastRow_apply g bcast_S1x128_S50000x128_0_1 r k,
    bcastRow_apply b bcast_S1x128_S50000x128_0_1 r k, bcastRow_apply (Host.rsqrt _) bcast_S1x128_S50000x128_0_1 r k,
    hostRsqrt_apply, addf_apply]
  rfl

theorem normCore_eq (h : FVec Ideal S50000x128 .f32) (mu va g b : FVec Ideal S1x128 .f32) :
    Cert.Stages.normCore (F := Ideal) h mu va g b
      = Host.divf (posArr h mu va g b)
          (broadcastInDim S50000x128 ![0, 1] bcast_S50000x1_S50000x128_0_1
            (maximumf
              (Host.sqrt (broadcastInDim S50000x1 ![0] bcast_S50000_S50000x1_0
                (Host.reduceAdd (mulf (posArr h mu va g b) (posArr h mu va g b)) (constant S_ .f32 0x00000000#32)
                  reducesTo_S50000x128_S50000_d1 h_S_)))
              (broadcastInDim S50000x1 ![] bcast_S_S50000x1 (constant S_ .f32 0x2B8CBCCC#32)))) := rfl

theorem normCore_apply (h : FVec Ideal S50000x128 .f32) (mu va g b : FVec Ideal S1x128 .f32) (r : Fin 50000) (q : Fin 128) :
    Cert.Stages.normCore (F := Ideal) h mu va g b (ix2 r q)
      = rowNorm (fun k => h (ix2 r k)) (fun k => mu (ix2 (0 : Fin 1) k)) (fun k => va (ix2 (0 : Fin 1) k))
          (fun k => g (ix2 (0 : Fin 1) k)) (fun k => b (ix2 (0 : Fin 1) k)) q := by
  have hR : S50000x128.Reduces [1] S50000 := by decide
  have hs : (∑ k : Fin 128, mulf (posArr h mu va g b) (posArr h mu va g b) (hR.lift (ix1 r) k))
      = ∑ k : Fin 128, posPart (h (ix2 r k)) (mu (ix2 (0 : Fin 1) k)) (va (ix2 (0 : Fin 1) k)) (g (ix2 (0 : Fin 1) k)) (b (ix2 (0 : Fin 1) k))
          * posPart (h (ix2 r k)) (mu (ix2 (0 : Fin 1) k)) (va (ix2 (0 : Fin 1) k)) (g (ix2 (0 : Fin 1) k)) (b (ix2 (0 : Fin 1) k)) :=
    Finset.sum_congr rfl fun k _ => by rw [liftRow_apply, mulf_apply, posArr_apply]
  rw [normCore_eq, hostDivf_apply, posArr_apply, bcastCol_apply _ bcast_S50000x1_S50000x128_0_1 r q, maximumf_apply, hostSqrt_apply,
    asCol_apply _ bcast_S50000_S50000x1_0 r 0, hostReduceAdd_apply, Ideal.hostReduceAdd_single reducesTo_S50000x128_S50000_d1 hR]
  unfold rowNorm
  show Ideal.div _ (max (Ideal.sqrt (Ideal.ofBits .f32 0x00000000#32
      + ∑ k : Fin 128, mulf (posArr h mu va g b) (posArr h mu va g b) (hR.lift (ix1 r) k))) (Ideal.ofBits .f32 0x2B8CBCCC#32)) = _
  rw [hs, Ideal.ofBits_zero_f32, zero_add]

end Reference

abbrev Blk : Shape := ⟨2, ![2000, 128]⟩
abbrev Row : Shape := ⟨2, ![1, 128]⟩
abbrev BlkVec : Shape := ⟨1, ![2000]⟩
abbrev BlkCol : Shape := ⟨2, ![2000, 1]⟩

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem liftLane_apply (h : Blk.Reduces [1] BlkVec) (p : Fin 2000) (k : Fin 128) : h.lift (ix1 p) k = ix2 p k := by
  funext a
  apply Fin.ext
  match a with
  | ⟨0, _⟩ => rfl
  | ⟨1, _⟩ => rfl

theorem laneSum_apply (src : FVec Ideal Blk .f32) (h : Blk.Reduces [1] BlkVec) (hφ : FKind.Formats .f32)
    (hacc : (0x00000000#32 : BitVec 32) = 0x00000000#32) (p : Fin 2000) :
    multiReduction .add [1] BlkVec src 0x00000000#32 h hφ hacc (ix1 p) = ∑ k : Fin 128, src (ix2 p k) :=
  (Ideal.multiReduction_add_single src 0x00000000#32 h hφ hacc (ix1 p)).trans (by
    show (∑ k : Fin 128, src (h.lift (ix1 p) k)) = _
    exact Finset.sum_congr rfl fun k _ => by rw [liftLane_apply])

def posBlk (hb : Row.Broadcasts Blk) (x : FVec Ideal Blk .f32) (mu va g b : FVec Ideal Row .f32) : FVec Ideal Blk .f32 :=
  maximumf
    (addf
      (mulf
        (mulf (subf x (broadcastTo Blk mu hb))
          (broadcastTo Blk (rsqrt (addf va (broadcast Row (Scalar.ofBits .f32 0x3727C5AC#32)))) hb))
        (broadcastTo Blk g hb))
      (broadcastTo Blk b hb))
    (broadcast Blk (Scalar.ofBits .f32 0x00000000#32))

theorem posBlk_apply (hb : Row.Broadcasts Blk) (x : FVec Ideal Blk .f32) (mu va g b : FVec Ideal Row .f32) (p : Fin 2000) (k : Fin 128) :
    posBlk hb x mu va g b (ix2 p k)
      = posPart (x (ix2 p k)) (mu (ix2 (0 : Fin 1) k)) (va (ix2 (0 : Fin 1) k)) (g (ix2 (0 : Fin 1) k)) (b (ix2 (0 : Fin 1) k)) := by
  unfold posBlk posPart
  rw [maximumf_apply, addf_apply, mulf_apply, mulf_apply, subf_apply,
    broadcastTo_1b_ab_apply mu hb p k, broadcastTo_1b_ab_apply g hb p k, broadcastTo_1b_ab_apply b hb p k,
    broadcastTo_1b_ab_apply (rsqrt _) hb p k]
  rfl

def blockNorm (hb : Row.Broadcasts Blk) (hr : Blk.Reduces [1] BlkVec) (hc : BlkVec.ShapeCasts BlkCol) (hbc : BlkCol.Broadcasts Blk)
    (x : FVec Ideal Blk .f32) (mu va g b : FVec Ideal Row .f32) : FVec Ideal Blk .f32 :=
  divf (posBlk hb x mu va g b)
    (broadcastTo Blk
      (maximumf
        (sqrt (shapeCast BlkCol
          (multiReduction .add [1] BlkVec (mulf (posBlk hb x mu va g b) (posBlk hb x mu va g b)) 0x00000000#32 hr (.inl rfl) rfl) hc))
        (broadcast BlkCol (Scalar.ofBits .f32 0x2B8CBCCC#32)))
      hbc)

theorem blockNorm_apply (hb : Row.Broadcasts Blk) (hr : Blk.Reduces [1] BlkVec) (hc : BlkVec.ShapeCasts BlkCol) (hbc : BlkCol.Broadcasts Blk)
    (x : FVec Ideal Blk .f32) (mu va g b : FVec Ideal Row .f32) (p : Fin 2000) (q : Fin 128) :
    blockNorm hb hr hc hbc x mu va g b (ix2 p q)
      = rowNorm (fun k => x (ix2 p k)) (fun k => mu (ix2 (0 : Fin 1) k)) (fun k => va (ix2 (0 : Fin 1) k))
          (fun k => g (ix2 (0 : Fin 1) k)) (fun k => b (ix2 (0 : Fin 1) k)) q := by
  have hs : (∑ k : Fin 128, mulf (posBlk hb x mu va g b) (posBlk hb x mu va g b) (ix2 p k))
      = ∑ k : Fin 128, posPart (x (ix2 p k)) (mu (ix2 (0 : Fin 1) k)) (va (ix2 (0 : Fin 1) k)) (g (ix2 (0 : Fin 1) k)) (b (ix2 (0 : Fin 1) k))
          * posPart (x (ix2 p k)) (mu (ix2 (0 : Fin 1) k)) (va (ix2 (0 : Fin 1) k)) (g (ix2 (0 : Fin 1) k)) (b (ix2 (0 : Fin 1) k)) :=
    Finset.sum_congr rfl fun k _ => by rw [mulf_apply, posBlk_apply]
  unfold blockNorm rowNorm
  rw [divf_apply, posBlk_apply, broadcastTo_a1_ab_apply _ hbc p q, maximumf_apply]
  show Ideal.div _ (max (Ideal.sqrt (shapeCast BlkCol
      (multiReduction .add [1] BlkVec (mulf (posBlk hb x mu va g b) (posBlk hb x mu va g b)) 0x00000000#32 hr (.inl rfl) rfl) hc
      (ix2 p (0 : Fin 1)))) (Ideal.ofBits .f32 0x2B8CBCCC#32)) = _
  rw [shapeCast_a_a1_apply _ hc p 0, laneSum_apply _ hr (.inl rfl) rfl p, hs]

end Cert.NormSpec

end
-- ==== Proof.KB.Reg1.lean ====
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import proofs.«411794_j45286135169328_1_alg».proof.Proof.NormSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

def out1_5 (x0 : Vec F S2000x128 .f32) (x1 x2 x3 x4 : Vec F S1x128 .f32) : Vec F S2000x128 .f32 :=
  View.canon [⟨r1_0, k1_pay1 (View.ld x0 r1_0) (View.ld x1 r1_1) (View.ld x2 r1_1) (View.ld x3 r1_1) (View.ld x4 r1_1)⟩]

theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__norm_kernel i arg1 harg1 arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.KernelVsHost
import Idealize.ShloMosaic.Lib.StackMember
import Idealize.ShloMosaic.PureOps.Ideal
import Idealize.ShloMosaic.PureOps.Ideal.Laws

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x512 := Rect.unit (s := S128x512) ![0, 0] S128x512.size inb_S128x512_S128x512_0_0
abbrev r2_2 : Rect S2000x512 := Rect.unit (s := S2000x512) ![0, 0] S2000x512.size inb_S2000x512_S2000x512_0_0

def out2_2 (x0 : Vec F S2000x128 .f32) (x1 : Vec F S128x512 .f32) : Vec F S2000x512 .f32 :=
  View.canon [⟨r2_2, k2_pay1 (View.ld x0 r2_0) (View.ld x1 r2_1)⟩]

theorem cover2_2 (p0 : Vec F S2000x512 .f32) (y : S2000x512.Idx) :
    ∃ pc ∈ ([⟨r2_2, p0⟩] : List (View.Piece (Elt F) S2000x512 .f32)), y ∈ pc.1.set :=
  View.cover_of_tiled [⟨r2_2, p0⟩] S2000x512.size (by rfl) y

set_option maxHeartbeats 1000000 in
theorem sound_kernel2 (c : Dev nD) (E : Set ℕ) (i : grid2.Coords) (arg1 : Memref sig .tc .vmem S2000x128 .f32) (harg1 : arg1.IsWhole)
    (arg2 : Memref sig .tc .vmem S128x512 .f32) (harg2 : arg2.IsWhole) (arg3 : Memref sig .tc .vmem S2000x512 .f32) (harg3 : arg3.IsWhole)
    (x0 : Vec F S2000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws
import Idealize.ShloMosaic.Lib.Pipeline.Value
import Idealize.ShloMosaic.Lib.IdealHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev whole3 : Rect S4000x128 := Rect.unit (s := S4000x128) ![0, 0] S4000x128.size inb_S4000x128_S4000x128_0_0

def out3_3 (a b v : Vec F S4000x128 .f32) : Vec F S4000x128 .f32 :=
  View.canon [⟨whole3, k3_pay1 (View.ld a whole3) (View.ld b whole3) (View.ld v whole3)⟩]

theorem cover3_3 (p : Vec F S4000x128 .f32) (y : S4000x128.Idx) :
    ∃ pc ∈ ([⟨whole3, p⟩] : List (View.Piece (Elt F) S4000x128 .f32)), y ∈ pc.1.set :=
  View.cover_of_tiled [⟨whole3, p⟩] S4000x128.size (by rfl) y

set_option maxHeartbeats 1000000 in
theorem sound_kernel3 (c : Dev nD) (E : Set ℕ) (i : grid3.Coords)
    (ma : Memref sig .tc .vmem S4000x128 .f32) (wa : ma.IsWhole) (mb : Memref sig .tc .vmem S4000x128 .f32) (wb : mb.IsWhole)
    (mv : Memref sig .tc .vmem S4000x128 .f32) (wv : mv.IsWhole) (mo : Memref sig .tc .vmem S4000x128 .f32) (wo : mo.IsWhole)
    (a b v : Vec F S4000x128 .f32) (K : PUnit → sProp 𝕄) :
    iprop(owns (c : Thread nD τ) ma fullShare a ∗ owns (c : Thread nD τ) mb fullShare b ∗ owns (c : Thread nD τ) mv fullShare v
        ∗ (∃ d, owns (c : Thread nD τ) mo fullShare d)
        ∗ (iprop(owns (c : Thread nD τ) ma fullShare a ∗ owns (c : Thread nD τ) mb fullShare b ∗ owns (c : Thread nD τ) mv fullShare v
            ∗ owns (c : Thread nD τ) mo fullShare (out3_3 a b v)) -∗ K ⟨⟩))
      ⊢ wp frame (wpE (defs₀ (F := F)) Variants.none c none) E (cc3__msg_kernel i ma wa mb wb mv wv mo wo) K := by
  simp only [cc3__msg_kernel_eq_skeleton]; unfold cc3__msg_kernel_skel
  unfold owns
  iintro ⟨⟨%fa, %hfa, Ha⟩, ⟨%fb, %hfb, Hb⟩, ⟨%fv, %hfv, Hv⟩, ⟨%d, %fo, -, Ho⟩, HK⟩
  subst hfa hfb hfv
  sl_exec
  sl_step
  iapply HK
  isplitl [Ha]
  · iexists fa; isplitr; · ipureintro; rfl
    iexact Ha
  isplitl [Hb]
  · iexists fb; isplitr; · ipureintro; rfl
    iexact Hb
  isplitl [Hv]
  · iexists fv; isplitr; · ipureintro; rfl
    iexact Hv
  iexists _; isplitr
  swap; · iexact Ho
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t := by
  rw [(dat3 V c).before_fetched 0 t (fetch3_0 t) d]; unfold Dat.fetched Dat.blockOf iblk3; rw [A_eq3]; rfl
theorem before3_1 (c : Dev nD) (t : Fin cfg3.N) (d) : (dat3 V c).before 1 t d = iblk3 V c 1 t := by
  rw [(dat3 V c).before_fetched 1 t (fetch3_1 t) d]; unfold Dat.fetched Dat.blockOf iblk3; rw [A_eq3]; rfl
theorem before3_2 (c : Dev nD) (t : Fin cfg3.N) (d) : (dat3 V c).before 2 t d = iblk3 V c 2 t := by
  rw [(dat3 V c).before_fetched 2 t (fetch3_2 t) d]; unfold Dat.fetched Dat.blockOf iblk3; rw [A_eq3]; rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Hd, ⟨%da, Ha⟩, ⟨%db, Hb⟩, ⟨%dv, Hv⟩, ⟨%dout, Ho⟩⟩
  iapply (sound_kernel3 c Set.univ (grid3.coords t) _ _ _ _ _ _ _ _ (iblk3 V c 0 t) (iblk3 V c 1 t) (iblk3 V c 2 t) _)
  iframe Ha Hb Hv
  isplitl [Ho]; · iexists _; iexact Ho
  iintro ⟨Ha, Hb, Hv, Ho⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import proofs.«411794_j45286135169328_1_alg».proof.Proof.NormSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0

def out4_6 (x0 x1 : Vec F S2000x128 .f32) (x2 x3 x4 x5 : Vec F S1x128 .f32) : Vec F S2000x128 .f32 :=
  View.canon [⟨r4_0, k4_pay1 (View.ld x0 r4_0) (View.ld x1 r4_0) (View.ld x2 r4_1) (View.ld x3 r4_1) (View.ld x4 r4_1) (View.ld x5 r4_1)⟩]

theorem cover4_6 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

set_option maxHeartbeats 1000000 in
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__add_norm_kernel i arg1 harg1 arg2 harg2 arg3 harg3 arg4 harg4 arg5 harg5 arg6 harg6 arg7 harg7) K := by
  simp only [cc4__add_norm_kernel_eq_skeleton]; unfold cc4__add_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) (iblk4 V c 5 t) _)
  iframe H0 H1 H2 H3 H4 H5
  isplitl [H6]; · iexists _; iexact H6
  iintro ⟨H0, H1, H2, H3, H4, H5, H6⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.lean ====
import proofs.«411794_j45286135169328_1_alg».proof.Proof.KB.Reg2
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.KernelVsHost
import Idealize.ShloMosaic.Lib.StackMember
import Idealize.ShloMosaic.PureOps.Ideal
import Idealize.ShloMosaic.PureOps.Ideal.Laws

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem sound_kernel5 (c : Dev nD) (E : Set ℕ) (i : grid5.Coords) (arg1 : Memref sig .tc .vmem S2000x128 .f32) (harg1 : arg1.IsWhole)
    (arg2 : Memref sig .tc .vmem S128x512 .f32) (harg2 : arg2.IsWhole) (arg3 : Memref sig .tc .vmem S2000x512 .f32) (harg3 : arg3.IsWhole)
    (x0 : Vec F S2000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc5__matmul_kernel i arg1 harg1 arg2 harg2 arg3 harg3) K :=
  sound_kernel2 c E i arg1 harg1 arg2 harg2 arg3 harg3 x0 x1 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out2_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out2_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  iframe H0 H1
  isplitl [H2]; · iexists _; iexact H2
  iintro ⟨H0, H1, H2⟩
  iframe

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
import proofs.«411794_j45286135169328_1_alg».proof.Proof.KB.Reg3
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws
import Idealize.ShloMosaic.Lib.Pipeline.Value
import Idealize.ShloMosaic.Lib.IdealHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem sound_kernel6 (c : Dev nD) (E : Set ℕ) (i : grid6.Coords)
    (ma : Memref sig .tc .vmem S4000x128 .f32) (wa : ma.IsWhole) (mb : Memref sig .tc .vmem S4000x128 .f32) (wb : mb.IsWhole)
    (mv : Memref sig .tc .vmem S4000x128 .f32) (wv : mv.IsWhole) (mo : Memref sig .tc .vmem S4000x128 .f32) (wo : mo.IsWhole)
    (a b v : Vec F S4000x128 .f32) (K : PUnit → sProp 𝕄) :
    iprop(owns (c : Thread nD τ) ma fullShare a ∗ owns (c : Thread nD τ) mb fullShare b ∗ owns (c : Thread nD τ) mv fullShare v
        ∗ (∃ d, owns (c : Thread nD τ) mo fullShare d)
        ∗ (iprop(owns (c : Thread nD τ) ma fullShare a ∗ owns (c : Thread nD τ) mb fullShare b ∗ owns (c : Thread nD τ) mv fullShare v
            ∗ owns (c : Thread nD τ) mo fullShare (out3_3 a b v)) -∗ K ⟨⟩))
      ⊢ wp frame (wpE (defs₀ (F := F)) Variants.none c none) E (cc6__msg_kernel i ma wa mb wb mv wv mo wo) K :=
  sound_kernel3 c E i ma wa mb wb mv wv mo wo a b v K

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out3_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out3_3 (iblk6 V c 0 t) (iblk6 V c 1 t) (iblk6 V c 2 t) := by dsimp only [dat6]

theorem before6_0 (c : Dev nD) (t : Fin cfg6.N) (d) : (dat6 V c).before 0 t d = iblk6 V c 0 t := by
  rw [(dat6 V c).before_fetched 0 t (fetch6_0 t) d]; unfold Dat.fetched Dat.blockOf iblk6; rw [A_eq6]; rfl
theorem before6_1 (c : Dev nD) (t : Fin cfg6.N) (d) : (dat6 V c).before 1 t d = iblk6 V c 1 t := by
  rw [(dat6 V c).before_fetched 1 t (fetch6_1 t) d]; unfold Dat.fetched Dat.blockOf iblk6; rw [A_eq6]; rfl
theorem before6_2 (c : Dev nD) (t : Fin cfg6.N) (d) : (dat6 V c).before 2 t d = iblk6 V c 2 t := by
  rw [(dat6 V c).before_fetched 2 t (fetch6_2 t) d]; unfold Dat.fetched Dat.blockOf iblk6; rw [A_eq6]; rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Hd, ⟨%da, Ha⟩, ⟨%db, Hb⟩, ⟨%dv, Hv⟩, ⟨%dout, Ho⟩⟩
  iapply (sound_kernel6 c Set.univ (grid6.coords t) _ _ _ _ _ _ _ _ (iblk6 V c 0 t) (iblk6 V c 1 t) (iblk6 V c 2 t) _)
  iframe Ha Hb Hv
  isplitl [Ho]; · iexists _; iexact Ho
  iintro ⟨Ha, Hb, Hv, Ho⟩
  iframe

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg7.lean ====
import proofs.«411794_j45286135169328_1_alg».proof.Proof.KB.Reg4
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.ReferenceIdeal
import proofs.«411794_j45286135169328_1_alg».proof.Proof.Stages
import proofs.«411794_j45286135169328_1_alg».proof.Proof.NormSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem sound_kernel7 (c : Dev nD) (E : Set ℕ) (i : grid7.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc7__add_norm_kernel i arg1 harg1 arg2 harg2 arg3 harg3 arg4 harg4 arg5 harg5 arg6 harg6 arg7 harg7) K :=
  sound_kernel4 c E i arg1 harg1 arg2 harg2 arg3 harg3 arg4 harg4 arg5 harg5 arg6 harg6 arg7 harg7 x0 x1 x2 x3 x4 x5 K

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out4_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) :
    (dat7 V c).after 6 t = out4_6 (iblk7 V c 0 t) (iblk7 V c 1 t) (iblk7 V c 2 t) (iblk7 V c 3 t) (iblk7 V c 4 t) (iblk7 V c 5 t) := by
  dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _
    (iblk7 V c 0 t) (iblk7 V c 1 t) (iblk7 V c 2 t) (iblk7 V c 3 t) (iblk7 V c 4 t) (iblk7 V c 5 t) _)
  iframe H0 H1 H2 H3 H4 H5
  isplitl [H6]; · iexists _; iexact H6
  iintro ⟨H0, H1, H2, H3, H4, H5, H6⟩
  iframe

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Fold.lean ====
import proofs.«411794_j45286135169328_1_alg».proof.Proof.Gen.Kernel.Launch
import proofs.«411794_j45286135169328_1_alg».proof.Proof.Gen.Kernel.Skeleton
import proofs.«411794_j45286135169328_1_alg».proof.Proof.Gen.Kernel.Points
import proofs.«411794_j45286135169328_1_alg».proof.Proof.Gen.Kernel.Regions
import proofs.«411794_j45286135169328_1_alg».proof.Proof.KB.Reg0
import proofs.«411794_j45286135169328_1_alg».proof.Proof.KB.Reg1
import proofs.«411794_j45286135169328_1_alg».proof.Proof.KB.Reg2
import proofs.«411794_j45286135169328_1_alg».proof.Proof.KB.Reg3
import proofs.«411794_j45286135169328_1_alg».proof.Proof.KB.Reg4
import proofs.«411794_j45286135169328_1_alg».proof.Proof.KB.Reg5
import proofs.«411794_j45286135169328_1_alg».proof.Proof.KB.Reg6
import proofs.«411794_j45286135169328_1_alg».proof.Proof.KB.Reg7
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-! # The buffers' contents at every boundary between two items of @main

  A fold from the launch memory: a stretch of host operations rewrites the buffers it writes, a kernel region replaces
  its output array by what its write-backs leave (the proof data's array at the last grid point, from the contents the
  region was entered with) and leaves every other buffer. W j c is core c's contents after item j-1; outs reads the
  regions' output arrays off them, and the valuations the conditional frame is stated over are these. -/

variable {F : FTy → Type} [FloatOps F]
variable (m : (ℓ : Loc nD τ sig) → Buf (Elt F) ℓ)

/-- Core c's contents at launch. -/
def W0 (c : Dev nD) : Valuation τ sig (Elt F) := fun b => m (c, b)
/-- After the host stretch hostOps0. -/
def W1 (c : Dev nD) : Valuation τ sig (Elt F) := StableHlo.after hostOps0 (W0 m c)
/-- What region 0 is entered with, read at the TensorCore's references. -/
abbrev E0 : (c : Dev nD) → (b : Ref sig .tc) → Buf (Elt F) ((c : Thread nD τ).loc b) := fun c b => W1 m c b
/-- What region 0's write-backs leave in its output array main_v4. -/
def o0 (c : Dev nD) : Buf (Elt F) ((c : Thread nD τ).loc main_v4) := (dat0 (E0 m) c).arrAt 2 cfg0.N
/-- After region 0: main_v4 replaced, every other buffer as entered. -/
def W2 (c : Dev nD) : Valuation τ sig (Elt F) := Function.update (W1 m c) main_v4 (o0 m c)
/-- After the host stretch hostOps1. -/
def W3 (c : Dev nD) : Valuation τ sig (Elt F) := StableHlo.after hostOps1 (W2 m c)
/-- After the host stretch hostOps1_1. -/
def W4 (c : Dev nD) : Valuation τ sig (Elt F) := StableHlo.after hostOps1_1 (W3 m c)
/-- After the host stretch hostOps1_2. -/
def W5 (c : Dev nD) : Valuation τ sig (Elt F) := StableHlo.after hostOps1_2 (W4 m c)
/-- What region 1 is entered with, read at the TensorCore's references. -/
abbrev E1 : (c : Dev nD) → (b : Ref sig .tc) → Buf (Elt F) ((c : Thread nD τ).loc b) := fun c b => W5 m c b
/-- What region 1's write-backs leave in its output array main_v12. -/
def o1 (c : Dev nD) : Buf (Elt F) ((c : Thread nD τ).loc main_v12) := (dat1 (E1 m) c).arrAt 5 cfg1.N
/-- After region 1: main_v12 replaced, every other buffer as entered. -/
def W6 (c : Dev nD) : Valuation τ sig (Elt F) := Function.update (W5 m c) main_v12 (o1 m c)
/-- After the host stretch hostOps2. -/
def W7 (c : Dev nD) : Valuation τ sig (Elt F) := StableHlo.after hostOps2 (W6 m c)
/-- What region 2 is entered with, read at the TensorCore's references. -/
abbrev E2 : (c : Dev nD) → (b : Ref sig .tc) → Buf (Elt F) ((c : Thread nD τ).loc b) := fun c b => W7 m c b
/-- What region 2's write-backs leave in its output array main_v22. -/
def o2 (c : Dev nD) : Buf (Elt F) ((c : Thread nD τ).loc main_v22) := (dat2 (E2 m) c).arrAt 2 cfg2.N
/-- After region 2: main_v22 replaced, every other buffer as entered. -/
def W8 (c : Dev nD) : Valuation τ sig (Elt F) := Function.update (W7 m c) main_v22 (o2 m c)
/-- After the host stretch hostOps3. -/
def W9 (c : Dev nD) : Valuation τ sig (Elt F) := StableHlo.after hostOps3 (W8 m c)
/-- After the host stretch hostOps3_1. -/
def W10 (c : Dev nD) : Valuation τ sig (Elt F) := StableHlo.after hostOps3_1 (W9 m c)
/-- After the host stretch hostOps3_2. -/
def W11 (c : Dev nD) : Valuation τ sig (Elt F) := StableHlo.after hostOps3_2 (W10 m c)
/-- After the host stretch hostOps3_3. -/
def W12 (c : Dev nD) : Valuation τ sig (Elt F) := StableHlo.after hostOps3_3 (W11 m c)
/-- What region 3 is entered with, read at the TensorCore's references. -/
abbrev E3 : (c : Dev nD) → (b : Ref sig .tc) → Buf (Elt F) ((c : Thread nD τ).loc b) := fun c b => W12 m c b
/-- What region 3's write-backs leave in its output array main_v30. -/
def o3 (c : Dev nD) : Buf (Elt F) ((c : Thread nD τ).loc main_v30) := (dat3 (E3 m) c).arrAt 3 cfg3.N
/-- After region 3: main_v30 replaced, every other buffer as entered. -/
def W13 (c : Dev nD) : Valuation τ sig (Elt F) := Function.update (W12 m c) main_v30 (o3 m c)
/-- After the host stretch hostOps4. -/
def W14 (c : Dev nD) : Valuation τ sig (Elt F) := StableHlo.after hostOps4 (W13 m c)
/-- After the host stretch hostOps4_1. -/
def W15 (c : Dev nD) : Valuation τ sig (Elt F) := StableHlo.after hostOps4_1 (W14 m c)
/-- After the host stretch hostOps4_2. -/
def W16 (c : Dev nD) : Valuation τ sig (Elt F) := StableHlo.after hostOps4_2 (W15 m c)
/-- What region 4 is entered with, read at the TensorCore's references. -/
abbrev E4 : (c : Dev nD) → (b : Ref sig .tc) → Buf (Elt F) ((c : Thread nD τ).loc b) := fun c b => W16 m c b
/-- What region 4's write-backs leave in its output array main_v46. -/
def o4 (c : Dev nD) : Buf (Elt F) ((c : Thread nD τ).loc main_v46) := (dat4 (E4 m) c).arrAt 6 cfg4.N
/-- After region 4: main_v46 replaced, every other buffer as entered. -/
def W17 (c : Dev nD) : Valuation τ sig (Elt F) := Function.update (W16 m c) main_v46 (o4 m c)
/-- After the host stretch hostOps5. -/
def W18 (c : Dev nD) : Valuation τ sig (Elt F) := StableHlo.after hostOps5 (W17 m c)
/-- What region 5 is entered with, read at the TensorCore's references. -/
abbrev E5 : (c : Dev nD) → (b : Ref sig .tc) → Buf (Elt F) ((c : Thread nD τ).loc b) := fun c b => W18 m c b
/-- What region 5's write-backs leave in its output array main_v56. -/
def o5 (c : Dev nD) : Buf (Elt F) ((c : Thread nD τ).loc main_v56) := (dat5 (E5 m) c).arrAt 2 cfg5.N
/-- After region 5: main_v56 replaced, every other buffer as entered. -/
def W19 (c : Dev nD) : Valuation τ sig (Elt F) := Function.update (W18 m c) main_v56 (o5 m c)
/-- After the host stretch hostOps6. -/
def W20 (c : Dev nD) : Valuation τ sig (Elt F) := StableHlo.after hostOps6 (W19 m c)
/-- After the host stretch hostOps6_1. -/
def W21 (c : Dev nD) : Valuation τ sig (Elt F) := StableHlo.after hostOps6_1 (W20 m c)
/-- After the host stretch hostOps6_2. -/
def W22 (c : Dev nD) : Valuation τ sig (Elt F) := StableHlo.after hostOps6_2 (W21 m c)
/-- After the host stretch hostOps6_3. -/
def W23 (c : Dev nD) : Valuation τ sig (Elt F) := StableHlo.after hostOps6_3 (W22 m c)
/-- What region 6 is entered with, read at the TensorCore's references. -/
abbrev E6 : (c : Dev nD) → (b : Ref sig .tc) → Buf (Elt F) ((c : Thread nD τ).loc b) := fun c b => W23 m c b
/-- What region 6's write-backs leave in its output array main_v64. -/
def o6 (c : Dev nD) : Buf (Elt F) ((c : Thread nD τ).loc main_v64) := (dat6 (E6 m) c).arrAt 3 cfg6.N
/-- After region 6: main_v64 replaced, every other buffer as entered. -/
def W24 (c : Dev nD) : Valuation τ sig (Elt F) := Function.update (W23 m c) main_v64 (o6 m c)
/-- After the host stretch hostOps7. -/
def W25 (c : Dev nD) : Valuation τ sig (Elt F) := StableHlo.after hostOps7 (W24 m c)
/-- After the host stretch hostOps7_1. -/
def W26 (c : Dev nD) : Valuation τ sig (Elt F) := StableHlo.after hostOps7_1 (W25 m c)
/-- After the host stretch hostOps7_2. -/
def W27 (c : Dev nD) : Valuation τ sig (Elt F) := StableHlo.after hostOps7_2 (W26 m c)
/-- What region 7 is entered with, read at the TensorCore's references. -/
abbrev E7 : (c : Dev nD) → (b : Ref sig .tc) → Buf (Elt F) ((c : Thread nD τ).loc b) := fun c b => W27 m c b
/-- What region 7's write-backs leave in its output array main_v80. -/
def o7 (c : Dev nD) : Buf (Elt F) ((c : Thread nD τ).loc main_v80) := (dat7 (E7 m) c).arrAt 6 cfg7.N
/-- After region 7: main_v80 replaced, every other buffer as entered. -/
def W28 (c : Dev nD) : Valuation τ sig (Elt F) := Function.update (W27 m c) main_v80 (o7 m c)

/-- The regions' output arrays after each region, as the conditional frame's unknowns. -/
def outs : Gen.Outs (F := F) := fun J r c =>
  match J with
  | 2 => W2 m c r
  | 6 => W6 m c r
  | 8 => W8 m c r
  | 13 => W13 m c r
  | 17 => W17 m c r
  | 19 => W19 m c r
  | 24 => W24 m c r
  | 28 => W28 m c r
  | _ => W0 m c r

theorem outs_2 (c : Dev nD) : outs m 2 main_v4 c = o0 m c := by
  show W2 m c main_v4 = _
  unfold W2; exact Function.update_self ..
theorem outs_6 (c : Dev nD) : outs m 6 main_v12 c = o1 m c := by
  show W6 m c main_v12 = _
  unfold W6; exact Function.update_self ..
theorem outs_8 (c : Dev nD) : outs m 8 main_v22 c = o2 m c := by
  show W8 m c main_v22 = _
  unfold W8; exact Function.update_self ..
theorem outs_13 (c : Dev nD) : outs m 13 main_v30 c = o3 m c := by
  show W13 m c main_v30 = _
  unfold W13; exact Function.update_self ..
theorem outs_17 (c : Dev nD) : outs m 17 main_v46 c = o4 m c := by
  show W17 m c main_v46 = _
  unfold W17; exact Function.update_self ..
theorem outs_19 (c : Dev nD) : outs m 19 main_v56 c = o5 m c := by
  show W19 m c main_v56 = _
  unfold W19; exact Function.update_self ..
theorem outs_24 (c : Dev nD) : outs m 24 main_v64 c = o6 m c := by
  show W24 m c main_v64 = _
  unfold W24; exact Function.update_self ..
theorem outs_28 (c : Dev nD) : outs m 28 main_v80 c = o7 m c := by
  show W28 m c main_v80 = _
  unfold W28; exact Function.update_self ..

/-! ## The conditional frame's valuations are this fold -/

theorem V0_eq (c : Dev nD) : Gen.V0 m c = W0 m c := rfl
theorem V1_eq (c : Dev nD) : Gen.V1 m c = W1 m c := by
  show StableHlo.after hostOps0 (Gen.V0 m c) = _
  rw [V0_eq]; rfl
theorem V2_eq (c : Dev nD) : Gen.V2 m (outs m) c = W2 m c := by
  show Function.update (Gen.V1 m c) main_v4 (outs m 2 main_v4 c) = _
  rw [V1_eq, outs_2]; rfl
theorem V3_eq (c : Dev nD) : Gen.V3 m (outs m) c = W3 m c := by
  show StableHlo.after hostOps1 (Gen.V2 m (outs m) c) = _
  rw [V2_eq]; rfl
theorem V4_eq (c : Dev nD) : Gen.V4 m (outs m) c = W4 m c := by
  show StableHlo.after hostOps1_1 (Gen.V3 m (outs m) c) = _
  rw [V3_eq]; rfl
theorem V5_eq (c : Dev nD) : Gen.V5 m (outs m) c = W5 m c := by
  show StableHlo.after hostOps1_2 (Gen.V4 m (outs m) c) = _
  rw [V4_eq]; rfl
theorem V6_eq (c : Dev nD) : Gen.V6 m (outs m) c = W6 m c := by
  show Function.update (Gen.V5 m (outs m) c) main_v12 (outs m 6 main_v12 c) = _
  rw [V5_eq, outs_6]; rfl
theorem V7_eq (c : Dev nD) : Gen.V7 m (outs m) c = W7 m c := by
  show StableHlo.after hostOps2 (Gen.V6 m (outs m) c) = _
  rw [V6_eq]; rfl
theorem V8_eq (c : Dev nD) : Gen.V8 m (outs m) c = W8 m c := by
  show Function.update (Gen.V7 m (outs m) c) main_v22 (outs m 8 main_v22 c) = _
  rw [V7_eq, outs_8]; rfl
theorem V9_eq (c : Dev nD) : Gen.V9 m (outs m) c = W9 m c := by
  show StableHlo.after hostOps3 (Gen.V8 m (outs m) c) = _
  rw [V8_eq]; rfl
theorem V10_eq (c : Dev nD) : Gen.V10 m (outs m) c = W10 m c := by
  show StableHlo.after hostOps3_1 (Gen.V9 m (outs m) c) = _
  rw [V9_eq]; rfl
theorem V11_eq (c : Dev nD) : Gen.V11 m (outs m) c = W11 m c := by
  show StableHlo.after hostOps3_2 (Gen.V10 m (outs m) c) = _
  rw [V10_eq]; rfl
theorem V12_eq (c : Dev nD) : Gen.V12 m (outs m) c = W12 m c := by
  show StableHlo.after hostOps3_3 (Gen.V11 m (outs m) c) = _
  rw [V11_eq]; rfl
theorem V13_eq (c : Dev nD) : Gen.V13 m (outs m) c = W13 m c := by
  show Function.update (Gen.V12 m (outs m) c) main_v30 (outs m 13 main_v30 c) = _
  rw [V12_eq, outs_13]; rfl
theorem V14_eq (c : Dev nD) : Gen.V14 m (outs m) c = W14 m c := by
  show StableHlo.after hostOps4 (Gen.V13 m (outs m) c) = _
  rw [V13_eq]; rfl
theorem V15_eq (c : Dev nD) : Gen.V15 m (outs m) c = W15 m c := by
  show StableHlo.after hostOps4_1 (Gen.V14 m (outs m) c) = _
  rw [V14_eq]; rfl
theorem V16_eq (c : Dev nD) : Gen.V16 m (outs m) c = W16 m c := by
  show StableHlo.after hostOps4_2 (Gen.V15 m (outs m) c) = _
  rw [V15_eq]; rfl
theorem V17_eq (c : Dev nD) : Gen.V17 m (outs m) c = W17 m c := by
  show Function.update (Gen.V16 m (outs m) c) main_v46 (outs m 17 main_v46 c) = _
  rw [V16_eq, outs_17]; rfl
theorem V18_eq (c : Dev nD) : Gen.V18 m (outs m) c = W18 m c := by
  show StableHlo.after hostOps5 (Gen.V17 m (outs m) c) = _
  rw [V17_eq]; rfl
theorem V19_eq (c : Dev nD) : Gen.V19 m (outs m) c = W19 m c := by
  show Function.update (Gen.V18 m (outs m) c) main_v56 (outs m 19 main_v56 c) = _
  rw [V18_eq, outs_19]; rfl
theorem V20_eq (c : Dev nD) : Gen.V20 m (outs m) c = W20 m c := by
  show StableHlo.after hostOps6 (Gen.V19 m (outs m) c) = _
  rw [V19_eq]; rfl
theorem V21_eq (c : Dev nD) : Gen.V21 m (outs m) c = W21 m c := by
  show StableHlo.after hostOps6_1 (Gen.V20 m (outs m) c) = _
  rw [V20_eq]; rfl
theorem V22_eq (c : Dev nD) : Gen.V22 m (outs m) c = W22 m c := by
  show StableHlo.after hostOps6_2 (Gen.V21 m (outs m) c) = _
  rw [V21_eq]; rfl
theorem V23_eq (c : Dev nD) : Gen.V23 m (outs m) c = W23 m c := by
  show StableHlo.after hostOps6_3 (Gen.V22 m (outs m) c) = _
  rw [V22_eq]; rfl
theorem V24_eq (c : Dev nD) : Gen.V24 m (outs m) c = W24 m c := by
  show Function.update (Gen.V23 m (outs m) c) main_v64 (outs m 24 main_v64 c) = _
  rw [V23_eq, outs_24]; rfl
theorem V25_eq (c : Dev nD) : Gen.V25 m (outs m) c = W25 m c := by
  show StableHlo.after hostOps7 (Gen.V24 m (outs m) c) = _
  rw [V24_eq]; rfl
theorem V26_eq (c : Dev nD) : Gen.V26 m (outs m) c = W26 m c := by
  show StableHlo.after hostOps7_1 (Gen.V25 m (outs m) c) = _
  rw [V25_eq]; rfl
theorem V27_eq (c : Dev nD) : Gen.V27 m (outs m) c = W27 m c := by
  show StableHlo.after hostOps7_2 (Gen.V26 m (outs m) c) = _
  rw [V26_eq]; rfl
theorem V28_eq (c : Dev nD) : Gen.V28 m (outs m) c = W28 m c := by
  show Function.update (Gen.V27 m (outs m) c) main_v80 (outs m 28 main_v80 c) = _
  rw [V27_eq, outs_28]; rfl

end Cert.Kernel.Hand

end
-- ==== Proof.KB.RunBase.lean ====
import proofs.«411794_j45286135169328_1_alg».proof.Proof.KB.Fold
import Idealize.ShloMosaic.Lib.Pipeline.Kit
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 8) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
  | ⟨5, _⟩ => fun c => dat5 (E5 m) c
  | ⟨6, _⟩ => fun c => dat6 (E6 m) c
  | ⟨7, _⟩ => fun c => dat7 (E7 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev Rs : Fin 9 → Dev nD → sProp 𝕄 := fun _ c => R c

theorem result_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem update_other (V : Valuation τ sig (Elt F)) (o b : Ref sig .tc) (x) (h : b ≠ o) :
    Function.update V (Proc.devRef .tc o) x (Proc.devRef .tc b) = V (Proc.devRef .tc b) :=
  Function.update_of_ne (StableHlo.devRef_ne_of_ne h) _ _

end Cert.Kernel.Hand

end
-- ==== Proof.KB.RunReg0.lean ====
import proofs.«411794_j45286135169328_1_alg».proof.Proof.KB.RunBase
import Idealize.ShloMosaic.Lib.Pipeline.Kit
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A region changes only its output array: every other array keeps the contents the region was entered with. -/
def regOf (p : Fin 8) (launch : Pipeline.LaunchFacts (nD := nD) (τ := τ) cfgs p) (o : Fin (cfgs p).W)
    (hins : ∀ w : Fin (cfgs p).W, w ≠ o → ((cfgs p).win w).isOut = false ∧ Pipeline.arrRef (cfgs p).spec w ≠ Pipeline.arrRef (cfgs p).spec o)
    (hbody : ∀ c, BodyObligation (pdats m p c) (defs₀ (F := F)) Variants.none () Set.univ)
    (hΦ : ∀ c i, (pdats m p c).Φ i = Pipeline.ΦA (cfgs p).spec c) (hq : ∀ c w, (pdats m p c).q w = fullShare)
    (howed : ∀ c t, (pdats m p c).owed t = 0) (hrec : ∀ c t, (pdats m p c).recorded t = Set.univ) (E X : Dev nD → Valuation τ sig (Elt F))
    (hA : ∀ c w, (pdats m p c).A w = E c (Pipeline.arrRef (cfgs p).spec w))
    (hX : ∀ c, X c = Function.update (E c) (Pipeline.arrRef (cfgs p).spec o) ((pdats m p c).arrAt o (cfgs p).N)) :
    Pipeline.RegionSeg (pcfgs (F := F)) Gen.adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (E c) ∗ R c)
  post c := iprop(StableHlo.held (c : Thread nD τ) (Pipeline.ucRefs τ sig) (X c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => E c b)
  hentry c := by
    rw [Pipeline.ownSems0_none]
    have hsplit := Pipeline.arrays_of_unscopedBufs (p := p) (pcfgs (F := F)) Gen.adm (pdats m) launch.win launch.arr_whole c
      ((pdats m p c).share_full (hq c)) (fun b => E c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      launch.win launch.arr_whole c (pdats m) ((pdats m p c).share_full (hq c))
      (fun b => E c b) (fun b => X c b) ((pdats m p c).arrAt · (cfgs p).N)
      (fun w => by
        rw [hX c]
        by_cases hw : w = o
        · subst hw
          show (pdats m p c).arrAt w (cfgs p).N = (Function.update (E c) (Pipeline.arrRef (cfgs p).spec w) ((pdats m p c).arrAt w (cfgs p).N) : Valuation τ sig (Elt F))
            (Pipeline.arrRef (cfgs p).spec w)
          exact (Function.update_self (α := DevRef τ sig) (β := fun b => b.ty.Contents (Elt F)) _ _ _).symm
        · obtain ⟨hin, hne⟩ := hins w hw
          exact (((pdats m p c).arrAt_in w hin _).trans (hA c w)).trans (update_other _ _ _ _ hne).symm)
      (fun b hb => by
        rw [hX c]
        exact update_other _ _ _ _ fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 := regOf m 0 launch0 2 (by decide) (fun c => body_obligation0 (E0 m) c) (fun _ _ => rfl) (fun _ _ => rfl) (fun _ _ => rfl) (fun _ _ => rfl)
  (W1 m) (W2 m) (fun c w => A_eq0 (E0 m) c w) (fun _ => rfl)
def reg1 := regOf m 1 launch1 5 (by decide) (fun c => body_obligation1 (E1 m) c) (fun _ _ => rfl) (fun _ _ => rfl) (fun _ _ => rfl) (fun _ _ => rfl)
  (W5 m) (W6 m) (fun c w => A_eq1 (E1 m) c w) (fun _ => rfl)
def reg2 := regOf m 2 launch2 2 (by decide) (fun c => body_obligation2 (E2 m) c) (fun _ _ => rfl) (fun _ _ => rfl) (fun _ _ => rfl) (fun _ _ => rfl)
  (W7 m) (W8 m) (fun c w => A_eq2 (E2 m) c w) (fun _ => rfl)
def reg3 := regOf m 3 launch3 3 (by decide) (fun c => body_obligation3 (E3 m) c) (fun _ _ => rfl) (fun _ _ => rfl) (fun _ _ => rfl) (fun _ _ => rfl)
  (W12 m) (W13 m) (fun c w => A_eq3 (E3 m) c w) (fun _ => rfl)
def reg4 := regOf m 4 launch4 6 (by decide) (fun c => body_obligation4 (E4 m) c) (fun _ _ => rfl) (fun _ _ => rfl) (fun _ _ => rfl) (fun _ _ => rfl)
  (W16 m) (W17 m) (fun c w => A_eq4 (E4 m) c w) (fun _ => rfl)
def reg5 := regOf m 5 launch5 2 (by decide) (fun c => body_obligation5 (E5 m) c) (fun _ _ => rfl) (fun _ _ => rfl) (fun _ _ => rfl) (fun _ _ => rfl)
  (W18 m) (W19 m) (fun c w => A_eq5 (E5 m) c w) (fun _ => rfl)
def reg6 := regOf m 6 launch6 3 (by decide) (fun c => body_obligation6 (E6 m) c) (fun _ _ => rfl) (fun _ _ => rfl) (fun _ _ => rfl) (fun _ _ => rfl)
  (W23 m) (W24 m) (fun c w => A_eq6 (E6 m) c w) (fun _ => rfl)
def reg7 := regOf m 7 launch7 6 (by decide) (fun c => body_obligation7 (E7 m) c) (fun _ _ => rfl) (fun _ _ => rfl) (fun _ _ => rfl) (fun _ _ => rfl)
  (W27 m) (W28 m) (fun c w => A_eq7 (E7 m) c w) (fun _ => rfl)

end Cert.Kernel.Hand

end
-- ==== Proof.KB.Run.lean ====
import proofs.«411794_j45286135169328_1_alg».proof.Proof.KB.RunReg0
import Idealize.ShloMosaic.Lib.Pipeline.Kit
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal contents, equal thread states. -/
theorem held_congr (c : Dev nD) {A B : Valuation τ sig (Elt F)} (h : A = B) :
    iprop(StableHlo.held (c : Thread nD τ) (Pipeline.ucRefs τ sig) A ∗ R c) ⊢ iprop(StableHlo.held (c : Thread nD τ) (Pipeline.ucRefs τ sig) B ∗ R c) := by
  rw [h]

theorem hlast (c : Dev nD) : (reg7 m).post c ⊢ iprop(iprop(StableHlo.held (c : Thread nD τ) (Pipeline.ucRefs τ sig) (Gen.V28 m (outs m) c) ∗ ∃ r, prngReg c r)
    ∗ ∃ W, owes (c : Thread nD τ) (0 : CellTallies nD τ sig Unit) W) := by
  rw [V28_eq m c]
  show iprop(StableHlo.held (c : Thread nD τ) (Pipeline.ucRefs τ sig) (W28 m c) ∗ R c) ⊢ _
  iintro ⟨Hh, Hp, HO⟩
  isplitl [Hh Hp]
  · isplitl [Hh]; · iexact Hh
    iexact Hp
  iexact HO

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W28 m c b) := by
  refine Pipeline.θ_run_regions_kit_dev (pcfgs (F := F)) Gen.adm (pdats m) () cellOf_inj emb₁ defs₀ 𝒱₀ L lv m ρ main
    (Gen.segs m (outs m) 𝒱₀ L lv Rs () (pdats m) (reg0 m) (reg1 m) (reg2 m) (reg3 m) (reg4 m) (reg5 m) (reg6 m) (reg7 m))
    (fun c Q => by
      rewrite [main_chain c, Seg.run_eq_chain,
        show (Gen.segs m (outs m) 𝒱₀ L lv Rs () (pdats m) (reg0 m) (reg1 m) (reg2 m) (reg3 m) (reg4 m) (reg5 m) (reg6 m) (reg7 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          Prog.lift (.customCall (Pipeline.entry 6) ()),
          StableHlo.seq hostOps7,
          StableHlo.seq hostOps7_1,
          StableHlo.seq hostOps7_2,
          Prog.lift (.customCall (Pipeline.entry 7) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rs 0 c))
    (Tₙ := fun c => iprop(StableHlo.held (c : Thread nD τ) (Pipeline.ucRefs τ sig) (Gen.V28 m (outs m) c) ∗ ∃ r, prngReg c r))
    (hch := fun c => ⟨.rfl, held_congr c (V1_eq m c), held_congr c (V2_eq m c).symm, .rfl, .rfl, held_congr c (V5_eq m c), held_congr c (V6_eq m c).symm, held_congr c (V7_eq m c), held_congr c (V8_eq m c).symm, .rfl, .rfl, .rfl, held_congr c (V12_eq m c), held_congr c (V13_eq m c).symm, .rfl, .rfl, held_congr c (V16_eq m c), held_congr c (V17_eq m c).symm, held_congr c (V18_eq m c), held_congr c (V19_eq m c).symm, .rfl, .rfl, .rfl, held_congr c (V23_eq m c), held_congr c (V24_eq m c).symm, .rfl, .rfl, held_congr c (V27_eq m c), hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V28 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V28 m (outs m) c) s')
      isplitl [Hh] <;> iassumption)
    (hQ := fun s h c b hb => (h c b hb).trans (congrFun (V28_eq m c) b))

/-- Every execution ends with the result array at the fold's last contents and each argument as launched. -/
theorem run_args : θ_run defs (onTc (τ := τ) (main (F := F))) ⟨m, fun _ => 0, ρ⟩ (fun r => ∀ c : Dev nD,
      r.2.mem ((c.tc : Thread nD τ).loc main_v80) = W28 m c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (result_mem main_v80 (by decide)),
    (h c _ (result_mem main_arg0 (by decide))).trans ((congrFun (V28_eq m c) _).symm.trans (Gen.V28_main_arg0 m (outs m) c)),
    (h c _ (result_mem main_arg1 (by decide))).trans ((congrFun (V28_eq m c) _).symm.trans (Gen.V28_main_arg1 m (outs m) c)),
    (h c _ (result_mem main_arg2 (by decide))).trans ((congrFun (V28_eq m c) _).symm.trans (Gen.V28_main_arg2 m (outs m) c)),
    (h c _ (result_mem main_arg3 (by decide))).trans ((congrFun (V28_eq m c) _).symm.trans (Gen.V28_main_arg3 m (outs m) c)),
    (h c _ (result_mem main_arg4 (by decide))).trans ((congrFun (V28_eq m c) _).symm.trans (Gen.V28_main_arg4 m (outs m) c)),
    (h c _ (result_mem main_arg5 (by decide))).trans ((congrFun (V28_eq m c) _).symm.trans (Gen.V28_main_arg5 m (outs m) c)),
    (h c _ (result_mem main_arg6 (by decide))).trans ((congrFun (V28_eq m c) _).symm.trans (Gen.V28_main_arg6 m (outs m) c)),
    (h c _ (result_mem main_arg7 (by decide))).trans ((congrFun (V28_eq m c) _).symm.trans (Gen.V28_main_arg7 m (outs m) c)),
    (h c _ (result_mem main_arg8 (by decide))).trans ((congrFun (V28_eq m c) _).symm.trans (Gen.V28_main_arg8 m (outs m) c)),
    (h c _ (result_mem main_arg9 (by decide))).trans ((congrFun (V28_eq m c) _).symm.trans (Gen.V28_main_arg9 m (outs m) c)),
    (h c _ (result_mem main_arg10 (by decide))).trans ((congrFun (V28_eq m c) _).symm.trans (Gen.V28_main_arg10 m (outs m) c))⟩) (run_all m ρ)

end Cert.Kernel.Hand

end
-- ==== Proof.KI.Reg0.lean ====
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.KernelVsHost
import Idealize.ShloMosaic.Lib.StackMember
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x20 := Rect.unit (s := S2000x20) ![0, 0] S2000x20.size inb_S2000x20_S2000x20_0_0
abbrev r0_1 : Rect S20x128 := Rect.unit (s := S20x128) ![0, 0] S20x128.size inb_S20x128_S20x128_0_0
abbrev r0_2 : Rect S2000x128 := Rect.unit (s := S2000x128) ![0, 0] S2000x128.size inb_S2000x128_S2000x128_0_0

def out0_2 (x0 : Vec F S2000x20 .f32) (x1 : Vec F S20x128 .f32) : Vec F S2000x128 .f32 :=
  View.canon [⟨r0_2, k0_pay1 (View.ld x0 r0_0) (View.ld x1 r0_1)⟩]

theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

set_option maxHeartbeats 1000000 in
theorem sound_kernel0 (c : Dev nD) (E : Set ℕ) (i : grid0.Coords) (arg1 : Memref sig .tc .vmem S2000x20 .f32) (harg1 : arg1.IsWhole)
    (arg2 : Memref sig .tc .vmem S20x128 .f32) (harg2 : arg2.IsWhole) (arg3 : Memref sig .tc .vmem S2000x128 .f32) (harg3 : arg3.IsWhole)
    (x0 : Vec F S2000x20 .f32) (x1 : Vec F S20x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

section Value

open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

theorem dims_blk0 : dot_S2000x20_S20x128_S2000x128_1_0_0_1_n_n = DotDims.plain 2000 20 128 := rfl
theorem dims_all0 : Cert.ReferenceIdeal.dot_S50000x20_S20x128_S50000x128_1_0_0_1_n_n = DotDims.plain 50000 20 128 := rfl

theorem pay0 (x0 : Vec Ideal S2000x20 .f32) (x1 : Vec Ideal S20x128 .f32) (p : Fin 2000) (q : Fin 128) :
    k0_pay1 x0 x1 (ix2 p q) = ∑ k : Fin 20, x0 (ix2 p k) * x1 (ix2 k q) := by
  unfold k0_pay1
  rw [matmul_zero_eq_dotGeneral, dims_blk0]
  exact StackMember.dotGeneral_plain_apply none _ _ p q

theorem lin_apply0 (X : FVec Ideal S50000x20 .f32) (W : FVec Ideal S20x128 .f32) (r : Fin 50000) (q : Fin 128) :
    Cert.Stages.lin (F := Ideal) X W (ix2 r q) = ∑ k : Fin 20, X (ix2 r k) * W (ix2 k q) := by
  unfold Cert.Stages.lin
  rw [dims_all0]
  exact StackMember.dotGeneral_plain_apply none X W r q

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem blk_l0 (c : Dev nD) (t : Fin cfg0.N) (p : Fin 2000) (k : Fin 20) (r : Fin 50000) (hr : r.val = 2000 * t.val + p.val) :
    (iblk0 V c 0 t : Vec Ideal S2000x20 .f32) (ix2 p k) = (V c main_arg0 : FVec Ideal S50000x20 .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 20 + 1 * k.val = k.val; rw [e1]; omega

theorem blk_r0 (c : Dev nD) (t : Fin cfg0.N) (k : Fin 20) (q : Fin 128) :
    (iblk0 V c 1 t : Vec Ideal S20x128 .f32) (ix2 k q) = (V c main_arg2 : FVec Ideal S20x128 .f32) (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 20 + 1 * k.val = k.val; rw [e2]; omega
  | ⟨1, _⟩ => show win0_1.index t (1 : Fin 2) * 128 + 1 * q.val = q.val; rw [e3]; omega

/-- Block t of the output is rows 2000t .. 2000t + 1999 of x times W. -/
theorem flushed0 (c : Dev nD) (t : Fin cfg0.N) :
    (dat0 V c).flushed 2 t = ((cfg0.win 2).blk t).view.read (Elt Ideal)
      (Cert.Stages.lin (F := Ideal) (V c main_arg0) (V c main_arg2) : FVec Ideal S50000x128 .f32) := by
  show (cfg0.win 2).cut (grid0.coords t) ((dat0 V c).after 2 t) = _
  rw [after0_2]
  unfold out0_2
  rw [View.canon_unit_zero hz0]
  simp only [View.ld_unit_zero (S := S2000x20) hz0, View.ld_unit_zero (S := S20x128) hz0]
  obtain ⟨-, -, -, -, e4, e5⟩ := idx_facts0 t
  have hN : t.val < 25 := Nat.lt_of_lt_of_eq t.isLt N_0
  funext j
  obtain ⟨p, q, rfl⟩ : ∃ (p : Fin 2000) (q : Fin 128), j = ix2 p q := ⟨j 0, j 1, eq_ix2 j⟩
  have hemb : ((cfg0.win 2).blk t).view.emb (ix2 p q)
      = (ix2 (⟨2000 * t.val + p.val, by omega⟩ : Fin 50000) q : S50000x128.Idx) := by
    funext a
    apply Fin.ext
    match a with
    | ⟨0, _⟩ => show win0_2.index t (0 : Fin 2) * 2000 + 1 * p.val = 2000 * t.val + p.val; rw [e4]; omega
    | ⟨1, _⟩ => show win0_2.index t (1 : Fin 2) * 128 + 1 * q.val = q.val; rw [e5]; omega
  show k0_pay1 (iblk0 V c 0 t) (iblk0 V c 1 t) (ix2 p q)
    = Cert.Stages.lin (F := Ideal) (V c main_arg0) (V c main_arg2) (((cfg0.win 2).blk t).view.emb (ix2 p q))
  rw [hemb, lin_apply0]
  refine (pay0 (iblk0 V c 0 t) (iblk0 V c 1 t) p q).trans (Finset.sum_congr rfl fun k _ => ?_)
  rw [blk_l0 V c t p k ⟨2000 * t.val + p.val, by omega⟩ rfl, blk_r0 V c t k q]

theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

theorem covered0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- The 25 row blocks tile the 50000 rows, so the array is x · W. -/
theorem val0 (V : (c : Dev nD) → (b : Ref sig .tc) → Buf (Elt Ideal) ((c : Thread nD τ).loc b)) (c : Dev nD) :
    ((dat0 V c).arrAt 2 cfg0.N : FVec Ideal S50000x128 .f32) = Cert.Stages.lin (F := Ideal) (V c main_arg0) (V c main_arg2) :=
  (dat0 V c).arrAt_eq_of_cover 2 (Cert.Stages.lin (F := Ideal) (V c main_arg0) (V c main_arg2) : FVec Ideal S50000x128 .f32)
    (fun t _ => flushed0 V c t) covered0

end Value

end Cert.KernelIdeal.Hand

end
-- ==== Proof.KI.Reg1.lean ====
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import proofs.«411794_j45286135169328_1_alg».proof.Proof.NormSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

def out1_5 (x0 : Vec F S2000x128 .f32) (x1 x2 x3 x4 : Vec F S1x128 .f32) : Vec F S2000x128 .f32 :=
  View.canon [⟨r1_0, k1_pay1 (View.ld x0 r1_0) (View.ld x1 r1_1) (View.ld x2 r1_1) (View.ld x3 r1_1) (View.ld x4 r1_1)⟩]

theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__norm_kernel i arg1 harg1 arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

section Value

open Idealize.ShloMosaic.ValueIdx

theorem hz1 : (![0, 0] : Fin 2 → Nat) = fun _ => 0 := funext fun a => by fin_cases a <;> rfl

theorem pay1_eq (x0 : Vec Ideal S2000x128 .f32) (x1 x2 x3 x4 : Vec Ideal S1x128 .f32) :
    k1_pay1 x0 x1 x2 x3 x4
      = Cert.NormSpec.blockNorm Facts₀.broadcasts_S1x128_S2000x128 Facts₀.reduces_S2000x128_S2000 Facts₀.shapeCasts_S2000_S2000x1
          Facts₀.broadcasts_S2000x1_S2000x128 x0 x1 x2 x3 x4 := by
  unfold k1_pay1 Cert.NormSpec.blockNorm Cert.NormSpec.posBlk
  simp only [shapeCast_self]

theorem pay1_at (h : FVec Ideal S50000x128 .f32) (mu va g b : FVec Ideal S1x128 .f32)
    (x0 : Vec Ideal S2000x128 .f32) (x1 x2 x3 x4 : Vec Ideal S1x128 .f32) (p : Fin 2000) (q : Fin 128) (r : Fin 50000)
    (h0 : ∀ k : Fin 128, x0 (ix2 p k) = h (ix2 r k)) (h1 : ∀ k : Fin 128, x1 (ix2 (0 : Fin 1) k) = mu (ix2 (0 : Fin 1) k))
    (h2 : ∀ k : Fin 128, x2 (ix2 (0 : Fin 1) k) = va (ix2 (0 : Fin 1) k)) (h3 : ∀ k : Fin 128, x3 (ix2 (0 : Fin 1) k) = g (ix2 (0 : Fin 1) k))
    (h4 : ∀ k : Fin 128, x4 (ix2 (0 : Fin 1) k) = b (ix2 (0 : Fin 1) k)) :
    k1_pay1 x0 x1 x2 x3 x4 (ix2 p q) = Cert.Stages.normCore (F := Ideal) h mu va g b (ix2 r q) := by
  rw [pay1_eq, Cert.NormSpec.blockNorm_apply, Cert.NormSpec.normCore_apply]
  simp only [h0, h1, h2, h3, h4]

theorem idx1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

theorem blockRow1 (c : Dev nD) (t : Fin cfg1.N) (p : Fin 2000) (k : Fin 128) (r : Fin 50000) (hr : r.val = 2000 * t.val + p.val) :
    (iblk1 V c 0 t : Vec Ideal S2000x128 .f32) (ix2 p k) = (V c main_v4 : FVec Ideal S50000x128 .f32) (ix2 r k) := by
  obtain ⟨e0, e1, -⟩ := idx1 t
  unfold iblk1
  rw [View.read_apply]
  show V c main_v4 _ = V c main_v4 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

theorem rowsOf1 (c : Dev nD) (t : Fin cfg1.N) (k : Fin 128) :
    (iblk1 V c 1 t : Vec Ideal S1x128 .f32) (ix2 (0 : Fin 1) k) = (V c main_v8 : FVec Ideal S1x128 .f32) (ix2 (0 : Fin 1) k)
    ∧ (iblk1 V c 2 t : Vec Ideal S1x128 .f32) (ix2 (0 : Fin 1) k) = (V c main_v9 : FVec Ideal S1x128 .f32) (ix2 (0 : Fin 1) k)
    ∧ (iblk1 V c 3 t : Vec Ideal S1x128 .f32) (ix2 (0 : Fin 1) k) = (V c main_v10 : FVec Ideal S1x128 .f32) (ix2 (0 : Fin 1) k)
    ∧ (iblk1 V c 4 t : Vec Ideal S1x128 .f32) (ix2 (0 : Fin 1) k) = (V c main_v11 : FVec Ideal S1x128 .f32) (ix2 (0 : Fin 1) k) := by
  obtain ⟨-, -, -, -, a0, a1, b0, b1, c0, c1, d0, d1⟩ := idx1 t
  refine ⟨?_, ?_, ?_, ?_⟩
  · unfold iblk1; rw [View.read_apply]; show V c main_v8 _ = V c main_v8 _
    congr 1; funext a; apply Fin.ext
    match a with
    | ⟨0, _⟩ => show win1_1.index t (0 : Fin 2) * 1 + 1 * 0 = 0; rw [a0]
    | ⟨1, _⟩ => show win1_1.index t (1 : Fin 2) * 128 + 1 * k.val = k.val; rw [a1]; omega
  · unfold iblk1; rw [View.read_apply]; show V c main_v9 _ = V c main_v9 _
    congr 1; funext a; apply Fin.ext
    match a with
    | ⟨0, _⟩ => show win1_2.index t (0 : Fin 2) * 1 + 1 * 0 = 0; rw [b0]
    | ⟨1, _⟩ => show win1_2.index t (1 : Fin 2) * 128 + 1 * k.val = k.val; rw [b1]; omega
  · unfold iblk1; rw [View.read_apply]; show V c main_v10 _ = V c main_v10 _
    congr 1; funext a; apply Fin.ext
    match a with
    | ⟨0, _⟩ => show win1_3.index t (0 : Fin 2) * 1 + 1 * 0 = 0; rw [c0]
    | ⟨1, _⟩ => show win1_3.index t (1 : Fin 2) * 128 + 1 * k.val = k.val; rw [c1]; omega
  · unfold iblk1; rw [View.read_apply]; show V c main_v11 _ = V c main_v11 _
    congr 1; funext a; apply Fin.ext
    match a with
    | ⟨0, _⟩ => show win1_4.index t (0 : Fin 2) * 1 + 1 * 0 = 0; rw [d0]
    | ⟨1, _⟩ => show win1_4.index t (1 : Fin 2) * 128 + 1 * k.val = k.val; rw [d1]; omega

theorem flushed1_eq (c : Dev nD) (t : Fin cfg1.N) :
    (dat1 V c).flushed 5 t = ((cfg1.win 5).blk t).view.read (Elt Ideal)
      (Cert.Stages.normCore (F := Ideal) (V c main_v4) (V c main_v8) (V c main_v9) (V c main_v10) (V c main_v11)) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S1x128) hz1]
  obtain ⟨-, -, e0, e1, -⟩ := idx1 t
  funext j
  obtain ⟨p, q, rfl⟩ : ∃ (p : Fin 2000) (q : Fin 128), j = ix2 p q := ⟨j 0, j 1, eq_ix2 j⟩
  have ht : t.val < 25 := lt_of_lt_of_eq t.isLt (show cfg1.N = 25 from N_1)
  have hlt : 2000 * t.val + p.val < 50000 := by omega
  refine (pay1_at (V c main_v4) (V c main_v8) (V c main_v9) (V c main_v10) (V c main_v11) _ _ _ _ _ p q ⟨2000 * t.val + p.val, hlt⟩
    (fun k => blockRow1 V c t p k _ rfl) (fun k => (rowsOf1 V c t k).1) (fun k => (rowsOf1 V c t k).2.1)
    (fun k => (rowsOf1 V c t k).2.2.1) (fun k => (rowsOf1 V c t k).2.2.2)).trans ?_
  rw [View.read_apply]
  congr 1
  funext a
  apply Fin.ext
  match a with
  | ⟨0, _⟩ => show 2000 * t.val + p.val = win1_5.index t (0 : Fin 2) * 2000 + 1 * p.val; rw [e0]; omega
  | ⟨1, _⟩ => show q.val = win1_5.index t (1 : Fin 2) * 128 + 1 * q.val; rw [e1]; omega

theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v12).slice (win1_5.rect t)).set ↔ _
  rw [View.set_slice_whole, Rect.mem_set_unit]
  exact Iff.rfl

theorem covered1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  obtain ⟨-, -, e0, e1, -⟩ := idx1 ⟨(i 0).val / 2000, by rw [hN]; omega⟩
  rw [mem_blk1]
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- A row's norm involves that row only, so normalising block by block is normalising the whole array. -/
theorem val1 (V : (c : Dev nD) → (b : Ref sig .tc) → Buf (Elt Ideal) ((c : Thread nD τ).loc b)) (c : Dev nD) :
    ((dat1 V c).arrAt 5 cfg1.N : FVec Ideal S50000x128 .f32) = Cert.Stages.normCore (F := Ideal) (V c main_v4) (V c main_v8) (V c main_v9) (V c main_v10) (V c main_v11) :=
  (dat1 V c).arrAt_eq_of_cover 5
    (Cert.Stages.normCore (F := Ideal) (V c main_v4) (V c main_v8) (V c main_v9) (V c main_v10) (V c main_v11))
    (fun t _ => flushed1_eq V c t) covered1

end Value

end Cert.KernelIdeal.Hand

end
-- ==== Proof.KI.Reg2.lean ====
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.KernelVsHost
import Idealize.ShloMosaic.Lib.StackMember
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x512 := Rect.unit (s := S128x512) ![0, 0] S128x512.size inb_S128x512_S128x512_0_0
abbrev r2_2 : Rect S2000x512 := Rect.unit (s := S2000x512) ![0, 0] S2000x512.size inb_S2000x512_S2000x512_0_0

def out2_2 (x0 : Vec F S2000x128 .f32) (x1 : Vec F S128x512 .f32) : Vec F S2000x512 .f32 :=
  View.canon [⟨r2_2, k2_pay1 (View.ld x0 r2_0) (View.ld x1 r2_1)⟩]

theorem cover2_2 (p0 : Vec F S2000x512 .f32) (y : S2000x512.Idx) :
    ∃ pc ∈ ([⟨r2_2, p0⟩] : List (View.Piece (Elt F) S2000x512 .f32)), y ∈ pc.1.set :=
  View.cover_of_tiled [⟨r2_2, p0⟩] S2000x512.size (by rfl) y

set_option maxHeartbeats 1000000 in
theorem sound_kernel2 (c : Dev nD) (E : Set ℕ) (i : grid2.Coords) (arg1 : Memref sig .tc .vmem S2000x128 .f32) (harg1 : arg1.IsWhole)
    (arg2 : Memref sig .tc .vmem S128x512 .f32) (harg2 : arg2.IsWhole) (arg3 : Memref sig .tc .vmem S2000x512 .f32) (harg3 : arg3.IsWhole)
    (x0 : Vec F S2000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

section Value

open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

theorem dims_blk2 : dot_S2000x128_S128x512_S2000x512_1_0_0_1_n_n = DotDims.plain 2000 128 512 := rfl
theorem dims_all2 : Cert.ReferenceIdeal.dot_S50000x128_S128x128_S50000x128_1_0_0_1_n_n = DotDims.plain 50000 128 128 := rfl

abbrev prod2 (H : FVec Ideal S50000x128 .f32) (Wc : FVec Ideal S128x512 .f32) : FVec Ideal S50000x512 .f32 :=
  Host.dotGeneral (DotDims.plain 50000 128 512) none H Wc

theorem pay2 (x0 : Vec Ideal S2000x128 .f32) (x1 : Vec Ideal S128x512 .f32) (p : Fin 2000) (q : Fin 512) :
    k2_pay1 x0 x1 (ix2 p q) = ∑ k : Fin 128, x0 (ix2 p k) * x1 (ix2 k q) := by
  unfold k2_pay1
  rw [matmul_zero_eq_dotGeneral, dims_blk2, shapeCast_self, shapeCast_self]
  exact StackMember.dotGeneral_plain_apply none _ _ p q

theorem proj_apply2 (H : FVec Ideal S50000x128 .f32) (w : FVec Ideal S128x128 .f32) (r : Fin 50000) (j : Fin 128) :
    Cert.Stages.proj (F := Ideal) H w (ix2 r j) = ∑ k : Fin 128, H (ix2 r k) * w (ix2 k j) := by
  unfold Cert.Stages.proj
  rw [dims_all2]
  exact StackMember.dotGeneral_plain_apply none H w r j

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem blk_l2 (c : Dev nD) (t : Fin cfg2.N) (p : Fin 2000) (k : Fin 128) (r : Fin 50000) (hr : r.val = 2000 * t.val + p.val) :
    (iblk2 V c 0 t : Vec Ideal S2000x128 .f32) (ix2 p k) = (V c main_v12 : FVec Ideal S50000x128 .f32) (ix2 r k) := by
  obtain ⟨e0, e1, -⟩ := idx_facts2 t
  unfold iblk2
  rw [View.read_apply]
  show V c main_v12 _ = V c main_v12 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

theorem blk_r2 (c : Dev nD) (t : Fin cfg2.N) (k : Fin 128) (q : Fin 512) :
    (iblk2 V c 1 t : Vec Ideal S128x512 .f32) (ix2 k q) = (V c main_v21 : FVec Ideal S128x512 .f32) (ix2 k q) := by
  obtain ⟨-, -, e2, e3, -⟩ := idx_facts2 t
  unfold iblk2
  rw [View.read_apply]
  show V c main_v21 _ = V c main_v21 _
  congr 1
  funext a
  apply Fin.ext
  match a with
  | ⟨0, _⟩ => show win2_1.index t (0 : Fin 2) * 128 + 1 * k.val = k.val; rw [e2]; omega
  | ⟨1, _⟩ => show win2_1.index t (1 : Fin 2) * 512 + 1 * q.val = q.val; rw [e3]; omega

theorem flushed2 (c : Dev nD) (t : Fin cfg2.N) :
    (dat2 V c).flushed 2 t = ((cfg2.win 2).blk t).view.read (Elt Ideal) (prod2 (V c main_v12) (V c main_v21)) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x512) hz2]
  obtain ⟨-, -, -, -, e4, e5⟩ := idx_facts2 t
  have hN : t.val < 25 := Nat.lt_of_lt_of_eq t.isLt N_2
  funext j
  obtain ⟨p, q, rfl⟩ : ∃ (p : Fin 2000) (q : Fin 512), j = ix2 p q := ⟨j 0, j 1, eq_ix2 j⟩
  have hemb : ((cfg2.win 2).blk t).view.emb (ix2 p q)
      = (ix2 (⟨2000 * t.val + p.val, by omega⟩ : Fin 50000) q : S50000x512.Idx) := by
    funext a
    apply Fin.ext
    match a with
    | ⟨0, _⟩ => show win2_2.index t (0 : Fin 2) * 2000 + 1 * p.val = 2000 * t.val + p.val; rw [e4]; omega
    | ⟨1, _⟩ => show win2_2.index t (1 : Fin 2) * 512 + 1 * q.val = q.val; rw [e5]; omega
  show k2_pay1 (iblk2 V c 0 t) (iblk2 V c 1 t) (ix2 p q)
    = prod2 (V c main_v12) (V c main_v21) (((cfg2.win 2).blk t).view.emb (ix2 p q))
  rw [hemb]
  refine (pay2 (iblk2 V c 0 t) (iblk2 V c 1 t) p q).trans (Eq.trans (Finset.sum_congr rfl fun k _ => ?_)
    (StackMember.dotGeneral_plain_apply none _ _ _ q).symm)
  rw [blk_l2 V c t p k ⟨2000 * t.val + p.val, by omega⟩ rfl, blk_r2 V c t k q]

theorem mem_blk2 (t : Fin cfg2.N) (i : S50000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v22).slice (win2_2.rect t)).set ↔ _
  rw [View.set_slice_whole, Rect.mem_set_unit]
  exact Iff.rfl

theorem covered2 (i : S50000x512.Idx) : ∃ t : Fin cfg2.N, (cfg2.win 2).flush t = true ∧ i ∈ ((cfg2.win 2).blk t).view.set := by
  have hi0 : (i 0).val < 50000 := (i 0).isLt
  have hi1 : (i 1).val < 512 := (i 1).isLt
  have hN : cfg2.N = 25 := N_2
  let t : Fin cfg2.N := ⟨(i 0).val / 2000, by rw [hN]; omega⟩
  have ht : t.val = (i 0).val / 2000 := rfl
  obtain ⟨-, -, -, -, e4, e5⟩ := idx_facts2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 512 ≤ (i 1).val ∧ (i 1).val < win2_2.index t (1 : Fin 2) * 512 + 512; rw [e5]; omega

theorem final2 (c : Dev nD) : ((dat2 V c).arrAt 2 cfg2.N : FVec Ideal S50000x512 .f32) = prod2 (V c main_v12) (V c main_v21) :=
  (dat2 V c).arrAt_eq_of_cover 2 (prod2 (V c main_v12) (V c main_v21)) (fun t _ => flushed2 V c t) covered2

theorem slice2_of (H : FVec Ideal S50000x128 .f32) (Wc : FVec Ideal S128x512 .f32) (w : FVec Ideal S128x128 .f32)
    (o : Nat) (ho : o + 128 ≤ 512) (hs : S50000x512.Slices ![0, o] S50000x128)
    (hw : ∀ (k j : Fin 128), Wc (ix2 k (⟨o + j.val, by have := j.isLt; omega⟩ : Fin 512)) = w (ix2 k j)) :
    extractStridedSlice S50000x128 ![0, o] (prod2 H Wc) hs = Cert.Stages.proj (F := Ideal) H w := by
  funext i
  obtain ⟨r, j, rfl⟩ : ∃ (r : Fin 50000) (j : Fin 128), i = ix2 r j := ⟨i 0, i 1, eq_ix2 i⟩
  have hj : o + j.val < 512 := by have := j.isLt; omega
  rw [extractStridedSlice_apply ![0, o] (prod2 H Wc) hs (ix2 r j) (ix2 r (⟨o + j.val, hj⟩ : Fin 512)) (fun a => by
    match a with
    | ⟨0, _⟩ => show r.val = 0 + r.val; omega
    | ⟨1, _⟩ => rfl)]
  rw [proj_apply2]
  refine (StackMember.dotGeneral_plain_apply none H Wc r (⟨o + j.val, hj⟩ : Fin 512)).trans (Finset.sum_congr rfl fun k _ => ?_)
  rw [hw k j]

theorem concat2_apply (w0 w1 w2 w3 : FVec Ideal S128x128 .f32) (k j : Fin 128) :
    concatenate S128x512 1 [⟨S128x128, w0⟩, ⟨S128x128, w1⟩, ⟨S128x128, w2⟩, ⟨S128x128, w3⟩]
        concatenates_S128x128_S128x128_S128x128_S128x128_S128x512_d1 (ix2 k (⟨0 + j.val, by have := j.isLt; omega⟩ : Fin 512)) = w0 (ix2 k j)
    ∧ concatenate S128x512 1 [⟨S128x128, w0⟩, ⟨S128x128, w1⟩, ⟨S128x128, w2⟩, ⟨S128x128, w3⟩]
        concatenates_S128x128_S128x128_S128x128_S128x128_S128x512_d1 (ix2 k (⟨128 + j.val, by have := j.isLt; omega⟩ : Fin 512)) = w1 (ix2 k j)
    ∧ concatenate S128x512 1 [⟨S128x128, w0⟩, ⟨S128x128, w1⟩, ⟨S128x128, w2⟩, ⟨S128x128, w3⟩]
        concatenates_S128x128_S128x128_S128x128_S128x128_S128x512_d1 (ix2 k (⟨256 + j.val, by have := j.isLt; omega⟩ : Fin 512)) = w2 (ix2 k j)
    ∧ concatenate S128x512 1 [⟨S128x128, w0⟩, ⟨S128x128, w1⟩, ⟨S128x128, w2⟩, ⟨S128x128, w3⟩]
        concatenates_S128x128_S128x128_S128x128_S128x128_S128x512_d1 (ix2 k (⟨384 + j.val, by have := j.isLt; omega⟩ : Fin 512)) = w3 (ix2 k j) := by
  refine ⟨?_, ?_, ?_, ?_⟩
  · refine concatenate_apply_piece (t := S128x512) (1 : Fin 2) [⟨S128x128, w0⟩, ⟨S128x128, w1⟩, ⟨S128x128, w2⟩, ⟨S128x128, w3⟩] concatenates_S128x128_S128x128_S128x128_S128x128_S128x512_d1 _ 0 (by simp) S128x128 w0 rfl rfl 0 rfl (ix2 k j) (fun b hb => ?_) ?_
    · match b with
      | ⟨0, _⟩ => rfl
      | ⟨1, _⟩ => exact absurd rfl hb
    · show 0 + j.val = 0 + j.val; rfl
  · refine concatenate_apply_piece (t := S128x512) (1 : Fin 2) [⟨S128x128, w0⟩, ⟨S128x128, w1⟩, ⟨S128x128, w2⟩, ⟨S128x128, w3⟩] concatenates_S128x128_S128x128_S128x128_S128x128_S128x512_d1 _ 1 (by simp) S128x128 w1 rfl rfl 128 rfl (ix2 k j) (fun b hb => ?_) ?_
    · match b with
      | ⟨0, _⟩ => rfl
      | ⟨1, _⟩ => exact absurd rfl hb
    · show 128 + j.val = 128 + j.val; rfl
  · refine concatenate_apply_piece (t := S128x512) (1 : Fin 2) [⟨S128x128, w0⟩, ⟨S128x128, w1⟩, ⟨S128x128, w2⟩, ⟨S128x128, w3⟩] concatenates_S128x128_S128x128_S128x128_S128x128_S128x512_d1 _ 2 (by simp) S128x128 w2 rfl rfl 256 rfl (ix2 k j) (fun b hb => ?_) ?_
    · match b with
      | ⟨0, _⟩ => rfl
      | ⟨1, _⟩ => exact absurd rfl hb
    · show 256 + j.val = 256 + j.val; rfl
  · refine concatenate_apply_piece (t := S128x512) (1 : Fin 2) [⟨S128x128, w0⟩, ⟨S128x128, w1⟩, ⟨S128x128, w2⟩, ⟨S128x128, w3⟩] concatenates_S128x128_S128x128_S128x128_S128x128_S128x512_d1 _ 3 (by simp) S128x128 w3 rfl rfl 384 rfl (ix2 k j) (fun b hb => ?_) ?_
    · match b with
      | ⟨0, _⟩ => rfl
      | ⟨1, _⟩ => exact absurd rfl hb
    · show 384 + j.val = 384 + j.val; rfl

/-- Columns 128a .. 128a + 127 of h · [W_k | W_q | W_v | W_s] are h times the a-th matrix. -/
theorem val2 (V : (c : Dev nD) → (b : Ref sig .tc) → Buf (Elt Ideal) ((c : Thread nD τ).loc b)) (c : Dev nD)
    (wk wq wv ws : FVec Ideal S128x128 .f32)
    (hcat : (V c main_v21 : FVec Ideal S128x512 .f32) = concatenate S128x512 1 [⟨S128x128, wk⟩, ⟨S128x128, wq⟩, ⟨S128x128, wv⟩, ⟨S128x128, ws⟩]
      concatenates_S128x128_S128x128_S128x128_S128x128_S128x512_d1) :
    extractStridedSlice S50000x128 ![0, 0] ((dat2 V c).arrAt 2 cfg2.N : FVec Ideal S50000x512 .f32) slices_S50000x512_S50000x128_0_0
        = Cert.Stages.proj (F := Ideal) (V c main_v12) wk
    ∧ extractStridedSlice S50000x128 ![0, 128] ((dat2 V c).arrAt 2 cfg2.N : FVec Ideal S50000x512 .f32) slices_S50000x512_S50000x128_0_128
        = Cert.Stages.proj (F := Ideal) (V c main_v12) wq
    ∧ extractStridedSlice S50000x128 ![0, 256] ((dat2 V c).arrAt 2 cfg2.N : FVec Ideal S50000x512 .f32) slices_S50000x512_S50000x128_0_256
        = Cert.Stages.proj (F := Ideal) (V c main_v12) wv
    ∧ extractStridedSlice S50000x128 ![0, 384] ((dat2 V c).arrAt 2 cfg2.N : FVec Ideal S50000x512 .f32) slices_S50000x512_S50000x128_0_384
        = Cert.Stages.proj (F := Ideal) (V c main_v12) ws := by
  rw [final2 V c]
  refine ⟨slice2_of _ _ wk 0 (by omega) _ fun k j => ?_, slice2_of _ _ wq 128 (by omega) _ fun k j => ?_,
    slice2_of _ _ wv 256 (by omega) _ fun k j => ?_, slice2_of _ _ ws 384 (by omega) _ fun k j => ?_⟩
  · rw [hcat]; exact (concat2_apply wk wq wv ws k j).1
  · rw [hcat]; exact (concat2_apply wk wq wv ws k j).2.1
  · rw [hcat]; exact (concat2_apply wk wq wv ws k j).2.2.1
  · rw [hcat]; exact (concat2_apply wk wq wv ws k j).2.2.2

end Value

end Cert.KernelIdeal.Hand

end
-- ==== Proof.KI.Reg3.lean ====
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws
import Idealize.ShloMosaic.Lib.Pipeline.Value
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev whole3 : Rect S4000x128 := Rect.unit (s := S4000x128) ![0, 0] S4000x128.size inb_S4000x128_S4000x128_0_0

def out3_3 (a b v : Vec F S4000x128 .f32) : Vec F S4000x128 .f32 :=
  View.canon [⟨whole3, k3_pay1 (View.ld a whole3) (View.ld b whole3) (View.ld v whole3)⟩]

theorem cover3_3 (p : Vec F S4000x128 .f32) (y : S4000x128.Idx) :
    ∃ pc ∈ ([⟨whole3, p⟩] : List (View.Piece (Elt F) S4000x128 .f32)), y ∈ pc.1.set :=
  View.cover_of_tiled [⟨whole3, p⟩] S4000x128.size (by rfl) y

set_option maxHeartbeats 1000000 in
theorem sound_kernel3 (c : Dev nD) (E : Set ℕ) (i : grid3.Coords)
    (ma : Memref sig .tc .vmem S4000x128 .f32) (wa : ma.IsWhole) (mb : Memref sig .tc .vmem S4000x128 .f32) (wb : mb.IsWhole)
    (mv : Memref sig .tc .vmem S4000x128 .f32) (wv : mv.IsWhole) (mo : Memref sig .tc .vmem S4000x128 .f32) (wo : mo.IsWhole)
    (a b v : Vec F S4000x128 .f32) (K : PUnit → sProp 𝕄) :
    iprop(owns (c : Thread nD τ) ma fullShare a ∗ owns (c : Thread nD τ) mb fullShare b ∗ owns (c : Thread nD τ) mv fullShare v
        ∗ (∃ d, owns (c : Thread nD τ) mo fullShare d)
        ∗ (iprop(owns (c : Thread nD τ) ma fullShare a ∗ owns (c : Thread nD τ) mb fullShare b ∗ owns (c : Thread nD τ) mv fullShare v
            ∗ owns (c : Thread nD τ) mo fullShare (out3_3 a b v)) -∗ K ⟨⟩))
      ⊢ wp frame (wpE (defs₀ (F := F)) Variants.none c none) E (cc3__msg_kernel i ma wa mb wb mv wv mo wo) K := by
  simp only [cc3__msg_kernel_eq_skeleton]; unfold cc3__msg_kernel_skel
  unfold owns
  iintro ⟨⟨%fa, %hfa, Ha⟩, ⟨%fb, %hfb, Hb⟩, ⟨%fv, %hfv, Hv⟩, ⟨%d, %fo, -, Ho⟩, HK⟩
  subst hfa hfb hfv
  sl_exec
  sl_step
  iapply HK
  isplitl [Ha]
  · iexists fa; isplitr; · ipureintro; rfl
    iexact Ha
  isplitl [Hb]
  · iexists fb; isplitr; · ipureintro; rfl
    iexact Hb
  isplitl [Hv]
  · iexists fv; isplitr; · ipureintro; rfl
    iexact Hv
  iexists _; isplitr
  swap; · iexact Ho
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t := by
  rw [(dat3 V c).before_fetched 0 t (fetch3_0 t) d]; unfold Dat.fetched Dat.blockOf iblk3; rw [A_eq3]; rfl
theorem before3_1 (c : Dev nD) (t : Fin cfg3.N) (d) : (dat3 V c).before 1 t d = iblk3 V c 1 t := by
  rw [(dat3 V c).before_fetched 1 t (fetch3_1 t) d]; unfold Dat.fetched Dat.blockOf iblk3; rw [A_eq3]; rfl
theorem before3_2 (c : Dev nD) (t : Fin cfg3.N) (d) : (dat3 V c).before 2 t d = iblk3 V c 2 t := by
  rw [(dat3 V c).before_fetched 2 t (fetch3_2 t) d]; unfold Dat.fetched Dat.blockOf iblk3; rw [A_eq3]; rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Hd, ⟨%da, Ha⟩, ⟨%db, Hb⟩, ⟨%dv, Hv⟩, ⟨%dout, Ho⟩⟩
  iapply (sound_kernel3 c Set.univ (grid3.coords t) _ _ _ _ _ _ _ _ (iblk3 V c 0 t) (iblk3 V c 1 t) (iblk3 V c 2 t) _)
  iframe Ha Hb Hv
  isplitl [Ho]; · iexists _; iexact Ho
  iintro ⟨Ha, Hb, Hv, Ho⟩
  iframe

theorem body_obligation3 (c : Dev nD) : BodyObligation (dat3 (F := F) V c) (defs₀ (F := F)) Variants.none () Set.univ := fun t => by
  rw [bigSep_W3, bigSep_W3]
  exact sound_body3 V c t

section Value

open Idealize.ShloMosaic.ValueIdx

theorem zeros3 : (![0, 0] : Fin 2 → Nat) = fun _ => 0 := funext fun a => by fin_cases a <;> rfl

def gate3 (kd qs vs : FVec Ideal S800000x128 .f32) : FVec Ideal S800000x128 .f32 :=
  fun i => Ideal.logistic (kd i + qs i) * vs i

theorem msg_eq_gate3 (kd qs vs : FVec Ideal S800000x128 .f32) :
    Cert.Stages.msg (F := Ideal) kd qs vs = gate3 kd qs vs := by
  funext i
  unfold Cert.Stages.msg gate3
  show Ideal.div (broadcastInDim S800000x128 ![] _ (constant (F := Ideal) S_ .f32 0x3F800000#32) i)
      (broadcastInDim S800000x128 ![] _ (constant (F := Ideal) S_ .f32 0x3F800000#32) i + Ideal.exp (-(kd i + qs i))) * vs i = _
  rw [broadcastInDim_scalar_apply, constant_apply, Ideal.ofBits_one_f32]
  rfl

theorem at_gate3 (kd qs vs : FVec Ideal S800000x128 .f32) (ia ib iv io : S800000x128.Idx) (ha : ia = io) (hb : ib = io) (hv : iv = io) :
    Ideal.logistic (kd ia + qs ib) * vs iv = gate3 kd qs vs io := by
  subst ha hb hv; rfl

theorem apply_pay3 (a b v : Vec Ideal S4000x128 .f32) (j : S4000x128.Idx) :
    k3_pay1 a b v j = Ideal.logistic (a j + b j) * v j := by
  unfold k3_pay1
  simp only [shapeCast_self]
  rfl

theorem idx3 : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem flushed_eq3 (V : (c : Dev nD) → (b : Ref sig .tc) → Buf (Elt Ideal) ((c : Thread nD τ).loc b)) (c : Dev nD) (t : Fin cfg3.N) :
    (dat3 V c).flushed 3 t = ((cfg3.win 3).blk t).view.read (Elt Ideal) (gate3 (V c main_v27) (V c main_v28) (V c main_v29)) := by
  show (cfg3.win 3).cut (grid3.coords t) ((dat3 V c).after 3 t) = _
  rw [after3_3]
  unfold out3_3
  rw [View.canon_unit_zero zeros3]
  simp only [View.ld_unit_zero (S := S4000x128) zeros3]
  obtain ⟨o0, o1, a0, a1, b0, b1, v0, v1⟩ := idx3 t
  funext j
  refine (apply_pay3 _ _ _ j).trans ?_
  have ha : ((cfg3.win 0).blk t).view.emb j = ((cfg3.win 3).blk t).view.emb j := by
    funext x; apply Fin.ext
    match x with
    | ⟨0, _⟩ => show win3_0.index t (0 : Fin 2) * 4000 + 1 * (j 0).val = win3_3.index t (0 : Fin 2) * 4000 + 1 * (j 0).val; rw [a0, o0]
    | ⟨1, _⟩ => show win3_0.index t (1 : Fin 2) * 128 + 1 * (j 1).val = win3_3.index t (1 : Fin 2) * 128 + 1 * (j 1).val; rw [a1, o1]
  have hb : ((cfg3.win 1).blk t).view.emb j = ((cfg3.win 3).blk t).view.emb j := by
    funext x; apply Fin.ext
    match x with
    | ⟨0, _⟩ => show win3_1.index t (0 : Fin 2) * 4000 + 1 * (j 0).val = win3_3.index t (0 : Fin 2) * 4000 + 1 * (j 0).val; rw [b0, o0]
    | ⟨1, _⟩ => show win3_1.index t (1 : Fin 2) * 128 + 1 * (j 1).val = win3_3.index t (1 : Fin 2) * 128 + 1 * (j 1).val; rw [b1, o1]
  have hv : ((cfg3.win 2).blk t).view.emb j = ((cfg3.win 3).blk t).view.emb j := by
    funext x; apply Fin.ext
    match x with
    | ⟨0, _⟩ => show win3_2.index t (0 : Fin 2) * 4000 + 1 * (j 0).val = win3_3.index t (0 : Fin 2) * 4000 + 1 * (j 0).val; rw [v0, o0]
    | ⟨1, _⟩ => show win3_2.index t (1 : Fin 2) * 128 + 1 * (j 1).val = win3_3.index t (1 : Fin 2) * 128 + 1 * (j 1).val; rw [v1, o1]
  exact at_gate3 (V c main_v27) (V c main_v28) (V c main_v29) (((cfg3.win 0).blk t).view.emb j) (((cfg3.win 1).blk t).view.emb j)
    (((cfg3.win 2).blk t).view.emb j) (((cfg3.win 3).blk t).view.emb j) ha hb hv

theorem mem_blk3 (t : Fin cfg3.N) (i : S800000x128.Idx) :
    i ∈ ((cfg3.win 3).blk t).view.set ↔ ∀ a : Fin 2, win3_3.index t a * S4000x128.size a ≤ (i a).val
      ∧ (i a).val < win3_3.index t a * S4000x128.size a + S4000x128.size a := by
  show i ∈ ((View.whole main_v30).slice (win3_3.rect t)).set ↔ _
  rw [View.set_slice_whole, Rect.mem_set_unit]
  exact Iff.rfl

theorem cover3 (i : S800000x128.Idx) :
    ∃ t : Fin cfg3.N, (cfg3.win 3).flush t = true ∧ i ∈ ((cfg3.win 3).blk t).view.set := by
  have hr : (i 0).val < 800000 := (i 0).isLt
  have hc : (i 1).val < 128 := (i 1).isLt
  have hN : cfg3.N = 200 := N_3
  have hq : (i 0).val / 4000 < cfg3.N := by rw [hN]; omega
  obtain ⟨o0, o1, -⟩ := idx3 ⟨(i 0).val / 4000, hq⟩
  refine ⟨⟨(i 0).val / 4000, hq⟩, flush3_3 _, ?_⟩
  rw [mem_blk3]
  intro a
  match a with
  | ⟨0, _⟩ =>
    show win3_3.index ⟨(i 0).val / 4000, hq⟩ (0 : Fin 2) * 4000 ≤ (i 0).val
      ∧ (i 0).val < win3_3.index ⟨(i 0).val / 4000, hq⟩ (0 : Fin 2) * 4000 + 4000
    rw [o0]; show (i 0).val / 4000 * 4000 ≤ (i 0).val ∧ (i 0).val < (i 0).val / 4000 * 4000 + 4000; omega
  | ⟨1, _⟩ =>
    show win3_3.index ⟨(i 0).val / 4000, hq⟩ (1 : Fin 2) * 128 ≤ (i 1).val
      ∧ (i 1).val < win3_3.index ⟨(i 0).val / 4000, hq⟩ (1 : Fin 2) * 128 + 128
    rw [o1]; omega

/-- Entry by entry the message is σ(k_dst + q_src) · v_src, so the blocks of 4000 edges tile the edge list. -/
theorem val3 (V : (c : Dev nD) → (b : Ref sig .tc) → Buf (Elt Ideal) ((c : Thread nD τ).loc b)) (c : Dev nD) :
    ((dat3 V c).arrAt 3 cfg3.N : FVec Ideal S800000x128 .f32) = Cert.Stages.msg (F := Ideal) (V c main_v27) (V c main_v28) (V c main_v29) := by
  rw [msg_eq_gate3]
  exact (dat3 V c).arrAt_eq_of_cover 3 (gate3 (V c main_v27) (V c main_v28) (V c main_v29)) (fun t _ => flushed_eq3 V c t) cover3

end Value

end Cert.KernelIdeal.Hand

end
-- ==== Proof.KI.Reg4.lean ====
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import proofs.«411794_j45286135169328_1_alg».proof.Proof.NormSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0

def out4_6 (x0 x1 : Vec F S2000x128 .f32) (x2 x3 x4 x5 : Vec F S1x128 .f32) : Vec F S2000x128 .f32 :=
  View.canon [⟨r4_0, k4_pay1 (View.ld x0 r4_0) (View.ld x1 r4_0) (View.ld x2 r4_1) (View.ld x3 r4_1) (View.ld x4 r4_1) (View.ld x5 r4_1)⟩]

theorem cover4_6 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

set_option maxHeartbeats 1000000 in
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__add_norm_kernel i arg1 harg1 arg2 harg2 arg3 harg3 arg4 harg4 arg5 harg5 arg6 harg6 arg7 harg7) K := by
  simp only [cc4__add_norm_kernel_eq_skeleton]; unfold cc4__add_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) (iblk4 V c 5 t) _)
  iframe H0 H1 H2 H3 H4 H5
  isplitl [H6]; · iexists _; iexact H6
  iintro ⟨H0, H1, H2, H3, H4, H5, H6⟩
  iframe

theorem body_obligation4 (c : Dev nD) : BodyObligation (dat4 (F := F) V c) (defs₀ (F := F)) Variants.none () Set.univ := fun t => by
  rw [bigSep_W4, bigSep_W4]
  exact sound_body4 V c t

section Value

open Idealize.ShloMosaic.ValueIdx

theorem hz4 : (![0, 0] : Fin 2 → Nat) = fun _ => 0 := funext fun a => by fin_cases a <;> rfl

theorem pay4_eq (x0 x1 : Vec Ideal S2000x128 .f32) (x2 x3 x4 x5 : Vec Ideal S1x128 .f32) :
    k4_pay1 x0 x1 x2 x3 x4 x5
      = Cert.NormSpec.blockNorm Facts₀.broadcasts_S1x128_S2000x128 Facts₀.reduces_S2000x128_S2000 Facts₀.shapeCasts_S2000_S2000x1
          Facts₀.broadcasts_S2000x1_S2000x128 (addf x0 x1) x2 x3 x4 x5 := by
  unfold k4_pay1 Cert.NormSpec.blockNorm Cert.NormSpec.posBlk
  simp only [shapeCast_self]

theorem pay4_at (a b : FVec Ideal S50000x128 .f32) (mu va g be : FVec Ideal S1x128 .f32)
    (x0 x1 : Vec Ideal S2000x128 .f32) (x2 x3 x4 x5 : Vec Ideal S1x128 .f32) (p : Fin 2000) (q : Fin 128) (r : Fin 50000)
    (h0 : ∀ k : Fin 128, x0 (ix2 p k) = a (ix2 r k)) (h1 : ∀ k : Fin 128, x1 (ix2 p k) = b (ix2 r k))
    (h2 : ∀ k : Fin 128, x2 (ix2 (0 : Fin 1) k) = mu (ix2 (0 : Fin 1) k)) (h3 : ∀ k : Fin 128, x3 (ix2 (0 : Fin 1) k) = va (ix2 (0 : Fin 1) k))
    (h4 : ∀ k : Fin 128, x4 (ix2 (0 : Fin 1) k) = g (ix2 (0 : Fin 1) k)) (h5 : ∀ k : Fin 128, x5 (ix2 (0 : Fin 1) k) = be (ix2 (0 : Fin 1) k)) :
    k4_pay1 x0 x1 x2 x3 x4 x5 (ix2 p q) = Cert.Stages.normCore (F := Ideal) (addf a b) mu va g be (ix2 r q) := by
  rw [pay4_eq, Cert.NormSpec.blockNorm_apply, Cert.NormSpec.normCore_apply]
  simp only [addf_apply, h0, h1, h2, h3, h4, h5]

theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_6.index t (0 : Fin 2) = t.val ∧ win4_6.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

theorem blockRows4 (c : Dev nD) (t : Fin cfg4.N) (p : Fin 2000) (k : Fin 128) (r : Fin 50000) (hr : r.val = 2000 * t.val + p.val) :
    (iblk4 V c 0 t : Vec Ideal S2000x128 .f32) (ix2 p k) = (V c main_v26 : FVec Ideal S50000x128 .f32) (ix2 r k)
    ∧ (iblk4 V c 1 t : Vec Ideal S2000x128 .f32) (ix2 p k) = (V c main_v33 : FVec Ideal S50000x128 .f32) (ix2 r k) := by
  obtain ⟨e0, e1, f0, f1, -⟩ := idx4 t
  refine ⟨?_, ?_⟩
  · unfold iblk4; rw [View.read_apply]; show V c main_v26 _ = V c main_v26 _
    congr 1; funext a; apply Fin.ext
    match a with
    | ⟨0, _⟩ => show win4_0.index t (0 : Fin 2) * 2000 + 1 * p.val = r.val; rw [e0, hr]; omega
    | ⟨1, _⟩ => show win4_0.index t (1 : Fin 2) * 128 + 1 * k.val = k.val; rw [e1]; omega
  · unfold iblk4; rw [View.read_apply]; show V c main_v33 _ = V c main_v33 _
    congr 1; funext a; apply Fin.ext
    match a with
    | ⟨0, _⟩ => show win4_1.index t (0 : Fin 2) * 2000 + 1 * p.val = r.val; rw [f0, hr]; omega
    | ⟨1, _⟩ => show win4_1.index t (1 : Fin 2) * 128 + 1 * k.val = k.val; rw [f1]; omega

theorem rowsOf4 (c : Dev nD) (t : Fin cfg4.N) (k : Fin 128) :
    (iblk4 V c 2 t : Vec Ideal S1x128 .f32) (ix2 (0 : Fin 1) k) = (V c main_v38 : FVec Ideal S1x128 .f32) (ix2 (0 : Fin 1) k)
    ∧ (iblk4 V c 3 t : Vec Ideal S1x128 .f32) (ix2 (0 : Fin 1) k) = (V c main_v39 : FVec Ideal S1x128 .f32) (ix2 (0 : Fin 1) k)
    ∧ (iblk4 V c 4 t : Vec Ideal S1x128 .f32) (ix2 (0 : Fin 1) k) = (V c main_v42 : FVec Ideal S1x128 .f32) (ix2 (0 : Fin 1) k)
    ∧ (iblk4 V c 5 t : Vec Ideal S1x128 .f32) (ix2 (0 : Fin 1) k) = (V c main_v45 : FVec Ideal S1x128 .f32) (ix2 (0 : Fin 1) k) := by
  obtain ⟨-, -, -, -, -, -, a0, a1, b0, b1, c0, c1, d0, d1⟩ := idx4 t
  refine ⟨?_, ?_, ?_, ?_⟩
  · unfold iblk4; rw [View.read_apply]; show V c main_v38 _ = V c main_v38 _
    congr 1; funext a; apply Fin.ext
    match a with
    | ⟨0, _⟩ => show win4_2.index t (0 : Fin 2) * 1 + 1 * 0 = 0; rw [a0]
    | ⟨1, _⟩ => show win4_2.index t (1 : Fin 2) * 128 + 1 * k.val = k.val; rw [a1]; omega
  · unfold iblk4; rw [View.read_apply]; show V c main_v39 _ = V c main_v39 _
    congr 1; funext a; apply Fin.ext
    match a with
    | ⟨0, _⟩ => show win4_3.index t (0 : Fin 2) * 1 + 1 * 0 = 0; rw [b0]
    | ⟨1, _⟩ => show win4_3.index t (1 : Fin 2) * 128 + 1 * k.val = k.val; rw [b1]; omega
  · unfold iblk4; rw [View.read_apply]; show V c main_v42 _ = V c main_v42 _
    congr 1; funext a; apply Fin.ext
    match a with
    | ⟨0, _⟩ => show win4_4.index t (0 : Fin 2) * 1 + 1 * 0 = 0; rw [c0]
    | ⟨1, _⟩ => show win4_4.index t (1 : Fin 2) * 128 + 1 * k.val = k.val; rw [c1]; omega
  · unfold iblk4; rw [View.read_apply]; show V c main_v45 _ = V c main_v45 _
    congr 1; funext a; apply Fin.ext
    match a with
    | ⟨0, _⟩ => show win4_5.index t (0 : Fin 2) * 1 + 1 * 0 = 0; rw [d0]
    | ⟨1, _⟩ => show win4_5.index t (1 : Fin 2) * 128 + 1 * k.val = k.val; rw [d1]; omega

theorem flushed4_eq (c : Dev nD) (t : Fin cfg4.N) :
    (dat4 V c).flushed 6 t = ((cfg4.win 6).blk t).view.read (Elt Ideal)
      (Cert.Stages.normCore (F := Ideal) (addf (V c main_v26 : FVec Ideal S50000x128 .f32) (V c main_v33))
        (V c main_v38) (V c main_v39) (V c main_v42) (V c main_v45)) := by
  show (cfg4.win 6).cut (grid4.coords t) ((dat4 V c).after 6 t) = _
  rw [after4_6]
  unfold out4_6
  rw [View.canon_unit_zero hz4]
  simp only [View.ld_unit_zero (S := S2000x128) hz4, View.ld_unit_zero (S := S1x128) hz4]
  obtain ⟨-, -, -, -, e0, e1, -⟩ := idx4 t
  funext j
  obtain ⟨p, q, rfl⟩ : ∃ (p : Fin 2000) (q : Fin 128), j = ix2 p q := ⟨j 0, j 1, eq_ix2 j⟩
  have ht : t.val < 25 := lt_of_lt_of_eq t.isLt (show cfg4.N = 25 from N_4)
  have hlt : 2000 * t.val + p.val < 50000 := by omega
  refine (pay4_at (V c main_v26) (V c main_v33) (V c main_v38) (V c main_v39) (V c main_v42) (V c main_v45) _ _ _ _ _ _ p q
    ⟨2000 * t.val + p.val, hlt⟩
    (fun k => (blockRows4 V c t p k _ rfl).1) (fun k => (blockRows4 V c t p k _ rfl).2)
    (fun k => (rowsOf4 V c t k).1) (fun k => (rowsOf4 V c t k).2.1)
    (fun k => (rowsOf4 V c t k).2.2.1) (fun k => (rowsOf4 V c t k).2.2.2)).trans ?_
  rw [View.read_apply]
  congr 1
  funext a
  apply Fin.ext
  match a with
  | ⟨0, _⟩ => show 2000 * t.val + p.val = win4_6.index t (0 : Fin 2) * 2000 + 1 * p.val; rw [e0]; omega
  | ⟨1, _⟩ => show q.val = win4_6.index t (1 : Fin 2) * 128 + 1 * q.val; rw [e1]; omega

theorem mem_blk4 (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v46).slice (win4_6.rect t)).set ↔ _
  rw [View.set_slice_whole, Rect.mem_set_unit]
  exact Iff.rfl

theorem covered4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_6 _, ?_⟩
  obtain ⟨-, -, -, -, e0, e1, -⟩ := idx4 ⟨(i 0).val / 2000, by rw [hN]; omega⟩
  rw [mem_blk4]
  intro a
  match a with
  | ⟨0, _⟩ =>
    show win4_6.index _ (0 : Fin 2) * 2000 ≤ (i 0).val ∧ (i 0).val < win4_6.index _ (0 : Fin 2) * 2000 + 2000
    rw [e0]; show (i 0).val / 2000 * 2000 ≤ (i 0).val ∧ (i 0).val < (i 0).val / 2000 * 2000 + 2000; omega
  | ⟨1, _⟩ =>
    show win4_6.index _ (1 : Fin 2) * 128 ≤ (i 1).val ∧ (i 1).val < win4_6.index _ (1 : Fin 2) * 128 + 128
    rw [e1]; omega

/-- The layer's normalisation of aggregate + self term acts row by row given the column statistics. -/
theorem val4 (V : (c : Dev nD) → (b : Ref sig .tc) → Buf (Elt Ideal) ((c : Thread nD τ).loc b)) (c : Dev nD) :
    ((dat4 V c).arrAt 6 cfg4.N : FVec Ideal S50000x128 .f32) = Cert.Stages.normCore (F := Ideal) (addf (V c main_v26 : FVec Ideal S50000x128 .f32) (V c main_v33)) (V c main_v38) (V c main_v39) (V c main_v42) (V c main_v45) :=
  (dat4 V c).arrAt_eq_of_cover 6
    (Cert.Stages.normCore (F := Ideal) (addf (V c main_v26 : FVec Ideal S50000x128 .f32) (V c main_v33))
      (V c main_v38) (V c main_v39) (V c main_v42) (V c main_v45))
    (fun t _ => flushed4_eq V c t) covered4

end Value

end Cert.KernelIdeal.Hand

end
-- ==== Proof.KI.Reg5.lean ====
import proofs.«411794_j45286135169328_1_alg».proof.Proof.KI.Reg2
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.KernelVsHost
import Idealize.ShloMosaic.Lib.StackMember
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem sound_kernel5 (c : Dev nD) (E : Set ℕ) (i : grid5.Coords) (arg1 : Memref sig .tc .vmem S2000x128 .f32) (harg1 : arg1.IsWhole)
    (arg2 : Memref sig .tc .vmem S128x512 .f32) (harg2 : arg2.IsWhole) (arg3 : Memref sig .tc .vmem S2000x512 .f32) (harg3 : arg3.IsWhole)
    (x0 : Vec F S2000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc5__matmul_kernel i arg1 harg1 arg2 harg2 arg3 harg3) K :=
  sound_kernel2 c E i arg1 harg1 arg2 harg2 arg3 harg3 x0 x1 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out2_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out2_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  iframe H0 H1
  isplitl [H2]; · iexists _; iexact H2
  iintro ⟨H0, H1, H2⟩
  iframe

theorem body_obligation5 (c : Dev nD) : BodyObligation (dat5 (F := F) V c) (defs₀ (F := F)) Variants.none () Set.univ := fun t => by
  rw [bigSep_W5, bigSep_W5]
  exact sound_body5 V c t

section Value

open Idealize.ShloMosaic.ValueIdx

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem blk_l5 (c : Dev nD) (t : Fin cfg5.N) (p : Fin 2000) (k : Fin 128) (r : Fin 50000) (hr : r.val = 2000 * t.val + p.val) :
    (iblk5 V c 0 t : Vec Ideal S2000x128 .f32) (ix2 p k) = (V c main_v46 : FVec Ideal S50000x128 .f32) (ix2 r k) := by
  obtain ⟨e0, e1, -⟩ := idx_facts5 t
  unfold iblk5
  rw [View.read_apply]
  show V c main_v46 _ = V c main_v46 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 128 + 1 * k.val = k.val; rw [e1]; omega

theorem blk_r5 (c : Dev nD) (t : Fin cfg5.N) (k : Fin 128) (q : Fin 512) :
    (iblk5 V c 1 t : Vec Ideal S128x512 .f32) (ix2 k q) = (V c main_v55 : FVec Ideal S128x512 .f32) (ix2 k q) := by
  obtain ⟨-, -, e2, e3, -⟩ := idx_facts5 t
  unfold iblk5
  rw [View.read_apply]
  show V c main_v55 _ = V c main_v55 _
  congr 1
  funext a
  apply Fin.ext
  match a with
  | ⟨0, _⟩ => show win5_1.index t (0 : Fin 2) * 128 + 1 * k.val = k.val; rw [e2]; omega
  | ⟨1, _⟩ => show win5_1.index t (1 : Fin 2) * 512 + 1 * q.val = q.val; rw [e3]; omega

theorem flushed5 (c : Dev nD) (t : Fin cfg5.N) :
    (dat5 V c).flushed 2 t = ((cfg5.win 2).blk t).view.read (Elt Ideal) (prod2 (V c main_v46) (V c main_v55)) := by
  show (cfg5.win 2).cut (grid5.coords t) ((dat5 V c).after 2 t) = _
  rw [after5_2]
  unfold out2_2
  rw [View.canon_unit_zero hz2]
  simp only [View.ld_unit_zero (S := S2000x128) hz2, View.ld_unit_zero (S := S128x512) hz2]
  obtain ⟨-, -, -, -, e4, e5⟩ := idx_facts5 t
  have hN : t.val < 25 := Nat.lt_of_lt_of_eq t.isLt N_5
  funext j
  obtain ⟨p, q, rfl⟩ : ∃ (p : Fin 2000) (q : Fin 512), j = ix2 p q := ⟨j 0, j 1, eq_ix2 j⟩
  have hemb : ((cfg5.win 2).blk t).view.emb (ix2 p q)
      = (ix2 (⟨2000 * t.val + p.val, by omega⟩ : Fin 50000) q : S50000x512.Idx) := by
    funext a
    apply Fin.ext
    match a with
    | ⟨0, _⟩ => show win5_2.index t (0 : Fin 2) * 2000 + 1 * p.val = 2000 * t.val + p.val; rw [e4]; omega
    | ⟨1, _⟩ => show win5_2.index t (1 : Fin 2) * 512 + 1 * q.val = q.val; rw [e5]; omega
  show k5_pay1 (iblk5 V c 0 t) (iblk5 V c 1 t) (ix2 p q)
    = prod2 (V c main_v46) (V c main_v55) (((cfg5.win 2).blk t).view.emb (ix2 p q))
  rw [hemb]
  refine (pay2 (iblk5 V c 0 t) (iblk5 V c 1 t) p q).trans (Eq.trans (Finset.sum_congr rfl fun k _ => ?_)
    (StackMember.dotGeneral_plain_apply none _ _ _ q).symm)
  rw [blk_l5 V c t p k ⟨2000 * t.val + p.val, by omega⟩ rfl, blk_r5 V c t k q]

theorem mem_blk5 (t : Fin cfg5.N) (i : S50000x512.Idx) :
    i ∈ ((cfg5.win 2).blk t).view.set ↔ ∀ a : Fin 2, win5_2.index t a * S2000x512.size a ≤ (i a).val ∧ (i a).val < win5_2.index t a * S2000x512.size a + S2000x512.size a := by
  show i ∈ ((View.whole main_v56).slice (win5_2.rect t)).set ↔ _
  rw [View.set_slice_whole, Rect.mem_set_unit]
  exact Iff.rfl

theorem covered5 (i : S50000x512.Idx) : ∃ t : Fin cfg5.N, (cfg5.win 2).flush t = true ∧ i ∈ ((cfg5.win 2).blk t).view.set := by
  have hi0 : (i 0).val < 50000 := (i 0).isLt
  have hi1 : (i 1).val < 512 := (i 1).isLt
  have hN : cfg5.N = 25 := N_5
  let t : Fin cfg5.N := ⟨(i 0).val / 2000, by rw [hN]; omega⟩
  have ht : t.val = (i 0).val / 2000 := rfl
  obtain ⟨-, -, -, -, e4, e5⟩ := idx_facts5 t
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; rw [e4, ht]; omega
  | ⟨1, _⟩ => show win5_2.index t (1 : Fin 2) * 512 ≤ (i 1).val ∧ (i 1).val < win5_2.index t (1 : Fin 2) * 512 + 512; rw [e5]; omega

theorem final5 (c : Dev nD) : ((dat5 V c).arrAt 2 cfg5.N : FVec Ideal S50000x512 .f32) = prod2 (V c main_v46) (V c main_v55) :=
  (dat5 V c).arrAt_eq_of_cover 2 (prod2 (V c main_v46) (V c main_v55)) (fun t _ => flushed5 V c t) covered5

theorem val5 (V : (c : Dev nD) → (b : Ref sig .tc) → Buf (Elt Ideal) ((c : Thread nD τ).loc b)) (c : Dev nD)
    (wk wq wv ws : FVec Ideal S128x128 .f32)
    (hcat : (V c main_v55 : FVec Ideal S128x512 .f32) = concatenate S128x512 1 [⟨S128x128, wk⟩, ⟨S128x128, wq⟩, ⟨S128x128, wv⟩, ⟨S128x128, ws⟩]
      concatenates_S128x128_S128x128_S128x128_S128x128_S128x512_d1) :
    extractStridedSlice S50000x128 ![0, 0] ((dat5 V c).arrAt 2 cfg5.N : FVec Ideal S50000x512 .f32) slices_S50000x512_S50000x128_0_0
        = Cert.Stages.proj (F := Ideal) (V c main_v46) wk
    ∧ extractStridedSlice S50000x128 ![0, 128] ((dat5 V c).arrAt 2 cfg5.N : FVec Ideal S50000x512 .f32) slices_S50000x512_S50000x128_0_128
        = Cert.Stages.proj (F := Ideal) (V c main_v46) wq
    ∧ extractStridedSlice S50000x128 ![0, 256] ((dat5 V c).arrAt 2 cfg5.N : FVec Ideal S50000x512 .f32) slices_S50000x512_S50000x128_0_256
        = Cert.Stages.proj (F := Ideal) (V c main_v46) wv
    ∧ extractStridedSlice S50000x128 ![0, 384] ((dat5 V c).arrAt 2 cfg5.N : FVec Ideal S50000x512 .f32) slices_S50000x512_S50000x128_0_384
        = Cert.Stages.proj (F := Ideal) (V c main_v46) ws := by
  rw [final5 V c]
  refine ⟨slice2_of _ _ wk 0 (by omega) _ fun k j => ?_, slice2_of _ _ wq 128 (by omega) _ fun k j => ?_,
    slice2_of _ _ wv 256 (by omega) _ fun k j => ?_, slice2_of _ _ ws 384 (by omega) _ fun k j => ?_⟩
  · rw [hcat]; exact (concat2_apply wk wq wv ws k j).1
  · rw [hcat]; exact (concat2_apply wk wq wv ws k j).2.1
  · rw [hcat]; exact (concat2_apply wk wq wv ws k j).2.2.1
  · rw [hcat]; exact (concat2_apply wk wq wv ws k j).2.2.2

end Value

end Cert.KernelIdeal.Hand

end
-- ==== Proof.KI.Reg6.lean ====
import proofs.«411794_j45286135169328_1_alg».proof.Proof.KI.Reg3
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws
import Idealize.ShloMosaic.Lib.Pipeline.Value
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem sound_kernel6 (c : Dev nD) (E : Set ℕ) (i : grid6.Coords)
    (ma : Memref sig .tc .vmem S4000x128 .f32) (wa : ma.IsWhole) (mb : Memref sig .tc .vmem S4000x128 .f32) (wb : mb.IsWhole)
    (mv : Memref sig .tc .vmem S4000x128 .f32) (wv : mv.IsWhole) (mo : Memref sig .tc .vmem S4000x128 .f32) (wo : mo.IsWhole)
    (a b v : Vec F S4000x128 .f32) (K : PUnit → sProp 𝕄) :
    iprop(owns (c : Thread nD τ) ma fullShare a ∗ owns (c : Thread nD τ) mb fullShare b ∗ owns (c : Thread nD τ) mv fullShare v
        ∗ (∃ d, owns (c : Thread nD τ) mo fullShare d)
        ∗ (iprop(owns (c : Thread nD τ) ma fullShare a ∗ owns (c : Thread nD τ) mb fullShare b ∗ owns (c : Thread nD τ) mv fullShare v
            ∗ owns (c : Thread nD τ) mo fullShare (out3_3 a b v)) -∗ K ⟨⟩))
      ⊢ wp frame (wpE (defs₀ (F := F)) Variants.none c none) E (cc6__msg_kernel i ma wa mb wb mv wv mo wo) K :=
  sound_kernel3 c E i ma wa mb wb mv wv mo wo a b v K

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out3_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out3_3 (iblk6 V c 0 t) (iblk6 V c 1 t) (iblk6 V c 2 t) := by dsimp only [dat6]

theorem before6_0 (c : Dev nD) (t : Fin cfg6.N) (d) : (dat6 V c).before 0 t d = iblk6 V c 0 t := by
  rw [(dat6 V c).before_fetched 0 t (fetch6_0 t) d]; unfold Dat.fetched Dat.blockOf iblk6; rw [A_eq6]; rfl
theorem before6_1 (c : Dev nD) (t : Fin cfg6.N) (d) : (dat6 V c).before 1 t d = iblk6 V c 1 t := by
  rw [(dat6 V c).before_fetched 1 t (fetch6_1 t) d]; unfold Dat.fetched Dat.blockOf iblk6; rw [A_eq6]; rfl
theorem before6_2 (c : Dev nD) (t : Fin cfg6.N) (d) : (dat6 V c).before 2 t d = iblk6 V c 2 t := by
  rw [(dat6 V c).before_fetched 2 t (fetch6_2 t) d]; unfold Dat.fetched Dat.blockOf iblk6; rw [A_eq6]; rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Hd, ⟨%da, Ha⟩, ⟨%db, Hb⟩, ⟨%dv, Hv⟩, ⟨%dout, Ho⟩⟩
  iapply (sound_kernel6 c Set.univ (grid6.coords t) _ _ _ _ _ _ _ _ (iblk6 V c 0 t) (iblk6 V c 1 t) (iblk6 V c 2 t) _)
  iframe Ha Hb Hv
  isplitl [Ho]; · iexists _; iexact Ho
  iintro ⟨Ha, Hb, Hv, Ho⟩
  iframe

theorem body_obligation6 (c : Dev nD) : BodyObligation (dat6 (F := F) V c) (defs₀ (F := F)) Variants.none () Set.univ := fun t => by
  rw [bigSep_W6, bigSep_W6]
  exact sound_body6 V c t

section Value

open Idealize.ShloMosaic.ValueIdx

theorem idx6 : ∀ t : Fin cfg6.N, win6_3.index t (0 : Fin 2) = t.val ∧ win6_3.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

theorem flushed_eq6 (V : (c : Dev nD) → (b : Ref sig .tc) → Buf (Elt Ideal) ((c : Thread nD τ).loc b)) (c : Dev nD) (t : Fin cfg6.N) :
    (dat6 V c).flushed 3 t = ((cfg6.win 3).blk t).view.read (Elt Ideal) (gate3 (V c main_v61) (V c main_v62) (V c main_v63)) := by
  show (cfg6.win 3).cut (grid6.coords t) ((dat6 V c).after 3 t) = _
  rw [after6_3]
  unfold out3_3
  rw [View.canon_unit_zero zeros3]
  simp only [View.ld_unit_zero (S := S4000x128) zeros3]
  obtain ⟨o0, o1, a0, a1, b0, b1, v0, v1⟩ := idx6 t
  funext j
  refine (apply_pay3 _ _ _ j).trans ?_
  have ha : ((cfg6.win 0).blk t).view.emb j = ((cfg6.win 3).blk t).view.emb j := by
    funext x; apply Fin.ext
    match x with
    | ⟨0, _⟩ => show win6_0.index t (0 : Fin 2) * 4000 + 1 * (j 0).val = win6_3.index t (0 : Fin 2) * 4000 + 1 * (j 0).val; rw [a0, o0]
    | ⟨1, _⟩ => show win6_0.index t (1 : Fin 2) * 128 + 1 * (j 1).val = win6_3.index t (1 : Fin 2) * 128 + 1 * (j 1).val; rw [a1, o1]
  have hb : ((cfg6.win 1).blk t).view.emb j = ((cfg6.win 3).blk t).view.emb j := by
    funext x; apply Fin.ext
    match x with
    | ⟨0, _⟩ => show win6_1.index t (0 : Fin 2) * 4000 + 1 * (j 0).val = win6_3.index t (0 : Fin 2) * 4000 + 1 * (j 0).val; rw [b0, o0]
    | ⟨1, _⟩ => show win6_1.index t (1 : Fin 2) * 128 + 1 * (j 1).val = win6_3.index t (1 : Fin 2) * 128 + 1 * (j 1).val; rw [b1, o1]
  have hv : ((cfg6.win 2).blk t).view.emb j = ((cfg6.win 3).blk t).view.emb j := by
    funext x; apply Fin.ext
    match x with
    | ⟨0, _⟩ => show win6_2.index t (0 : Fin 2) * 4000 + 1 * (j 0).val = win6_3.index t (0 : Fin 2) * 4000 + 1 * (j 0).val; rw [v0, o0]
    | ⟨1, _⟩ => show win6_2.index t (1 : Fin 2) * 128 + 1 * (j 1).val = win6_3.index t (1 : Fin 2) * 128 + 1 * (j 1).val; rw [v1, o1]
  exact at_gate3 (V c main_v61) (V c main_v62) (V c main_v63) (((cfg6.win 0).blk t).view.emb j) (((cfg6.win 1).blk t).view.emb j)
    (((cfg6.win 2).blk t).view.emb j) (((cfg6.win 3).blk t).view.emb j) ha hb hv

theorem mem_blk6 (t : Fin cfg6.N) (i : S800000x128.Idx) :
    i ∈ ((cfg6.win 3).blk t).view.set ↔ ∀ a : Fin 2, win6_3.index t a * S4000x128.size a ≤ (i a).val
      ∧ (i a).val < win6_3.index t a * S4000x128.size a + S4000x128.size a := by
  show i ∈ ((View.whole main_v64).slice (win6_3.rect t)).set ↔ _
  rw [View.set_slice_whole, Rect.mem_set_unit]
  exact Iff.rfl

theorem cover6 (i : S800000x128.Idx) :
    ∃ t : Fin cfg6.N, (cfg6.win 3).flush t = true ∧ i ∈ ((cfg6.win 3).blk t).view.set := by
  have hr : (i 0).val < 800000 := (i 0).isLt
  have hc : (i 1).val < 128 := (i 1).isLt
  have hN : cfg6.N = 200 := N_6
  have hq : (i 0).val / 4000 < cfg6.N := by rw [hN]; omega
  obtain ⟨o0, o1, -⟩ := idx6 ⟨(i 0).val / 4000, hq⟩
  refine ⟨⟨(i 0).val / 4000, hq⟩, flush6_3 _, ?_⟩
  rw [mem_blk6]
  intro a
  match a with
  | ⟨0, _⟩ =>
    show win6_3.index ⟨(i 0).val / 4000, hq⟩ (0 : Fin 2) * 4000 ≤ (i 0).val
      ∧ (i 0).val < win6_3.index ⟨(i 0).val / 4000, hq⟩ (0 : Fin 2) * 4000 + 4000
    rw [o0]; show (i 0).val / 4000 * 4000 ≤ (i 0).val ∧ (i 0).val < (i 0).val / 4000 * 4000 + 4000; omega
  | ⟨1, _⟩ =>
    show win6_3.index ⟨(i 0).val / 4000, hq⟩ (1 : Fin 2) * 128 ≤ (i 1).val
      ∧ (i 1).val < win6_3.index ⟨(i 0).val / 4000, hq⟩ (1 : Fin 2) * 128 + 128
    rw [o1]; omega

theorem val6 (V : (c : Dev nD) → (b : Ref sig .tc) → Buf (Elt Ideal) ((c : Thread nD τ).loc b)) (c : Dev nD) :
    ((dat6 V c).arrAt 3 cfg6.N : FVec Ideal S800000x128 .f32) = Cert.Stages.msg (F := Ideal) (V c main_v61) (V c main_v62) (V c main_v63) := by
  rw [msg_eq_gate3]
  exact (dat6 V c).arrAt_eq_of_cover 3 (gate3 (V c main_v61) (V c main_v62) (V c main_v63)) (fun t _ => flushed_eq6 V c t) cover6

end Value

end Cert.KernelIdeal.Hand

end
-- ==== Proof.KI.Reg7.lean ====
import proofs.«411794_j45286135169328_1_alg».proof.Proof.KI.Reg4
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.ReferenceIdeal
import proofs.«411794_j45286135169328_1_alg».proof.Proof.Stages
import proofs.«411794_j45286135169328_1_alg».proof.Proof.NormSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem sound_kernel7 (c : Dev nD) (E : Set ℕ) (i : grid7.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc7__add_norm_kernel i arg1 harg1 arg2 harg2 arg3 harg3 arg4 harg4 arg5 harg5 arg6 harg6 arg7 harg7) K :=
  sound_kernel4 c E i arg1 harg1 arg2 harg2 arg3 harg3 arg4 harg4 arg5 harg5 arg6 harg6 arg7 harg7 x0 x1 x2 x3 x4 x5 K

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out4_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) :
    (dat7 V c).after 6 t = out4_6 (iblk7 V c 0 t) (iblk7 V c 1 t) (iblk7 V c 2 t) (iblk7 V c 3 t) (iblk7 V c 4 t) (iblk7 V c 5 t) := by
  dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _
    (iblk7 V c 0 t) (iblk7 V c 1 t) (iblk7 V c 2 t) (iblk7 V c 3 t) (iblk7 V c 4 t) (iblk7 V c 5 t) _)
  iframe H0 H1 H2 H3 H4 H5
  isplitl [H6]; · iexists _; iexact H6
  iintro ⟨H0, H1, H2, H3, H4, H5, H6⟩
  iframe

theorem body_obligation7 (c : Dev nD) : BodyObligation (dat7 (F := F) V c) (defs₀ (F := F)) Variants.none () Set.univ := fun t => by
  rw [bigSep_W7, bigSep_W7]
  exact sound_body7 V c t

section Value

open Idealize.ShloMosaic.ValueIdx

theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_6.index t (0 : Fin 2) = t.val ∧ win7_6.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

variable (V : (c : Dev nD) → (b : Ref sig .tc) → Buf (Elt Ideal) ((c : Thread nD τ).loc b))

theorem blockRows7 (c : Dev nD) (t : Fin cfg7.N) (p : Fin 2000) (k : Fin 128) (r : Fin 50000) (hr : r.val = 2000 * t.val + p.val) :
    (iblk7 V c 0 t : Vec Ideal S2000x128 .f32) (ix2 p k) = (V c main_v60 : FVec Ideal S50000x128 .f32) (ix2 r k)
    ∧ (iblk7 V c 1 t : Vec Ideal S2000x128 .f32) (ix2 p k) = (V c main_v67 : FVec Ideal S50000x128 .f32) (ix2 r k) := by
  obtain ⟨e0, e1, f0, f1, -⟩ := idx7 t
  refine ⟨?_, ?_⟩
  · unfold iblk7; rw [View.read_apply]; show V c main_v60 _ = V c main_v60 _
    congr 1; funext a; apply Fin.ext
    match a with
    | ⟨0, _⟩ => show win7_0.index t (0 : Fin 2) * 2000 + 1 * p.val = r.val; rw [e0, hr]; omega
    | ⟨1, _⟩ => show win7_0.index t (1 : Fin 2) * 128 + 1 * k.val = k.val; rw [e1]; omega
  · unfold iblk7; rw [View.read_apply]; show V c main_v67 _ = V c main_v67 _
    congr 1; funext a; apply Fin.ext
    match a with
    | ⟨0, _⟩ => show win7_1.index t (0 : Fin 2) * 2000 + 1 * p.val = r.val; rw [f0, hr]; omega
    | ⟨1, _⟩ => show win7_1.index t (1 : Fin 2) * 128 + 1 * k.val = k.val; rw [f1]; omega

theorem rowsOf7 (c : Dev nD) (t : Fin cfg7.N) (k : Fin 128) :
    (iblk7 V c 2 t : Vec Ideal S1x128 .f32) (ix2 (0 : Fin 1) k) = (V c main_v72 : FVec Ideal S1x128 .f32) (ix2 (0 : Fin 1) k)
    ∧ (iblk7 V c 3 t : Vec Ideal S1x128 .f32) (ix2 (0 : Fin 1) k) = (V c main_v73 : FVec Ideal S1x128 .f32) (ix2 (0 : Fin 1) k)
    ∧ (iblk7 V c 4 t : Vec Ideal S1x128 .f32) (ix2 (0 : Fin 1) k) = (V c main_v76 : FVec Ideal S1x128 .f32) (ix2 (0 : Fin 1) k)
    ∧ (iblk7 V c 5 t : Vec Ideal S1x128 .f32) (ix2 (0 : Fin 1) k) = (V c main_v79 : FVec Ideal S1x128 .f32) (ix2 (0 : Fin 1) k) := by
  obtain ⟨-, -, -, -, -, -, a0, a1, b0, b1, c0, c1, d0, d1⟩ := idx7 t
  refine ⟨?_, ?_, ?_, ?_⟩
  · unfold iblk7; rw [View.read_apply]; show V c main_v72 _ = V c main_v72 _
    congr 1; funext a; apply Fin.ext
    match a with
    | ⟨0, _⟩ => show win7_2.index t (0 : Fin 2) * 1 + 1 * 0 = 0; rw [a0]
    | ⟨1, _⟩ => show win7_2.index t (1 : Fin 2) * 128 + 1 * k.val = k.val; rw [a1]; omega
  · unfold iblk7; rw [View.read_apply]; show V c main_v73 _ = V c main_v73 _
    congr 1; funext a; apply Fin.ext
    match a with
    | ⟨0, _⟩ => show win7_3.index t (0 : Fin 2) * 1 + 1 * 0 = 0; rw [b0]
    | ⟨1, _⟩ => show win7_3.index t (1 : Fin 2) * 128 + 1 * k.val = k.val; rw [b1]; omega
  · unfold iblk7; rw [View.read_apply]; show V c main_v76 _ = V c main_v76 _
    congr 1; funext a; apply Fin.ext
    match a with
    | ⟨0, _⟩ => show win7_4.index t (0 : Fin 2) * 1 + 1 * 0 = 0; rw [c0]
    | ⟨1, _⟩ => show win7_4.index t (1 : Fin 2) * 128 + 1 * k.val = k.val; rw [c1]; omega
  · unfold iblk7; rw [View.read_apply]; show V c main_v79 _ = V c main_v79 _
    congr 1; funext a; apply Fin.ext
    match a with
    | ⟨0, _⟩ => show win7_5.index t (0 : Fin 2) * 1 + 1 * 0 = 0; rw [d0]
    | ⟨1, _⟩ => show win7_5.index t (1 : Fin 2) * 128 + 1 * k.val = k.val; rw [d1]; omega

theorem flushed7_eq (c : Dev nD) (t : Fin cfg7.N) :
    (dat7 V c).flushed 6 t = ((cfg7.win 6).blk t).view.read (Elt Ideal)
      (Cert.Stages.normCore (F := Ideal) (addf (V c main_v60 : FVec Ideal S50000x128 .f32) (V c main_v67))
        (V c main_v72) (V c main_v73) (V c main_v76) (V c main_v79)) := by
  show (cfg7.win 6).cut (grid7.coords t) ((dat7 V c).after 6 t) = _
  rw [after7_6]
  unfold out4_6
  rw [View.canon_unit_zero hz4]
  simp only [View.ld_unit_zero (S := S2000x128) hz4, View.ld_unit_zero (S := S1x128) hz4]
  obtain ⟨-, -, -, -, e0, e1, -⟩ := idx7 t
  funext j
  obtain ⟨p, q, rfl⟩ : ∃ (p : Fin 2000) (q : Fin 128), j = ix2 p q := ⟨j 0, j 1, eq_ix2 j⟩
  have ht : t.val < 25 := lt_of_lt_of_eq t.isLt (show cfg7.N = 25 from N_7)
  have hlt : 2000 * t.val + p.val < 50000 := by omega
  refine (pay4_at (V c main_v60) (V c main_v67) (V c main_v72) (V c main_v73) (V c main_v76) (V c main_v79) _ _ _ _ _ _ p q
    ⟨2000 * t.val + p.val, hlt⟩
    (fun k => (blockRows7 V c t p k _ rfl).1) (fun k => (blockRows7 V c t p k _ rfl).2)
    (fun k => (rowsOf7 V c t k).1) (fun k => (rowsOf7 V c t k).2.1)
    (fun k => (rowsOf7 V c t k).2.2.1) (fun k => (rowsOf7 V c t k).2.2.2)).trans ?_
  rw [View.read_apply]
  congr 1
  funext a
  apply Fin.ext
  match a with
  | ⟨0, _⟩ => show 2000 * t.val + p.val = win7_6.index t (0 : Fin 2) * 2000 + 1 * p.val; rw [e0]; omega
  | ⟨1, _⟩ => show q.val = win7_6.index t (1 : Fin 2) * 128 + 1 * q.val; rw [e1]; omega

theorem mem_blk7 (t : Fin cfg7.N) (i : S50000x128.Idx) :
    i ∈ ((cfg7.win 6).blk t).view.set ↔ ∀ a : Fin 2, win7_6.index t a * S2000x128.size a ≤ (i a).val ∧ (i a).val < win7_6.index t a * S2000x128.size a + S2000x128.size a := by
  show i ∈ ((View.whole main_v80).slice (win7_6.rect t)).set ↔ _
  rw [View.set_slice_whole, Rect.mem_set_unit]
  exact Iff.rfl

theorem covered7 (i : S50000x128.Idx) : ∃ t : Fin cfg7.N, (cfg7.win 6).flush t = true ∧ i ∈ ((cfg7.win 6).blk t).view.set := by
  have hi0 : (i 0).val < 50000 := (i 0).isLt
  have hi1 : (i 1).val < 128 := (i 1).isLt
  have hN : cfg7.N = 25 := N_7
  refine ⟨⟨(i 0).val / 2000, by rw [hN]; omega⟩, flush7_6 _, ?_⟩
  obtain ⟨-, -, -, -, e0, e1, -⟩ := idx7 ⟨(i 0).val / 2000, by rw [hN]; omega⟩
  rw [mem_blk7]
  intro a
  match a with
  | ⟨0, _⟩ =>
    show win7_6.index _ (0 : Fin 2) * 2000 ≤ (i 0).val ∧ (i 0).val < win7_6.index _ (0 : Fin 2) * 2000 + 2000
    rw [e0]; show (i 0).val / 2000 * 2000 ≤ (i 0).val ∧ (i 0).val < (i 0).val / 2000 * 2000 + 2000; omega
  | ⟨1, _⟩ =>
    show win7_6.index _ (1 : Fin 2) * 128 ≤ (i 1).val ∧ (i 1).val < win7_6.index _ (1 : Fin 2) * 128 + 128
    rw [e1]; omega

theorem val7 (V : (c : Dev nD) → (b : Ref sig .tc) → Buf (Elt Ideal) ((c : Thread nD τ).loc b)) (c : Dev nD) :
    ((dat7 V c).arrAt 6 cfg7.N : FVec Ideal S50000x128 .f32) = Cert.Stages.normCore (F := Ideal) (addf (V c main_v60 : FVec Ideal S50000x128 .f32) (V c main_v67)) (V c main_v72) (V c main_v73) (V c main_v76) (V c main_v79) :=
  (dat7 V c).arrAt_eq_of_cover 6
    (Cert.Stages.normCore (F := Ideal) (addf (V c main_v60 : FVec Ideal S50000x128 .f32) (V c main_v67))
      (V c main_v72) (V c main_v73) (V c main_v76) (V c main_v79))
    (fun t _ => flushed7_eq V c t) covered7

end Value

end Cert.KernelIdeal.Hand

end
-- ==== Proof.KI.Fold.lean ====
import proofs.«411794_j45286135169328_1_alg».proof.Proof.Gen.KernelIdeal.Launch
import proofs.«411794_j45286135169328_1_alg».proof.Proof.Gen.KernelIdeal.Skeleton
import proofs.«411794_j45286135169328_1_alg».proof.Proof.Gen.KernelIdeal.Points
import proofs.«411794_j45286135169328_1_alg».proof.Proof.Gen.KernelIdeal.Regions
import proofs.«411794_j45286135169328_1_alg».proof.Proof.KI.Reg0
import proofs.«411794_j45286135169328_1_alg».proof.Proof.KI.Reg1
import proofs.«411794_j45286135169328_1_alg».proof.Proof.KI.Reg2
import proofs.«411794_j45286135169328_1_alg».proof.Proof.KI.Reg3
import proofs.«411794_j45286135169328_1_alg».proof.Proof.KI.Reg4
import proofs.«411794_j45286135169328_1_alg».proof.Proof.KI.Reg5
import proofs.«411794_j45286135169328_1_alg».proof.Proof.KI.Reg6
import proofs.«411794_j45286135169328_1_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The buffers' contents at every boundary between two items of @main

  A fold from the launch memory: a stretch of host operations rewrites the buffers it writes, a kernel region replaces
  its output array by what its write-backs leave (the proof data's array at the last grid point, from the contents the
  region was entered with) and leaves every other buffer. W j c is core c's contents after item j-1; outs reads the
  regions' output arrays off them, and the valuations the conditional frame is stated over are these. -/

variable {F : FTy → Type} [FloatOps F]
variable (m : (ℓ : Loc nD τ sig) → Buf (Elt F) ℓ)

/-- Core c's contents at launch. -/
def W0 (c : Dev nD) : Valuation τ sig (Elt F) := fun b => m (c, b)
/-- After the host stretch hostOps0. -/
def W1 (c : Dev nD) : Valuation τ sig (Elt F) := StableHlo.after hostOps0 (W0 m c)
/-- What region 0 is entered with, read at the TensorCore's references. -/
abbrev E0 : (c : Dev nD) → (b : Ref sig .tc) → Buf (Elt F) ((c : Thread nD τ).loc b) := fun c b => W1 m c b
/-- What region 0's write-backs leave in its output array main_v4. -/
def o0 (c : Dev nD) : Buf (Elt F) ((c : Thread nD τ).loc main_v4) := (dat0 (E0 m) c).arrAt 2 cfg0.N
/-- After region 0: main_v4 replaced, every other buffer as entered. -/
def W2 (c : Dev nD) : Valuation τ sig (Elt F) := Function.update (W1 m c) main_v4 (o0 m c)
/-- After the host stretch hostOps1. -/
def W3 (c : Dev nD) : Valuation τ sig (Elt F) := StableHlo.after hostOps1 (W2 m c)
/-- After the host stretch hostOps1_1. -/
def W4 (c : Dev nD) : Valuation τ sig (Elt F) := StableHlo.after hostOps1_1 (W3 m c)
/-- After the host stretch hostOps1_2. -/
def W5 (c : Dev nD) : Valuation τ sig (Elt F) := StableHlo.after hostOps1_2 (W4 m c)
/-- What region 1 is entered with, read at the TensorCore's references. -/
abbrev E1 : (c : Dev nD) → (b : Ref sig .tc) → Buf (Elt F) ((c : Thread nD τ).loc b) := fun c b => W5 m c b
/-- What region 1's write-backs leave in its output array main_v12. -/
def o1 (c : Dev nD) : Buf (Elt F) ((c : Thread nD τ).loc main_v12) := (dat1 (E1 m) c).arrAt 5 cfg1.N
/-- After region 1: main_v12 replaced, every other buffer as entered. -/
def W6 (c : Dev nD) : Valuation τ sig (Elt F) := Function.update (W5 m c) main_v12 (o1 m c)
/-- After the host stretch hostOps2. -/
def W7 (c : Dev nD) : Valuation τ sig (Elt F) := StableHlo.after hostOps2 (W6 m c)
/-- What region 2 is entered with, read at the TensorCore's references. -/
abbrev E2 : (c : Dev nD) → (b : Ref sig .tc) → Buf (Elt F) ((c : Thread nD τ).loc b) := fun c b => W7 m c b
/-- What region 2's write-backs leave in its output array main_v22. -/
def o2 (c : Dev nD) : Buf (Elt F) ((c : Thread nD τ).loc main_v22) := (dat2 (E2 m) c).arrAt 2 cfg2.N
/-- After region 2: main_v22 replaced, every other buffer as entered. -/
def W8 (c : Dev nD) : Valuation τ sig (Elt F) := Function.update (W7 m c) main_v22 (o2 m c)
/-- After the host stretch hostOps3. -/
def W9 (c : Dev nD) : Valuation τ sig (Elt F) := StableHlo.after hostOps3 (W8 m c)
/-- After the host stretch hostOps3_1. -/
def W10 (c : Dev nD) : Valuation τ sig (Elt F) := StableHlo.after hostOps3_1 (W9 m c)
/-- After the host stretch hostOps3_2. -/
def W11 (c : Dev nD) : Valuation τ sig (Elt F) := StableHlo.after hostOps3_2 (W10 m c)
/-- After the host stretch hostOps3_3. -/
def W12 (c : Dev nD) : Valuation τ sig (Elt F) := StableHlo.after hostOps3_3 (W11 m c)
/-- What region 3 is entered with, read at the TensorCore's references. -/
abbrev E3 : (c : Dev nD) → (b : Ref sig .tc) → Buf (Elt F) ((c : Thread nD τ).loc b) := fun c b => W12 m c b
/-- What region 3's write-backs leave in its output array main_v30. -/
def o3 (c : Dev nD) : Buf (Elt F) ((c : Thread nD τ).loc main_v30) := (dat3 (E3 m) c).arrAt 3 cfg3.N
/-- After region 3: main_v30 replaced, every other buffer as entered. -/
def W13 (c : Dev nD) : Valuation τ sig (Elt F) := Function.update (W12 m c) main_v30 (o3 m c)
/-- After the host stretch hostOps4. -/
def W14 (c : Dev nD) : Valuation τ sig (Elt F) := StableHlo.after hostOps4 (W13 m c)
/-- After the host stretch hostOps4_1. -/
def W15 (c : Dev nD) : Valuation τ sig (Elt F) := StableHlo.after hostOps4_1 (W14 m c)
/-- After the host stretch hostOps4_2. -/
def W16 (c : Dev nD) : Valuation τ sig (Elt F) := StableHlo.after hostOps4_2 (W15 m c)
/-- What region 4 is entered with, read at the TensorCore's references. -/
abbrev E4 : (c : Dev nD) → (b : Ref sig .tc) → Buf (Elt F) ((c : Thread nD τ).loc b) := fun c b => W16 m c b
/-- What region 4's write-backs leave in its output array main_v46. -/
def o4 (c : Dev nD) : Buf (Elt F) ((c : Thread nD τ).loc main_v46) := (dat4 (E4 m) c).arrAt 6 cfg4.N
/-- After region 4: main_v46 replaced, every other buffer as entered. -/
def W17 (c : Dev nD) : Valuation τ sig (Elt F) := Function.update (W16 m c) main_v46 (o4 m c)
/-- After the host stretch hostOps5. -/
def W18 (c : Dev nD) : Valuation τ sig (Elt F) := StableHlo.after hostOps5 (W17 m c)
/-- What region 5 is entered with, read at the TensorCore's references. -/
abbrev E5 : (c : Dev nD) → (b : Ref sig .tc) → Buf (Elt F) ((c : Thread nD τ).loc b) := fun c b => W18 m c b
/-- What region 5's write-backs leave in its output array main_v56. -/
def o5 (c : Dev nD) : Buf (Elt F) ((c : Thread nD τ).loc main_v56) := (dat5 (E5 m) c).arrAt 2 cfg5.N
/-- After region 5: main_v56 replaced, every other buffer as entered. -/
def W19 (c : Dev nD) : Valuation τ sig (Elt F) := Function.update (W18 m c) main_v56 (o5 m c)
/-- After the host stretch hostOps6. -/
def W20 (c : Dev nD) : Valuation τ sig (Elt F) := StableHlo.after hostOps6 (W19 m c)
/-- After the host stretch hostOps6_1. -/
def W21 (c : Dev nD) : Valuation τ sig (Elt F) := StableHlo.after hostOps6_1 (W20 m c)
/-- After the host stretch hostOps6_2. -/
def W22 (c : Dev nD) : Valuation τ sig (Elt F) := StableHlo.after hostOps6_2 (W21 m c)
/-- After the host stretch hostOps6_3. -/
def W23 (c : Dev nD) : Valuation τ sig (Elt F) := StableHlo.after hostOps6_3 (W22 m c)
/-- What region 6 is entered with, read at the TensorCore's references. -/
abbrev E6 : (c : Dev nD) → (b : Ref sig .tc) → Buf (Elt F) ((c : Thread nD τ).loc b) := fun c b => W23 m c b
/-- What region 6's write-backs leave in its output array main_v64. -/
def o6 (c : Dev nD) : Buf (Elt F) ((c : Thread nD τ).loc main_v64) := (dat6 (E6 m) c).arrAt 3 cfg6.N
/-- After region 6: main_v64 replaced, every other buffer as entered. -/
def W24 (c : Dev nD) : Valuation τ sig (Elt F) := Function.update (W23 m c) main_v64 (o6 m c)
/-- After the host stretch hostOps7. -/
def W25 (c : Dev nD) : Valuation τ sig (Elt F) := StableHlo.after hostOps7 (W24 m c)
/-- After the host stretch hostOps7_1. -/
def W26 (c : Dev nD) : Valuation τ sig (Elt F) := StableHlo.after hostOps7_1 (W25 m c)
/-- After the host stretch hostOps7_2. -/
def W27 (c : Dev nD) : Valuation τ sig (Elt F) := StableHlo.after hostOps7_2 (W26 m c)
/-- What region 7 is entered with, read at the TensorCore's references. -/
abbrev E7 : (c : Dev nD) → (b : Ref sig .tc) → Buf (Elt F) ((c : Thread nD τ).loc b) := fun c b => W27 m c b
/-- What region 7's write-backs leave in its output array main_v80. -/
def o7 (c : Dev nD) : Buf (Elt F) ((c : Thread nD τ).loc main_v80) := (dat7 (E7 m) c).arrAt 6 cfg7.N
/-- After region 7: main_v80 replaced, every other buffer as entered. -/
def W28 (c : Dev nD) : Valuation τ sig (Elt F) := Function.update (W27 m c) main_v80 (o7 m c)

/-- The regions' output arrays after each region, as the conditional frame's unknowns. -/
def outs : Gen.Outs (F := F) := fun J r c =>
  match J with
  | 2 => W2 m c r
  | 6 => W6 m c r
  | 8 => W8 m c r
  | 13 => W13 m c r
  | 17 => W17 m c r
  | 19 => W19 m c r
  | 24 => W24 m c r
  | 28 => W28 m c r
  | _ => W0 m c r

theorem outs_2 (c : Dev nD) : outs m 2 main_v4 c = o0 m c := by
  show W2 m c main_v4 = _
  unfold W2; exact Function.update_self ..
theorem outs_6 (c : Dev nD) : outs m 6 main_v12 c = o1 m c := by
  show W6 m c main_v12 = _
  unfold W6; exact Function.update_self ..
theorem outs_8 (c : Dev nD) : outs m 8 main_v22 c = o2 m c := by
  show W8 m c main_v22 = _
  unfold W8; exact Function.update_self ..
theorem outs_13 (c : Dev nD) : outs m 13 main_v30 c = o3 m c := by
  show W13 m c main_v30 = _
  unfold W13; exact Function.update_self ..
theorem outs_17 (c : Dev nD) : outs m 17 main_v46 c = o4 m c := by
  show W17 m c main_v46 = _
  unfold W17; exact Function.update_self ..
theorem outs_19 (c : Dev nD) : outs m 19 main_v56 c = o5 m c := by
  show W19 m c main_v56 = _
  unfold W19; exact Function.update_self ..
theorem outs_24 (c : Dev nD) : outs m 24 main_v64 c = o6 m c := by
  show W24 m c main_v64 = _
  unfold W24; exact Function.update_self ..
theorem outs_28 (c : Dev nD) : outs m 28 main_v80 c = o7 m c := by
  show W28 m c main_v80 = _
  unfold W28; exact Function.update_self ..

/-! ## The conditional frame's valuations are this fold -/

theorem V0_eq (c : Dev nD) : Gen.V0 m c = W0 m c := rfl
theorem V1_eq (c : Dev nD) : Gen.V1 m c = W1 m c := by
  show StableHlo.after hostOps0 (Gen.V0 m c) = _
  rw [V0_eq]; rfl
theorem V2_eq (c : Dev nD) : Gen.V2 m (outs m) c = W2 m c := by
  show Function.update (Gen.V1 m c) main_v4 (outs m 2 main_v4 c) = _
  rw [V1_eq, outs_2]; rfl
theorem V3_eq (c : Dev nD) : Gen.V3 m (outs m) c = W3 m c := by
  show StableHlo.after hostOps1 (Gen.V2 m (outs m) c) = _
  rw [V2_eq]; rfl
theorem V4_eq (c : Dev nD) : Gen.V4 m (outs m) c = W4 m c := by
  show StableHlo.after hostOps1_1 (Gen.V3 m (outs m) c) = _
  rw [V3_eq]; rfl
theorem V5_eq (c : Dev nD) : Gen.V5 m (outs m) c = W5 m c := by
  show StableHlo.after hostOps1_2 (Gen.V4 m (outs m) c) = _
  rw [V4_eq]; rfl
theorem V6_eq (c : Dev nD) : Gen.V6 m (outs m) c = W6 m c := by
  show Function.update (Gen.V5 m (outs m) c) main_v12 (outs m 6 main_v12 c) = _
  rw [V5_eq, outs_6]; rfl
theorem V7_eq (c : Dev nD) : Gen.V7 m (outs m) c = W7 m c := by
  show StableHlo.after hostOps2 (Gen.V6 m (outs m) c) = _
  rw [V6_eq]; rfl
theorem V8_eq (c : Dev nD) : Gen.V8 m (outs m) c = W8 m c := by
  show Function.update (Gen.V7 m (outs m) c) main_v22 (outs m 8 main_v22 c) = _
  rw [V7_eq, outs_8]; rfl
theorem V9_eq (c : Dev nD) : Gen.V9 m (outs m) c = W9 m c := by
  show StableHlo.after hostOps3 (Gen.V8 m (outs m) c) = _
  rw [V8_eq]; rfl
theorem V10_eq (c : Dev nD) : Gen.V10 m (outs m) c = W10 m c := by
  show StableHlo.after hostOps3_1 (Gen.V9 m (outs m) c) = _
  rw [V9_eq]; rfl
theorem V11_eq (c : Dev nD) : Gen.V11 m (outs m) c = W11 m c := by
  show StableHlo.after hostOps3_2 (Gen.V10 m (outs m) c) = _
  rw [V10_eq]; rfl
theorem V12_eq (c : Dev nD) : Gen.V12 m (outs m) c = W12 m c := by
  show StableHlo.after hostOps3_3 (Gen.V11 m (outs m) c) = _
  rw [V11_eq]; rfl
theorem V13_eq (c : Dev nD) : Gen.V13 m (outs m) c = W13 m c := by
  show Function.update (Gen.V12 m (outs m) c) main_v30 (outs m 13 main_v30 c) = _
  rw [V12_eq, outs_13]; rfl
theorem V14_eq (c : Dev nD) : Gen.V14 m (outs m) c = W14 m c := by
  show StableHlo.after hostOps4 (Gen.V13 m (outs m) c) = _
  rw [V13_eq]; rfl
theorem V15_eq (c : Dev nD) : Gen.V15 m (outs m) c = W15 m c := by
  show StableHlo.after hostOps4_1 (Gen.V14 m (outs m) c) = _
  rw [V14_eq]; rfl
theorem V16_eq (c : Dev nD) : Gen.V16 m (outs m) c = W16 m c := by
  show StableHlo.after hostOps4_2 (Gen.V15 m (outs m) c) = _
  rw [V15_eq]; rfl
theorem V17_eq (c : Dev nD) : Gen.V17 m (outs m) c = W17 m c := by
  show Function.update (Gen.V16 m (outs m) c) main_v46 (outs m 17 main_v46 c) = _
  rw [V16_eq, outs_17]; rfl
theorem V18_eq (c : Dev nD) : Gen.V18 m (outs m) c = W18 m c := by
  show StableHlo.after hostOps5 (Gen.V17 m (outs m) c) = _
  rw [V17_eq]; rfl
theorem V19_eq (c : Dev nD) : Gen.V19 m (outs m) c = W19 m c := by
  show Function.update (Gen.V18 m (outs m) c) main_v56 (outs m 19 main_v56 c) = _
  rw [V18_eq, outs_19]; rfl
theorem V20_eq (c : Dev nD) : Gen.V20 m (outs m) c = W20 m c := by
  show StableHlo.after hostOps6 (Gen.V19 m (outs m) c) = _
  rw [V19_eq]; rfl
theorem V21_eq (c : Dev nD) : Gen.V21 m (outs m) c = W21 m c := by
  show StableHlo.after hostOps6_1 (Gen.V20 m (outs m) c) = _
  rw [V20_eq]; rfl
theorem V22_eq (c : Dev nD) : Gen.V22 m (outs m) c = W22 m c := by
  show StableHlo.after hostOps6_2 (Gen.V21 m (outs m) c) = _
  rw [V21_eq]; rfl
theorem V23_eq (c : Dev nD) : Gen.V23 m (outs m) c = W23 m c := by
  show StableHlo.after hostOps6_3 (Gen.V22 m (outs m) c) = _
  rw [V22_eq]; rfl
theorem V24_eq (c : Dev nD) : Gen.V24 m (outs m) c = W24 m c := by
  show Function.update (Gen.V23 m (outs m) c) main_v64 (outs m 24 main_v64 c) = _
  rw [V23_eq, outs_24]; rfl
theorem V25_eq (c : Dev nD) : Gen.V25 m (outs m) c = W25 m c := by
  show StableHlo.after hostOps7 (Gen.V24 m (outs m) c) = _
  rw [V24_eq]; rfl
theorem V26_eq (c : Dev nD) : Gen.V26 m (outs m) c = W26 m c := by
  show StableHlo.after hostOps7_1 (Gen.V25 m (outs m) c) = _
  rw [V25_eq]; rfl
theorem V27_eq (c : Dev nD) : Gen.V27 m (outs m) c = W27 m c := by
  show StableHlo.after hostOps7_2 (Gen.V26 m (outs m) c) = _
  rw [V26_eq]; rfl
theorem V28_eq (c : Dev nD) : Gen.V28 m (outs m) c = W28 m c := by
  show Function.update (Gen.V27 m (outs m) c) main_v80 (outs m 28 main_v80 c) = _
  rw [V27_eq, outs_28]; rfl

end Cert.KernelIdeal.Hand

end
-- ==== Proof.KI.RunBase.lean ====
import proofs.«411794_j45286135169328_1_alg».proof.Proof.KI.Fold
import Idealize.ShloMosaic.Lib.Pipeline.Kit
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 8) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
  | ⟨5, _⟩ => fun c => dat5 (E5 m) c
  | ⟨6, _⟩ => fun c => dat6 (E6 m) c
  | ⟨7, _⟩ => fun c => dat7 (E7 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev Rs : Fin 9 → Dev nD → sProp 𝕄 := fun _ c => R c

theorem result_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem update_other (V : Valuation τ sig (Elt F)) (o b : Ref sig .tc) (x) (h : b ≠ o) :
    Function.update V (Proc.devRef .tc o) x (Proc.devRef .tc b) = V (Proc.devRef .tc b) :=
  Function.update_of_ne (StableHlo.devRef_ne_of_ne h) _ _

end Cert.KernelIdeal.Hand

end
-- ==== Proof.KI.RunReg0.lean ====
import proofs.«411794_j45286135169328_1_alg».proof.Proof.KI.RunBase
import Idealize.ShloMosaic.Lib.Pipeline.Kit
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A region changes only its output array: every other array keeps the contents the region was entered with. -/
def regOf (p : Fin 8) (launch : Pipeline.LaunchFacts (nD := nD) (τ := τ) cfgs p) (o : Fin (cfgs p).W)
    (hins : ∀ w : Fin (cfgs p).W, w ≠ o → ((cfgs p).win w).isOut = false ∧ Pipeline.arrRef (cfgs p).spec w ≠ Pipeline.arrRef (cfgs p).spec o)
    (hbody : ∀ c, BodyObligation (pdats m p c) (defs₀ (F := F)) Variants.none () Set.univ)
    (hΦ : ∀ c i, (pdats m p c).Φ i = Pipeline.ΦA (cfgs p).spec c) (hq : ∀ c w, (pdats m p c).q w = fullShare)
    (howed : ∀ c t, (pdats m p c).owed t = 0) (hrec : ∀ c t, (pdats m p c).recorded t = Set.univ) (E X : Dev nD → Valuation τ sig (Elt F))
    (hA : ∀ c w, (pdats m p c).A w = E c (Pipeline.arrRef (cfgs p).spec w))
    (hX : ∀ c, X c = Function.update (E c) (Pipeline.arrRef (cfgs p).spec o) ((pdats m p c).arrAt o (cfgs p).N)) :
    Pipeline.RegionSeg (pcfgs (F := F)) Gen.adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (E c) ∗ R c)
  post c := iprop(StableHlo.held (c : Thread nD τ) (Pipeline.ucRefs τ sig) (X c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => E c b)
  hentry c := by
    rw [Pipeline.ownSems0_none]
    have hsplit := Pipeline.arrays_of_unscopedBufs (p := p) (pcfgs (F := F)) Gen.adm (pdats m) launch.win launch.arr_whole c
      ((pdats m p c).share_full (hq c)) (fun b => E c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      launch.win launch.arr_whole c (pdats m) ((pdats m p c).share_full (hq c))
      (fun b => E c b) (fun b => X c b) ((pdats m p c).arrAt · (cfgs p).N)
      (fun w => by
        rw [hX c]
        by_cases hw : w = o
        · subst hw
          show (pdats m p c).arrAt w (cfgs p).N = (Function.update (E c) (Pipeline.arrRef (cfgs p).spec w) ((pdats m p c).arrAt w (cfgs p).N) : Valuation τ sig (Elt F))
            (Pipeline.arrRef (cfgs p).spec w)
          exact (Function.update_self (α := DevRef τ sig) (β := fun b => b.ty.Contents (Elt F)) _ _ _).symm
        · obtain ⟨hin, hne⟩ := hins w hw
          exact (((pdats m p c).arrAt_in w hin _).trans (hA c w)).trans (update_other _ _ _ _ hne).symm)
      (fun b hb => by
        rw [hX c]
        exact update_other _ _ _ _ fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 := regOf m 0 launch0 2 (by decide) (fun c => body_obligation0 (E0 m) c) (fun _ _ => rfl) (fun _ _ => rfl) (fun _ _ => rfl) (fun _ _ => rfl)
  (W1 m) (W2 m) (fun c w => A_eq0 (E0 m) c w) (fun _ => rfl)
def reg1 := regOf m 1 launch1 5 (by decide) (fun c => body_obligation1 (E1 m) c) (fun _ _ => rfl) (fun _ _ => rfl) (fun _ _ => rfl) (fun _ _ => rfl)
  (W5 m) (W6 m) (fun c w => A_eq1 (E1 m) c w) (fun _ => rfl)
def reg2 := regOf m 2 launch2 2 (by decide) (fun c => body_obligation2 (E2 m) c) (fun _ _ => rfl) (fun _ _ => rfl) (fun _ _ => rfl) (fun _ _ => rfl)
  (W7 m) (W8 m) (fun c w => A_eq2 (E2 m) c w) (fun _ => rfl)
def reg3 := regOf m 3 launch3 3 (by decide) (fun c => body_obligation3 (E3 m) c) (fun _ _ => rfl) (fun _ _ => rfl) (fun _ _ => rfl) (fun _ _ => rfl)
  (W12 m) (W13 m) (fun c w => A_eq3 (E3 m) c w) (fun _ => rfl)
def reg4 := regOf m 4 launch4 6 (by decide) (fun c => body_obligation4 (E4 m) c) (fun _ _ => rfl) (fun _ _ => rfl) (fun _ _ => rfl) (fun _ _ => rfl)
  (W16 m) (W17 m) (fun c w => A_eq4 (E4 m) c w) (fun _ => rfl)
def reg5 := regOf m 5 launch5 2 (by decide) (fun c => body_obligation5 (E5 m) c) (fun _ _ => rfl) (fun _ _ => rfl) (fun _ _ => rfl) (fun _ _ => rfl)
  (W18 m) (W19 m) (fun c w => A_eq5 (E5 m) c w) (fun _ => rfl)
def reg6 := regOf m 6 launch6 3 (by decide) (fun c => body_obligation6 (E6 m) c) (fun _ _ => rfl) (fun _ _ => rfl) (fun _ _ => rfl) (fun _ _ => rfl)
  (W23 m) (W24 m) (fun c w => A_eq6 (E6 m) c w) (fun _ => rfl)
def reg7 := regOf m 7 launch7 6 (by decide) (fun c => body_obligation7 (E7 m) c) (fun _ _ => rfl) (fun _ _ => rfl) (fun _ _ => rfl) (fun _ _ => rfl)
  (W27 m) (W28 m) (fun c w => A_eq7 (E7 m) c w) (fun _ => rfl)

end Cert.KernelIdeal.Hand

end
-- ==== Proof.KI.Run.lean ====
import proofs.«411794_j45286135169328_1_alg».proof.Proof.KI.RunReg0
import Idealize.ShloMosaic.Lib.Pipeline.Kit
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal contents, equal thread states. -/
theorem held_congr (c : Dev nD) {A B : Valuation τ sig (Elt F)} (h : A = B) :
    iprop(StableHlo.held (c : Thread nD τ) (Pipeline.ucRefs τ sig) A ∗ R c) ⊢ iprop(StableHlo.held (c : Thread nD τ) (Pipeline.ucRefs τ sig) B ∗ R c) := by
  rw [h]

theorem hlast (c : Dev nD) : (reg7 m).post c ⊢ iprop(iprop(StableHlo.held (c : Thread nD τ) (Pipeline.ucRefs τ sig) (Gen.V28 m (outs m) c) ∗ ∃ r, prngReg c r)
    ∗ ∃ W, owes (c : Thread nD τ) (0 : CellTallies nD τ sig Unit) W) := by
  rw [V28_eq m c]
  show iprop(StableHlo.held (c : Thread nD τ) (Pipeline.ucRefs τ sig) (W28 m c) ∗ R c) ⊢ _
  iintro ⟨Hh, Hp, HO⟩
  isplitl [Hh Hp]
  · isplitl [Hh]; · iexact Hh
    iexact Hp
  iexact HO

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W28 m c b) := by
  refine Pipeline.θ_run_regions_kit_dev (pcfgs (F := F)) Gen.adm (pdats m) () cellOf_inj emb₁ defs₀ 𝒱₀ L lv m ρ main
    (Gen.segs m (outs m) 𝒱₀ L lv Rs () (pdats m) (reg0 m) (reg1 m) (reg2 m) (reg3 m) (reg4 m) (reg5 m) (reg6 m) (reg7 m))
    (fun c Q => by
      rewrite [main_chain c, Seg.run_eq_chain,
        show (Gen.segs m (outs m) 𝒱₀ L lv Rs () (pdats m) (reg0 m) (reg1 m) (reg2 m) (reg3 m) (reg4 m) (reg5 m) (reg6 m) (reg7 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          Prog.lift (.customCall (Pipeline.entry 6) ()),
          StableHlo.seq hostOps7,
          StableHlo.seq hostOps7_1,
          StableHlo.seq hostOps7_2,
          Prog.lift (.customCall (Pipeline.entry 7) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rs 0 c))
    (Tₙ := fun c => iprop(StableHlo.held (c : Thread nD τ) (Pipeline.ucRefs τ sig) (Gen.V28 m (outs m) c) ∗ ∃ r, prngReg c r))
    (hch := fun c => ⟨.rfl, held_congr c (V1_eq m c), held_congr c (V2_eq m c).symm, .rfl, .rfl, held_congr c (V5_eq m c), held_congr c (V6_eq m c).symm, held_congr c (V7_eq m c), held_congr c (V8_eq m c).symm, .rfl, .rfl, .rfl, held_congr c (V12_eq m c), held_congr c (V13_eq m c).symm, .rfl, .rfl, held_congr c (V16_eq m c), held_congr c (V17_eq m c).symm, held_congr c (V18_eq m c), held_congr c (V19_eq m c).symm, .rfl, .rfl, .rfl, held_congr c (V23_eq m c), held_congr c (V24_eq m c).symm, .rfl, .rfl, held_congr c (V27_eq m c), hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V28 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V28 m (outs m) c) s')
      isplitl [Hh] <;> iassumption)
    (hQ := fun s h c b hb => (h c b hb).trans (congrFun (V28_eq m c) b))

/-- Every execution ends with the result array at the fold's last contents and each argument as launched. -/
theorem run_args : θ_run defs (onTc (τ := τ) (main (F := F))) ⟨m, fun _ => 0, ρ⟩ (fun r => ∀ c : Dev nD,
      r.2.mem ((c.tc : Thread nD τ).loc main_v80) = W28 m c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (result_mem main_v80 (by decide)),
    (h c _ (result_mem main_arg0 (by decide))).trans ((congrFun (V28_eq m c) _).symm.trans (Gen.V28_main_arg0 m (outs m) c)),
    (h c _ (result_mem main_arg1 (by decide))).trans ((congrFun (V28_eq m c) _).symm.trans (Gen.V28_main_arg1 m (outs m) c)),
    (h c _ (result_mem main_arg2 (by decide))).trans ((congrFun (V28_eq m c) _).symm.trans (Gen.V28_main_arg2 m (outs m) c)),
    (h c _ (result_mem main_arg3 (by decide))).trans ((congrFun (V28_eq m c) _).symm.trans (Gen.V28_main_arg3 m (outs m) c)),
    (h c _ (result_mem main_arg4 (by decide))).trans ((congrFun (V28_eq m c) _).symm.trans (Gen.V28_main_arg4 m (outs m) c)),
    (h c _ (result_mem main_arg5 (by decide))).trans ((congrFun (V28_eq m c) _).symm.trans (Gen.V28_main_arg5 m (outs m) c)),
    (h c _ (result_mem main_arg6 (by decide))).trans ((congrFun (V28_eq m c) _).symm.trans (Gen.V28_main_arg6 m (outs m) c)),
    (h c _ (result_mem main_arg7 (by decide))).trans ((congrFun (V28_eq m c) _).symm.trans (Gen.V28_main_arg7 m (outs m) c)),
    (h c _ (result_mem main_arg8 (by decide))).trans ((congrFun (V28_eq m c) _).symm.trans (Gen.V28_main_arg8 m (outs m) c)),
    (h c _ (result_mem main_arg9 (by decide))).trans ((congrFun (V28_eq m c) _).symm.trans (Gen.V28_main_arg9 m (outs m) c)),
    (h c _ (result_mem main_arg10 (by decide))).trans ((congrFun (V28_eq m c) _).symm.trans (Gen.V28_main_arg10 m (outs m) c))⟩) (run_all m ρ)

end Cert.KernelIdeal.Hand

end
-- ==== Proof.KI.Take.lean ====
import proofs.«411794_j45286135169328_1_alg».proof.Proof.Gen.KernelIdeal.Launch
import proofs.«411794_j45286135169328_1_alg».proof.Proof.Gen.ReferenceIdeal
import proofs.«411794_j45286135169328_1_alg».proof.Proof.Stages
import Idealize.ShloMosaic.Lib.StableHlo.Run
import Idealize.ShloMosaic.PureOps.Ideal
import Idealize.ShloMosaic.PureOps.Reduce

set_option maxRecDepth 16384

noncomputable section

namespace Cert.KernelIdeal.Hand

open Idealize.ShloMosaic Idealize.ShloMosaic.TcCoe
open Idealize.SL.Sem
open Cert.KernelIdeal Cert.KernelIdeal.Gen

namespace Take

theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_ones f l (fun n hn => h n (List.mem_cons_of_mem _ hn))

theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x _ (fun n _ => hx n)

variable {F : FTy → Type} [FloatOps F]

def wrapK (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

def colK (idx : IVec S800000 32) : IVec S800000x1 32 :=
  broadcastInDim S800000x1 ![0] bcast_S800000_S800000x1_0 (wrapK idx)

def okK (idx : IVec S800000 32) : IVec S800000 1 :=
  Host.reduce IntOp.andi
    (andi (cmpi .sge (colK idx) (broadcastInDim S800000x1 ![] bcast_S_S800000x1 (constantI S_ 32 0#32)))
      (cmpi .sle (colK idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def takeK (t : FVec F S50000x128 .f32) (idx : IVec S800000 32) : FVec F S800000x128 .f32 :=
  select (broadcastInDim S800000x128 ![0] bcast_S800000_S800000x128_0 (okK idx))
    (Host.gather gather_S50000x128_S800000x1_S800000x128_1_0_n_n_0_1_1128 t (colK idx))
    (broadcastInDim S800000x128 ![] bcast_S_S800000x128 (constant S_ .f32 0x7FC00000#32))

theorem wrapK_apply (idx : IVec S800000 32) (k : S800000.Idx) (h0 : 0 ≤ (idx k).toInt) : wrapK idx k = idx k := by
  show Scalar.select (IntOp.cmpi .slt (idx k) 0#32) _ _ = _
  unfold Scalar.select
  rw [if_neg]
  intro hc
  have := IntOp.cmpi_slt.1 hc
  have z : (0#32 : BitVec 32).toInt = 0 := by decide
  omega

theorem okK_ones (idx : IVec S800000 32) (hidx : ∀ i, 0 ≤ (idx i).toInt ∧ (idx i).toInt < 50000) (k : S800000.Idx) :
    okK idx k = 1#1 := by
  have key : ∀ k' : S800000.Idx,
      IntOp.andi (IntOp.cmpi .sge (wrapK idx k') 0#32) (IntOp.cmpi .sle (wrapK idx k') 49999#32) = 1#1 := by
    intro k'
    obtain ⟨h0, h1⟩ := hidx k'
    rw [wrapK_apply idx k' h0]
    refine IntOp.andi_eq_one.2 ⟨IntOp.cmpi_sge.2 ?_, IntOp.cmpi_sle.2 ?_⟩
    · have z : (0#32 : BitVec 32).toInt = 0 := by decide
      rw [z]; exact h0
    · have z : (49999#32 : BitVec 32).toInt = 49999 := by decide
      rw [z]; omega
  unfold okK
  exact reduce_andi_ones _ _ _ (fun i => key _) k

theorem colK_eq (idx : IVec S800000 32) : colK idx = Cert.Stages.wrapCol idx := rfl

theorem takeK_eq (t : FVec F S50000x128 .f32) (idx : IVec S800000 32)
    (hidx : ∀ i, 0 ≤ (idx i).toInt ∧ (idx i).toInt < 50000) : takeK t idx = Cert.Stages.take (F := F) t idx := by
  funext j
  have hm : broadcastInDim S800000x128 ![0] bcast_S800000_S800000x128_0 (okK idx) j = 1 := by
    unfold broadcastInDim
    exact okK_ones idx hidx _
  unfold takeK select Scalar.select
  rw [if_pos hm]
  rfl

theorem ofBuf_toBuf {Val : EltTy → Type} {T : BufTy} (x : StableHlo.TRef sig T) (v : T.Contents Val) :
    x.ofBuf (x.toBuf v) = v := by
  obtain ⟨r, rfl, _, _⟩ := x
  rfl

end Take

open Take

theorem take3_1 (W : Valuation τ sig (Elt Ideal))
    (hidx : ∀ i, 0 ≤ ((W (Proc.devRef .tc main_v3)) i : BitVec 32).toInt ∧ ((W (Proc.devRef .tc main_v3)) i : BitVec 32).toInt < 50000) :
    (StableHlo.after (hostOps3_1 (F := Ideal)) W (Proc.devRef .tc main_v27) : FVec Ideal S800000x128 .f32)
      = Cert.Stages.take (F := Ideal) (W (Proc.devRef .tc main_v23)) (W (Proc.devRef .tc main_v3)) := by
  have e : (StableHlo.after (hostOps3_1 (F := Ideal)) W (Proc.devRef .tc main_v27) : FVec Ideal S800000x128 .f32)
      = takeK (F := Ideal) (W (Proc.devRef .tc main_v23)) (W (Proc.devRef .tc main_v3)) := by
    after_results_simp
    simp only [ofBuf_toBuf]
    have e1 : ∀ p1 p2 p3, (StableHlo.TRef.of main_v3 p1 p2 p3 : StableHlo.TRef sig ⟨S800000, .i32⟩).ofBuf (W (Proc.devRef .tc main_v3))
        = (W (Proc.devRef .tc main_v3) : IVec S800000 32) := fun _ _ _ => rfl
    have e2 : ∀ p1 p2 p3, (StableHlo.TRef.of main_v23 p1 p2 p3 : StableHlo.TRef sig ⟨S50000x128, .f32⟩).ofBuf (W (Proc.devRef .tc main_v23))
        = (W (Proc.devRef .tc main_v23) : FVec Ideal S50000x128 .f32) := fun _ _ _ => rfl
    have e3 : ∀ p1 p2 p3 (v : FVec Ideal S800000x128 .f32),
        ((StableHlo.TRef.of main_v27 p1 p2 p3 : StableHlo.TRef sig ⟨S800000x128, .f32⟩).toBuf (Val := Elt Ideal) v : FVec Ideal S800000x128 .f32) = v :=
      fun _ _ _ _ => rfl
    simp only [e1, e2]
    rw [e3]
    unfold takeK okK colK wrapK
    rfl
  rw [e]
  exact takeK_eq _ _ hidx

theorem take3_2 (W : Valuation τ sig (Elt Ideal))
    (hidx : ∀ i, 0 ≤ ((W (Proc.devRef .tc main_v1)) i : BitVec 32).toInt ∧ ((W (Proc.devRef .tc main_v1)) i : BitVec 32).toInt < 50000) :
    (StableHlo.after (hostOps3_2 (F := Ideal)) W (Proc.devRef .tc main_v28) : FVec Ideal S800000x128 .f32)
      = Cert.Stages.take (F := Ideal) (W (Proc.devRef .tc main_v24)) (W (Proc.devRef .tc main_v1)) := by
  have e : (StableHlo.after (hostOps3_2 (F := Ideal)) W (Proc.devRef .tc main_v28) : FVec Ideal S800000x128 .f32)
      = takeK (F := Ideal) (W (Proc.devRef .tc main_v24)) (W (Proc.devRef .tc main_v1)) := by
    after_results_simp
    simp only [ofBuf_toBuf]
    have e1 : ∀ p1 p2 p3, (StableHlo.TRef.of main_v1 p1 p2 p3 : StableHlo.TRef sig ⟨S800000, .i32⟩).ofBuf (W (Proc.devRef .tc main_v1))
        = (W (Proc.devRef .tc main_v1) : IVec S800000 32) := fun _ _ _ => rfl
    have e2 : ∀ p1 p2 p3, (StableHlo.TRef.of main_v24 p1 p2 p3 : StableHlo.TRef sig ⟨S50000x128, .f32⟩).ofBuf (W (Proc.devRef .tc main_v24))
        = (W (Proc.devRef .tc main_v24) : FVec Ideal S50000x128 .f32) := fun _ _ _ => rfl
    have e3 : ∀ p1 p2 p3 (v : FVec Ideal S800000x128 .f32),
        ((StableHlo.TRef.of main_v28 p1 p2 p3 : StableHlo.TRef sig ⟨S800000x128, .f32⟩).toBuf (Val := Elt Ideal) v : FVec Ideal S800000x128 .f32) = v :=
      fun _ _ _ _ => rfl
    simp only [e1, e2]
    rw [e3]
    unfold takeK okK colK wrapK
    rfl
  rw [e]
  exact takeK_eq _ _ hidx

theorem take3_3 (W : Valuation τ sig (Elt Ideal))
    (hidx : ∀ i, 0 ≤ ((W (Proc.devRef .tc main_v1)) i : BitVec 32).toInt ∧ ((W (Proc.devRef .tc main_v1)) i : BitVec 32).toInt < 50000) :
    (StableHlo.after (hostOps3_3 (F := Ideal)) W (Proc.devRef .tc main_v29) : FVec Ideal S800000x128 .f32)
      = Cert.Stages.take (F := Ideal) (W (Proc.devRef .tc main_v25)) (W (Proc.devRef .tc main_v1)) := by
  have e : (StableHlo.after (hostOps3_3 (F := Ideal)) W (Proc.devRef .tc main_v29) : FVec Ideal S800000x128 .f32)
      = takeK (F := Ideal) (W (Proc.devRef .tc main_v25)) (W (Proc.devRef .tc main_v1)) := by
    after_results_simp
    simp only [ofBuf_toBuf]
    have e1 : ∀ p1 p2 p3, (StableHlo.TRef.of main_v1 p1 p2 p3 : StableHlo.TRef sig ⟨S800000, .i32⟩).ofBuf (W (Proc.devRef .tc main_v1))
        = (W (Proc.devRef .tc main_v1) : IVec S800000 32) := fun _ _ _ => rfl
    have e2 : ∀ p1 p2 p3, (StableHlo.TRef.of main_v25 p1 p2 p3 : StableHlo.TRef sig ⟨S50000x128, .f32⟩).ofBuf (W (Proc.devRef .tc main_v25))
        = (W (Proc.devRef .tc main_v25) : FVec Ideal S50000x128 .f32) := fun _ _ _ => rfl
    have e3 : ∀ p1 p2 p3 (v : FVec Ideal S800000x128 .f32),
        ((StableHlo.TRef.of main_v29 p1 p2 p3 : StableHlo.TRef sig ⟨S800000x128, .f32⟩).toBuf (Val := Elt Ideal) v : FVec Ideal S800000x128 .f32) = v :=
      fun _ _ _ _ => rfl
    simp only [e1, e2]
    rw [e3]
    unfold takeK okK colK wrapK
    rfl
  rw [e]
  exact takeK_eq _ _ hidx

theorem take6_1 (W : Valuation τ sig (Elt Ideal))
    (hidx : ∀ i, 0 ≤ ((W (Proc.devRef .tc main_v3)) i : BitVec 32).toInt ∧ ((W (Proc.devRef .tc main_v3)) i : BitVec 32).toInt < 50000) :
    (StableHlo.after (hostOps6_1 (F := Ideal)) W (Proc.devRef .tc main_v61) : FVec Ideal S800000x128 .f32)
      = Cert.Stages.take (F := Ideal) (W (Proc.devRef .tc main_v57)) (W (Proc.devRef .tc main_v3)) := by
  have e : (StableHlo.after (hostOps6_1 (F := Ideal)) W (Proc.devRef .tc main_v61) : FVec Ideal S800000x128 .f32)
      = takeK (F := Ideal) (W (Proc.devRef .tc main_v57)) (W (Proc.devRef .tc main_v3)) := by
    after_results_simp
    simp only [ofBuf_toBuf]
    have e1 : ∀ p1 p2 p3, (StableHlo.TRef.of main_v3 p1 p2 p3 : StableHlo.TRef sig ⟨S800000, .i32⟩).ofBuf (W (Proc.devRef .tc main_v3))
        = (W (Proc.devRef .tc main_v3) : IVec S800000 32) := fun _ _ _ => rfl
    have e2 : ∀ p1 p2 p3, (StableHlo.TRef.of main_v57 p1 p2 p3 : StableHlo.TRef sig ⟨S50000x128, .f32⟩).ofBuf (W (Proc.devRef .tc main_v57))
        = (W (Proc.devRef .tc main_v57) : FVec Ideal S50000x128 .f32) := fun _ _ _ => rfl
    have e3 : ∀ p1 p2 p3 (v : FVec Ideal S800000x128 .f32),
        ((StableHlo.TRef.of main_v61 p1 p2 p3 : StableHlo.TRef sig ⟨S800000x128, .f32⟩).toBuf (Val := Elt Ideal) v : FVec Ideal S800000x128 .f32) = v :=
      fun _ _ _ _ => rfl
    simp only [e1, e2]
    rw [e3]
    unfold takeK okK colK wrapK
    rfl
  rw [e]
  exact takeK_eq _ _ hidx

theorem take6_2 (W : Valuation τ sig (Elt Ideal))
    (hidx : ∀ i, 0 ≤ ((W (Proc.devRef .tc main_v1)) i : BitVec 32).toInt ∧ ((W (Proc.devRef .tc main_v1)) i : BitVec 32).toInt < 50000) :
    (StableHlo.after (hostOps6_2 (F := Ideal)) W (Proc.devRef .tc main_v62) : FVec Ideal S800000x128 .f32)
      = Cert.Stages.take (F := Ideal) (W (Proc.devRef .tc main_v58)) (W (Proc.devRef .tc main_v1)) := by
  have e : (StableHlo.after (hostOps6_2 (F := Ideal)) W (Proc.devRef .tc main_v62) : FVec Ideal S800000x128 .f32)
      = takeK (F := Ideal) (W (Proc.devRef .tc main_v58)) (W (Proc.devRef .tc main_v1)) := by
    after_results_simp
    simp only [ofBuf_toBuf]
    have e1 : ∀ p1 p2 p3, (StableHlo.TRef.of main_v1 p1 p2 p3 : StableHlo.TRef sig ⟨S800000, .i32⟩).ofBuf (W (Proc.devRef .tc main_v1))
        = (W (Proc.devRef .tc main_v1) : IVec S800000 32) := fun _ _ _ => rfl
    have e2 : ∀ p1 p2 p3, (StableHlo.TRef.of main_v58 p1 p2 p3 : StableHlo.TRef sig ⟨S50000x128, .f32⟩).ofBuf (W (Proc.devRef .tc main_v58))
        = (W (Proc.devRef .tc main_v58) : FVec Ideal S50000x128 .f32) := fun _ _ _ => rfl
    have e3 : ∀ p1 p2 p3 (v : FVec Ideal S800000x128 .f32),
        ((StableHlo.TRef.of main_v62 p1 p2 p3 : StableHlo.TRef sig ⟨S800000x128, .f32⟩).toBuf (Val := Elt Ideal) v : FVec Ideal S800000x128 .f32) = v :=
      fun _ _ _ _ => rfl
    simp only [e1, e2]
    rw [e3]
    unfold takeK okK colK wrapK
    rfl
  rw [e]
  exact takeK_eq _ _ hidx

theorem take6_3 (W : Valuation τ sig (Elt Ideal))
    (hidx : ∀ i, 0 ≤ ((W (Proc.devRef .tc main_v1)) i : BitVec 32).toInt ∧ ((W (Proc.devRef .tc main_v1)) i : BitVec 32).toInt < 50000) :
    (StableHlo.after (hostOps6_3 (F := Ideal)) W (Proc.devRef .tc main_v63) : FVec Ideal S800000x128 .f32)
      = Cert.Stages.take (F := Ideal) (W (Proc.devRef .tc main_v59)) (W (Proc.devRef .tc main_v1)) := by
  have e : (StableHlo.after (hostOps6_3 (F := Ideal)) W (Proc.devRef .tc main_v63) : FVec Ideal S800000x128 .f32)
      = takeK (F := Ideal) (W (Proc.devRef .tc main_v59)) (W (Proc.devRef .tc main_v1)) := by
    after_results_simp
    simp only [ofBuf_toBuf]
    have e1 : ∀ p1 p2 p3, (StableHlo.TRef.of main_v1 p1 p2 p3 : StableHlo.TRef sig ⟨S800000, .i32⟩).ofBuf (W (Proc.devRef .tc main_v1))
        = (W (Proc.devRef .tc main_v1) : IVec S800000 32) := fun _ _ _ => rfl
    have e2 : ∀ p1 p2 p3, (StableHlo.TRef.of main_v59 p1 p2 p3 : StableHlo.TRef sig ⟨S50000x128, .f32⟩).ofBuf (W (Proc.devRef .tc main_v59))
        = (W (Proc.devRef .tc main_v59) : FVec Ideal S50000x128 .f32) := fun _ _ _ => rfl
    have e3 : ∀ p1 p2 p3 (v : FVec Ideal S800000x128 .f32),
        ((StableHlo.TRef.of main_v63 p1 p2 p3 : StableHlo.TRef sig ⟨S800000x128, .f32⟩).toBuf (Val := Elt Ideal) v : FVec Ideal S800000x128 .f32) = v :=
      fun _ _ _ _ => rfl
    simp only [e1, e2]
    rw [e3]
    unfold takeK okK colK wrapK
    rfl
  rw [e]
  exact takeK_eq _ _ hidx

theorem src_eq (W : Valuation τ sig (Elt Ideal)) :
    (StableHlo.after (hostOps0 (F := Ideal)) W (Proc.devRef .tc main_v1) : IVec S800000 32)
      = Cert.Stages.row0 (W (Proc.devRef .tc main_arg1)) := by
  after_results
  rfl

theorem dst_eq (W : Valuation τ sig (Elt Ideal)) :
    (StableHlo.after (hostOps0 (F := Ideal)) W (Proc.devRef .tc main_v3) : IVec S800000 32)
      = Cert.Stages.row1 (W (Proc.devRef .tc main_arg1)) := by
  after_results
  rfl

theorem row0_entry (ei : IVec S2x800000 32) (k : S800000.Idx) : ∃ i, Cert.Stages.row0 ei k = ei i := ⟨_, rfl⟩

theorem row1_entry (ei : IVec S2x800000 32) (k : S800000.Idx) : ∃ i, Cert.Stages.row1 ei k = ei i := ⟨_, rfl⟩

theorem row0_range (ei : IVec S2x800000 32) (h : ∀ i, 0 ≤ (ei i).toInt ∧ (ei i).toInt < 50000) (k : S800000.Idx) :
    0 ≤ (Cert.Stages.row0 ei k).toInt ∧ (Cert.Stages.row0 ei k).toInt < 50000 := by
  obtain ⟨i, e⟩ := row0_entry ei k
  rw [e]; exact h i

theorem row1_range (ei : IVec S2x800000 32) (h : ∀ i, 0 ≤ (ei i).toInt ∧ (ei i).toInt < 50000) (k : S800000.Idx) :
    0 ≤ (Cert.Stages.row1 ei k).toInt ∧ (Cert.Stages.row1 ei k).toInt < 50000 := by
  obtain ⟨i, e⟩ := row1_entry ei k
  rw [e]; exact h i

end Cert.KernelIdeal.Hand

end
-- ==== Proof.KI.Value1.lean ====
import proofs.«411794_j45286135169328_1_alg».proof.Proof.Gen.KernelIdeal.Launch
import proofs.«411794_j45286135169328_1_alg».proof.Proof.Gen.KernelIdeal.Regions
import proofs.«411794_j45286135169328_1_alg».proof.Proof.Gen.ReferenceIdeal
import proofs.«411794_j45286135169328_1_alg».proof.Proof.Stages
import Idealize.ShloMosaic.Lib.StableHlo.Run
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

theorem shapeCast_row_eq_broadcast {α : Type} {a : ℕ} (g : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ g h = broadcastInDim ⟨2, ![1, a]⟩ ![1] hb g := by
  funext j
  obtain ⟨u, i, rfl⟩ : ∃ (u : Fin 1) (i : Fin a), j = ix2 u i := ⟨j 0, j 1, eq_ix2 j⟩
  rw [shapeCast_a_1a_apply]
  symm
  refine broadcastInDim_apply ![1] hb g _ (ix1 i) ?_
  intro d
  match d with
  | ⟨0, _⟩ =>
    show i.val = if a = 1 then 0 else i.val
    split_ifs with ha
    · have := i.isLt; omega
    · rfl

theorem s0_src (W : Valuation τ sig (Elt F)) :
    (StableHlo.after hostOps0 W main_v1 : IVec S800000 32) = Cert.Stages.row0 (W main_arg1) := by
  after_results
  rfl

theorem s0_dst (W : Valuation τ sig (Elt F)) :
    (StableHlo.after hostOps0 W main_v3 : IVec S800000 32) = Cert.Stages.row1 (W main_arg1) := by
  after_results
  rfl

theorem s1_mean (W : Valuation τ sig (Elt F)) :
    (StableHlo.after hostOps1 W main_v8 : FVec F S1x128 .f32) = Cert.Stages.mean (F := F) (W main_v4) := by
  after_results
  rfl

theorem s1_c (W : Valuation τ sig (Elt F)) :
    (StableHlo.after hostOps1 W main_c : IVec S_ 32) = constantI S_ 32 0#32 := by
  after_results

theorem s1_1_var (W : Valuation τ sig (Elt F)) (hc : (W main_c : IVec S_ 32) = constantI S_ 32 0#32) :
    (StableHlo.after hostOps1_1 W main_v9 : FVec F S1x128 .f32) = Cert.Stages.var (F := F) (W main_v4) := by
  after_results_simp
  rw [hc]
  rfl

theorem s1_2_g (W : Valuation τ sig (Elt F)) :
    (StableHlo.after hostOps1_2 W main_v10 : FVec F S1x128 .f32) = Cert.Stages.asRow (F := F) (W main_arg3) := by
  after_results
  exact shapeCast_row_eq_broadcast _ _ _

theorem s1_2_b (W : Valuation τ sig (Elt F)) :
    (StableHlo.after hostOps1_2 W main_v11 : FVec F S1x128 .f32) = Cert.Stages.asRow (F := F) (W main_arg4) := by
  after_results
  exact shapeCast_row_eq_broadcast _ _ _

theorem s2_cat (W : Valuation τ sig (Elt F)) :
    (StableHlo.after hostOps2 W main_v21 : FVec F S128x512 .f32)
      = concatenate S128x512 1 [⟨S128x128, Cert.Stages.mat0 (F := F) (W main_arg5)⟩, ⟨S128x128, Cert.Stages.mat0 (F := F) (W main_arg6)⟩,
          ⟨S128x128, Cert.Stages.mat0 (F := F) (W main_arg7)⟩, ⟨S128x128, Cert.Stages.mat0 (F := F) (W main_arg8)⟩]
          concatenates_S128x128_S128x128_S128x128_S128x128_S128x512_d1 := by
  after_results
  rfl

theorem s3_k (W : Valuation τ sig (Elt F)) :
    (StableHlo.after hostOps3 W main_v23 : FVec F S50000x128 .f32)
      = extractStridedSlice S50000x128 ![0, 0] (W main_v22 : FVec F S50000x512 .f32) slices_S50000x512_S50000x128_0_0 := by
  after_results
theorem s3_q (W : Valuation τ sig (Elt F)) :
    (StableHlo.after hostOps3 W main_v24 : FVec F S50000x128 .f32)
      = extractStridedSlice S50000x128 ![0, 128] (W main_v22 : FVec F S50000x512 .f32) slices_S50000x512_S50000x128_0_128 := by
  after_results
theorem s3_v (W : Valuation τ sig (Elt F)) :
    (StableHlo.after hostOps3 W main_v25 : FVec F S50000x128 .f32)
      = extractStridedSlice S50000x128 ![0, 256] (W main_v22 : FVec F S50000x512 .f32) slices_S50000x512_S50000x128_0_256 := by
  after_results
theorem s3_s (W : Valuation τ sig (Elt F)) :
    (StableHlo.after hostOps3 W main_v26 : FVec F S50000x128 .f32)
      = extractStridedSlice S50000x128 ![0, 384] (W main_v22 : FVec F S50000x512 .f32) slices_S50000x512_S50000x128_0_384 := by
  after_results

theorem s4_agg (W : Valuation τ sig (Elt F)) :
    (StableHlo.after hostOps4 W main_v33 : FVec F S50000x128 .f32) = Cert.Stages.agg (F := F) (W main_v30) (W main_v3) := by
  after_results
  rfl

theorem s4_sum (W : Valuation τ sig (Elt F)) :
    (StableHlo.after hostOps4 W main_v34 : FVec F S50000x128 .f32)
      = addf (W main_v26 : FVec F S50000x128 .f32) (Cert.Stages.agg (F := F) (W main_v30) (W main_v3)) := by
  after_results
  rfl

theorem s4_mean (W : Valuation τ sig (Elt F)) :
    (StableHlo.after hostOps4 W main_v38 : FVec F S1x128 .f32)
      = Cert.Stages.mean (F := F) (addf (W main_v26 : FVec F S50000x128 .f32) (Cert.Stages.agg (F := F) (W main_v30) (W main_v3))) := by
  after_results
  rfl

theorem s4_c (W : Valuation τ sig (Elt F)) :
    (StableHlo.after hostOps4 W main_c_4 : IVec S_ 32) = constantI S_ 32 0#32 := by
  after_results

theorem s4_1_var (W : Valuation τ sig (Elt F)) (hc : (W main_c_4 : IVec S_ 32) = constantI S_ 32 0#32) :
    (StableHlo.after hostOps4_1 W main_v39 : FVec F S1x128 .f32) = Cert.Stages.var (F := F) (W main_v34) := by
  after_results_simp
  rw [hc]
  rfl

theorem s4_2_g (W : Valuation τ sig (Elt F)) :
    (StableHlo.after hostOps4_2 W main_v42 : FVec F S1x128 .f32) = Cert.Stages.asRow (F := F) (Cert.Stages.vec0 (F := F) (W main_arg9)) := by
  after_results
  exact shapeCast_row_eq_broadcast _ _ _

theorem s4_2_b (W : Valuation τ sig (Elt F)) :
    (StableHlo.after hostOps4_2 W main_v45 : FVec F S1x128 .f32) = Cert.Stages.asRow (F := F) (Cert.Stages.vec0 (F := F) (W main_arg10)) := by
  after_results
  exact shapeCast_row_eq_broadcast _ _ _

theorem s5_cat (W : Valuation τ sig (Elt F)) :
    (StableHlo.after hostOps5 W main_v55 : FVec F S128x512 .f32)
      = concatenate S128x512 1 [⟨S128x128, Cert.Stages.mat1 (F := F) (W main_arg5)⟩, ⟨S128x128, Cert.Stages.mat1 (F := F) (W main_arg6)⟩,
          ⟨S128x128, Cert.Stages.mat1 (F := F) (W main_arg7)⟩, ⟨S128x128, Cert.Stages.mat1 (F := F) (W main_arg8)⟩]
          concatenates_S128x128_S128x128_S128x128_S128x128_S128x512_d1 := by
  after_results
  rfl

theorem s6_k (W : Valuation τ sig (Elt F)) :
    (StableHlo.after hostOps6 W main_v57 : FVec F S50000x128 .f32)
      = extractStridedSlice S50000x128 ![0, 0] (W main_v56 : FVec F S50000x512 .f32) slices_S50000x512_S50000x128_0_0 := by
  after_results
theorem s6_q (W : Valuation τ sig (Elt F)) :
    (StableHlo.after hostOps6 W main_v58 : FVec F S50000x128 .f32)
      = extractStridedSlice S50000x128 ![0, 128] (W main_v56 : FVec F S50000x512 .f32) slices_S50000x512_S50000x128_0_128 := by
  after_results
theorem s6_v (W : Valuation τ sig (Elt F)) :
    (StableHlo.after hostOps6 W main_v59 : FVec F S50000x128 .f32)
      = extractStridedSlice S50000x128 ![0, 256] (W main_v56 : FVec F S50000x512 .f32) slices_S50000x512_S50000x128_0_256 := by
  after_results
theorem s6_s (W : Valuation τ sig (Elt F)) :
    (StableHlo.after hostOps6 W main_v60 : FVec F S50000x128 .f32)
      = extractStridedSlice S50000x128 ![0, 384] (W main_v56 : FVec F S50000x512 .f32) slices_S50000x512_S50000x128_0_384 := by
  after_results

theorem s7_agg (W : Valuation τ sig (Elt F)) :
    (StableHlo.after hostOps7 W main_v67 : FVec F S50000x128 .f32) = Cert.Stages.agg (F := F) (W main_v64) (W main_v3) := by
  after_results
  rfl

theorem s7_sum (W : Valuation τ sig (Elt F)) :
    (StableHlo.after hostOps7 W main_v68 : FVec F S50000x128 .f32)
      = addf (W main_v60 : FVec F S50000x128 .f32) (Cert.Stages.agg (F := F) (W main_v64) (W main_v3)) := by
  after_results
  rfl

theorem s7_mean (W : Valuation τ sig (Elt F)) :
    (StableHlo.after hostOps7 W main_v72 : FVec F S1x128 .f32)
      = Cert.Stages.mean (F := F) (addf (W main_v60 : FVec F S50000x128 .f32) (Cert.Stages.agg (F := F) (W main_v64) (W main_v3))) := by
  after_results
  rfl

theorem s7_c (W : Valuation τ sig (Elt F)) :
    (StableHlo.after hostOps7 W main_c_8 : IVec S_ 32) = constantI S_ 32 0#32 := by
  after_results

theorem s7_1_var (W : Valuation τ sig (Elt F)) (hc : (W main_c_8 : IVec S_ 32) = constantI S_ 32 0#32) :
    (StableHlo.after hostOps7_1 W main_v73 : FVec F S1x128 .f32) = Cert.Stages.var (F := F) (W main_v68) := by
  after_results_simp
  rw [hc]
  rfl

theorem s7_2_g (W : Valuation τ sig (Elt F)) :
    (StableHlo.after hostOps7_2 W main_v76 : FVec F S1x128 .f32) = Cert.Stages.asRow (F := F) (Cert.Stages.vec1 (F := F) (W main_arg9)) := by
  after_results
  exact shapeCast_row_eq_broadcast _ _ _

theorem s7_2_b (W : Valuation τ sig (Elt F)) :
    (StableHlo.after hostOps7_2 W main_v79 : FVec F S1x128 .f32) = Cert.Stages.asRow (F := F) (Cert.Stages.vec1 (F := F) (W main_arg10)) := by
  after_results
  exact shapeCast_row_eq_broadcast _ _ _

end Cert.KernelIdeal.Hand

end
-- ==== Proof.KI.Value2.lean ====
import proofs.«411794_j45286135169328_1_alg».proof.Proof.KI.Value1

set_option maxRecDepth 16384

noncomputable section

namespace Cert.KernelIdeal.Hand

open Idealize.ShloMosaic Idealize.ShloMosaic.TcCoe
open Cert.KernelIdeal Cert.KernelIdeal.Gen

def InRange (v : IVec S800000 32) : Prop := ∀ i : S800000.Idx, 0 ≤ (v i).toInt ∧ (v i).toInt < 50000

def Proj4 (cat : FVec Ideal S128x512 .f32) (o : FVec Ideal S50000x512 .f32) (h : FVec Ideal S50000x128 .f32) : Prop :=
  ∀ wk wq wv ws : FVec Ideal S128x128 .f32,
    cat = concatenate S128x512 1 [⟨S128x128, wk⟩, ⟨S128x128, wq⟩, ⟨S128x128, wv⟩, ⟨S128x128, ws⟩]
        concatenates_S128x128_S128x128_S128x128_S128x128_S128x512_d1 →
    extractStridedSlice S50000x128 ![0, 0] o slices_S50000x512_S50000x128_0_0 = Cert.Stages.proj (F := Ideal) h wk
    ∧ extractStridedSlice S50000x128 ![0, 128] o slices_S50000x512_S50000x128_0_128 = Cert.Stages.proj (F := Ideal) h wq
    ∧ extractStridedSlice S50000x128 ![0, 256] o slices_S50000x512_S50000x128_0_256 = Cert.Stages.proj (F := Ideal) h wv
    ∧ extractStridedSlice S50000x128 ![0, 384] o slices_S50000x512_S50000x128_0_384 = Cert.Stages.proj (F := Ideal) h ws

structure Trace where
  W0 : Valuation τ sig (Elt Ideal)
  W1 : Valuation τ sig (Elt Ideal)
  W2 : Valuation τ sig (Elt Ideal)
  W3 : Valuation τ sig (Elt Ideal)
  W4 : Valuation τ sig (Elt Ideal)
  W5 : Valuation τ sig (Elt Ideal)
  W6 : Valuation τ sig (Elt Ideal)
  W7 : Valuation τ sig (Elt Ideal)
  W8 : Valuation τ sig (Elt Ideal)
  W9 : Valuation τ sig (Elt Ideal)
  W10 : Valuation τ sig (Elt Ideal)
  W11 : Valuation τ sig (Elt Ideal)
  W12 : Valuation τ sig (Elt Ideal)
  W13 : Valuation τ sig (Elt Ideal)
  W14 : Valuation τ sig (Elt Ideal)
  W15 : Valuation τ sig (Elt Ideal)
  W16 : Valuation τ sig (Elt Ideal)
  W17 : Valuation τ sig (Elt Ideal)
  W18 : Valuation τ sig (Elt Ideal)
  W19 : Valuation τ sig (Elt Ideal)
  W20 : Valuation τ sig (Elt Ideal)
  W21 : Valuation τ sig (Elt Ideal)
  W22 : Valuation τ sig (Elt Ideal)
  W23 : Valuation τ sig (Elt Ideal)
  W24 : Valuation τ sig (Elt Ideal)
  W25 : Valuation τ sig (Elt Ideal)
  W26 : Valuation τ sig (Elt Ideal)
  W27 : Valuation τ sig (Elt Ideal)
  W28 : Valuation τ sig (Elt Ideal)
  s1 : W1 = StableHlo.after hostOps0 W0
  k2 : ∀ r : Ref sig .tc, r ≠ main_v4 → W2 (Proc.devRef .tc r) = W1 (Proc.devRef .tc r)
  v2 : (W2 main_v4 : FVec Ideal S50000x128 .f32) = Cert.Stages.lin (F := Ideal) (W1 main_arg0) (W1 main_arg2)
  s3 : W3 = StableHlo.after hostOps1 W2
  s4 : W4 = StableHlo.after hostOps1_1 W3
  s5 : W5 = StableHlo.after hostOps1_2 W4
  k6 : ∀ r : Ref sig .tc, r ≠ main_v12 → W6 (Proc.devRef .tc r) = W5 (Proc.devRef .tc r)
  v6 : (W6 main_v12 : FVec Ideal S50000x128 .f32)
        = Cert.Stages.normCore (F := Ideal) (W5 main_v4) (W5 main_v8) (W5 main_v9) (W5 main_v10) (W5 main_v11)
  s7 : W7 = StableHlo.after hostOps2 W6
  k8 : ∀ r : Ref sig .tc, r ≠ main_v22 → W8 (Proc.devRef .tc r) = W7 (Proc.devRef .tc r)
  v8 : Proj4 (W7 main_v21) (W8 main_v22) (W7 main_v12)
  s9 : W9 = StableHlo.after hostOps3 W8
  s10 : W10 = StableHlo.after hostOps3_1 W9
  t10 : InRange (W9 main_v3) →
      (W10 main_v27 : FVec Ideal S800000x128 .f32) = Cert.Stages.take (F := Ideal) (W9 main_v23) (W9 main_v3)
  s11 : W11 = StableHlo.after hostOps3_2 W10
  t11 : InRange (W10 main_v1) →
      (W11 main_v28 : FVec Ideal S800000x128 .f32) = Cert.Stages.take (F := Ideal) (W10 main_v24) (W10 main_v1)
  s12 : W12 = StableHlo.after hostOps3_3 W11
  t12 : InRange (W11 main_v1) →
      (W12 main_v29 : FVec Ideal S800000x128 .f32) = Cert.Stages.take (F := Ideal) (W11 main_v25) (W11 main_v1)
  k13 : ∀ r : Ref sig .tc, r ≠ main_v30 → W13 (Proc.devRef .tc r) = W12 (Proc.devRef .tc r)
  v13 : (W13 main_v30 : FVec Ideal S800000x128 .f32)
        = Cert.Stages.msg (F := Ideal) (W12 main_v27) (W12 main_v28) (W12 main_v29)
  s14 : W14 = StableHlo.after hostOps4 W13
  s15 : W15 = StableHlo.after hostOps4_1 W14
  s16 : W16 = StableHlo.after hostOps4_2 W15
  k17 : ∀ r : Ref sig .tc, r ≠ main_v46 → W17 (Proc.devRef .tc r) = W16 (Proc.devRef .tc r)
  v17 : (W17 main_v46 : FVec Ideal S50000x128 .f32)
        = Cert.Stages.normCore (F := Ideal) (addf (W16 main_v26 : FVec Ideal S50000x128 .f32) (W16 main_v33))
            (W16 main_v38) (W16 main_v39) (W16 main_v42) (W16 main_v45)
  s18 : W18 = StableHlo.after hostOps5 W17
  k19 : ∀ r : Ref sig .tc, r ≠ main_v56 → W19 (Proc.devRef .tc r) = W18 (Proc.devRef .tc r)
  v19 : Proj4 (W18 main_v55) (W19 main_v56) (W18 main_v46)
  s20 : W20 = StableHlo.after hostOps6 W19
  s21 : W21 = StableHlo.after hostOps6_1 W20
  t21 : InRange (W20 main_v3) →
      (W21 main_v61 : FVec Ideal S800000x128 .f32) = Cert.Stages.take (F := Ideal) (W20 main_v57) (W20 main_v3)
  s22 : W22 = StableHlo.after hostOps6_2 W21
  t22 : InRange (W21 main_v1) →
      (W22 main_v62 : FVec Ideal S800000x128 .f32) = Cert.Stages.take (F := Ideal) (W21 main_v58) (W21 main_v1)
  s23 : W23 = StableHlo.after hostOps6_3 W22
  t23 : InRange (W22 main_v1) →
      (W23 main_v63 : FVec Ideal S800000x128 .f32) = Cert.Stages.take (F := Ideal) (W22 main_v59) (W22 main_v1)
  k24 : ∀ r : Ref sig .tc, r ≠ main_v64 → W24 (Proc.devRef .tc r) = W23 (Proc.devRef .tc r)
  v24 : (W24 main_v64 : FVec Ideal S800000x128 .f32)
        = Cert.Stages.msg (F := Ideal) (W23 main_v61) (W23 main_v62) (W23 main_v63)
  s25 : W25 = StableHlo.after hostOps7 W24
  s26 : W26 = StableHlo.after hostOps7_1 W25
  s27 : W27 = StableHlo.after hostOps7_2 W26
  v28 : (W28 main_v80 : FVec Ideal S50000x128 .f32)
        = Cert.Stages.normCore (F := Ideal) (addf (W27 main_v60 : FVec Ideal S50000x128 .f32) (W27 main_v67))
            (W27 main_v72) (W27 main_v73) (W27 main_v76) (W27 main_v79)

theorem keep_host {ops : List (HloOp τ sig (Elt Ideal))} {Wl : List (Ref sig .tc)} {A B : Valuation τ sig (Elt Ideal)}
    (hs : B = StableHlo.after ops A)
    (hw : ops.Forall fun op => op.writes ⊆ (Wl.map (Proc.devRef (τ := τ) .tc)).toFinset) {r : Ref sig .tc} (h : r ∉ Wl) :
    B (no_index (Proc.devRef .tc r)) = A (Proc.devRef .tc r) := by
  subst hs
  exact StableHlo.after_of_writes_sub ops A hw h

theorem keep_reg {o : Ref sig .tc} {A B : Valuation τ sig (Elt Ideal)}
    (hk : ∀ r : Ref sig .tc, r ≠ o → B (Proc.devRef .tc r) = A (Proc.devRef .tc r)) {r : Ref sig .tc} (h : r ≠ o) :
    B (no_index (Proc.devRef .tc r)) = A (Proc.devRef .tc r) := hk r h

macro "keeps" T:term : tactic =>
  `(tactic| simp (disch := decide) only [
      keep_host (Trace.s1 $T) hostOps0_writes, keep_reg (Trace.k2 $T), keep_host (Trace.s3 $T) hostOps1_writes,
      keep_host (Trace.s4 $T) hostOps1_1_writes, keep_host (Trace.s5 $T) hostOps1_2_writes, keep_reg (Trace.k6 $T),
      keep_host (Trace.s7 $T) hostOps2_writes, keep_reg (Trace.k8 $T), keep_host (Trace.s9 $T) hostOps3_writes,
      keep_host (Trace.s10 $T) hostOps3_1_writes, keep_host (Trace.s11 $T) hostOps3_2_writes,
      keep_host (Trace.s12 $T) hostOps3_3_writes, keep_reg (Trace.k13 $T), keep_host (Trace.s14 $T) hostOps4_writes,
      keep_host (Trace.s15 $T) hostOps4_1_writes, keep_host (Trace.s16 $T) hostOps4_2_writes, keep_reg (Trace.k17 $T),
      keep_host (Trace.s18 $T) hostOps5_writes, keep_reg (Trace.k19 $T), keep_host (Trace.s20 $T) hostOps6_writes,
      keep_host (Trace.s21 $T) hostOps6_1_writes, keep_host (Trace.s22 $T) hostOps6_2_writes,
      keep_host (Trace.s23 $T) hostOps6_3_writes, keep_reg (Trace.k24 $T), keep_host (Trace.s25 $T) hostOps7_writes,
      keep_host (Trace.s26 $T) hostOps7_1_writes, keep_host (Trace.s27 $T) hostOps7_2_writes])

namespace Trace

variable (T : Trace)

def src : IVec S800000 32 := Cert.Stages.row0 (T.W0 main_arg1)
def dst : IVec S800000 32 := Cert.Stages.row1 (T.W0 main_arg1)
def x0 : FVec Ideal S50000x128 .f32 := Cert.Stages.lin (F := Ideal) (T.W0 main_arg0) (T.W0 main_arg2)
def h0 : FVec Ideal S50000x128 .f32 := Cert.Stages.bn (F := Ideal) T.x0 (T.W0 main_arg3) (T.W0 main_arg4)
def c0 : FVec Ideal S50000x128 .f32 :=
  Cert.Stages.conv (F := Ideal) T.h0 T.src T.dst (Cert.Stages.mat0 (T.W0 main_arg5)) (Cert.Stages.mat0 (T.W0 main_arg6))
    (Cert.Stages.mat0 (T.W0 main_arg7)) (Cert.Stages.mat0 (T.W0 main_arg8))
def h1 : FVec Ideal S50000x128 .f32 :=
  Cert.Stages.bn (F := Ideal) T.c0 (Cert.Stages.vec0 (T.W0 main_arg9)) (Cert.Stages.vec0 (T.W0 main_arg10))
def c1 : FVec Ideal S50000x128 .f32 :=
  Cert.Stages.conv (F := Ideal) T.h1 T.src T.dst (Cert.Stages.mat1 (T.W0 main_arg5)) (Cert.Stages.mat1 (T.W0 main_arg6))
    (Cert.Stages.mat1 (T.W0 main_arg7)) (Cert.Stages.mat1 (T.W0 main_arg8))

theorem out_eq :
    Cert.Stages.out (F := Ideal) (T.W0 main_arg0) (T.W0 main_arg1) (T.W0 main_arg2) (T.W0 main_arg3) (T.W0 main_arg4)
        (T.W0 main_arg5) (T.W0 main_arg6) (T.W0 main_arg7) (T.W0 main_arg8) (T.W0 main_arg9) (T.W0 main_arg10)
      = Cert.Stages.bn (F := Ideal) T.c1 (Cert.Stages.vec1 (T.W0 main_arg9)) (Cert.Stages.vec1 (T.W0 main_arg10)) := rfl

theorem row0_range (ei : IVec S2x800000 32) (h : ∀ i : S2x800000.Idx, 0 ≤ (ei i).toInt ∧ (ei i).toInt < 50000) :
    InRange (Cert.Stages.row0 ei) := fun i => h _
theorem row1_range (ei : IVec S2x800000 32) (h : ∀ i : S2x800000.Idx, 0 ≤ (ei i).toInt ∧ (ei i).toInt < 50000) :
    InRange (Cert.Stages.row1 ei) := fun i => h _

theorem e_src : (T.W1 main_v1 : IVec S800000 32) = T.src := by rw [T.s1]; exact s0_src _
theorem e_dst : (T.W1 main_v3 : IVec S800000 32) = T.dst := by rw [T.s1]; exact s0_dst _

theorem e_x0 : (T.W2 main_v4 : FVec Ideal S50000x128 .f32) = T.x0 := by
  rw [T.v2]; keeps T; rfl

theorem e_mean : (T.W3 main_v8 : FVec Ideal S1x128 .f32) = Cert.Stages.mean (F := Ideal) T.x0 := by
  rw [T.s3, s1_mean, T.e_x0]

theorem e_c : (T.W3 main_c : IVec S_ 32) = constantI S_ 32 0#32 := by rw [T.s3]; exact s1_c _

theorem e_var : (T.W4 main_v9 : FVec Ideal S1x128 .f32) = Cert.Stages.var (F := Ideal) T.x0 := by
  rw [T.s4, s1_1_var _ T.e_c]; keeps T; rw [T.e_x0]

theorem e_g : (T.W5 main_v10 : FVec Ideal S1x128 .f32) = Cert.Stages.asRow (F := Ideal) (T.W0 main_arg3) := by
  rw [T.s5, s1_2_g]; keeps T
theorem e_b : (T.W5 main_v11 : FVec Ideal S1x128 .f32) = Cert.Stages.asRow (F := Ideal) (T.W0 main_arg4) := by
  rw [T.s5, s1_2_b]; keeps T

theorem e_h0 : (T.W6 main_v12 : FVec Ideal S50000x128 .f32) = T.h0 := by
  rw [T.v6]; keeps T; rw [T.e_x0, T.e_mean, T.e_var, T.e_g, T.e_b]; rfl

theorem e_cat0 : (T.W7 main_v21 : FVec Ideal S128x512 .f32)
    = concatenate S128x512 1 [⟨S128x128, Cert.Stages.mat0 (F := Ideal) (T.W0 main_arg5)⟩, ⟨S128x128, Cert.Stages.mat0 (F := Ideal) (T.W0 main_arg6)⟩,
        ⟨S128x128, Cert.Stages.mat0 (F := Ideal) (T.W0 main_arg7)⟩, ⟨S128x128, Cert.Stages.mat0 (F := Ideal) (T.W0 main_arg8)⟩]
        concatenates_S128x128_S128x128_S128x128_S128x128_S128x512_d1 := by
  rw [T.s7, s2_cat]
  have e5 : T.W6 main_arg5 = T.W0 main_arg5 := by keeps T
  have e6 : T.W6 main_arg6 = T.W0 main_arg6 := by keeps T
  have e7 : T.W6 main_arg7 = T.W0 main_arg7 := by keeps T
  have e8 : T.W6 main_arg8 = T.W0 main_arg8 := by keeps T
  rw [e5, e6, e7, e8]

theorem e_h0' : (T.W7 main_v12 : FVec Ideal S50000x128 .f32) = T.h0 := by keeps T; exact T.e_h0

theorem e_k0 : (T.W9 main_v23 : FVec Ideal S50000x128 .f32) = Cert.Stages.proj (F := Ideal) T.h0 (Cert.Stages.mat0 (T.W0 main_arg5)) := by
  rw [T.s9, s3_k, ← T.e_h0']; exact (T.v8 _ _ _ _ T.e_cat0).1
theorem e_q0 : (T.W9 main_v24 : FVec Ideal S50000x128 .f32) = Cert.Stages.proj (F := Ideal) T.h0 (Cert.Stages.mat0 (T.W0 main_arg6)) := by
  rw [T.s9, s3_q, ← T.e_h0']; exact (T.v8 _ _ _ _ T.e_cat0).2.1
theorem e_v0 : (T.W9 main_v25 : FVec Ideal S50000x128 .f32) = Cert.Stages.proj (F := Ideal) T.h0 (Cert.Stages.mat0 (T.W0 main_arg7)) := by
  rw [T.s9, s3_v, ← T.e_h0']; exact (T.v8 _ _ _ _ T.e_cat0).2.2.1
theorem e_s0 : (T.W9 main_v26 : FVec Ideal S50000x128 .f32) = Cert.Stages.proj (F := Ideal) T.h0 (Cert.Stages.mat0 (T.W0 main_arg8)) := by
  rw [T.s9, s3_s, ← T.e_h0']; exact (T.v8 _ _ _ _ T.e_cat0).2.2.2

section
variable (hidx : ∀ i : S2x800000.Idx, 0 ≤ ((T.W0 main_arg1 : IVec S2x800000 32) i).toInt ∧ ((T.W0 main_arg1 : IVec S2x800000 32) i).toInt < 50000)
include hidx

theorem src_range : InRange T.src := row0_range _ hidx
theorem dst_range : InRange T.dst := row1_range _ hidx

theorem e_tk0 : (T.W10 main_v27 : FVec Ideal S800000x128 .f32)
    = Cert.Stages.take (F := Ideal) (Cert.Stages.proj (F := Ideal) T.h0 (Cert.Stages.mat0 (T.W0 main_arg5))) T.dst := by
  have hd : (T.W9 main_v3 : IVec S800000 32) = T.dst := by keeps T; exact T.e_dst
  rw [T.t10 (by rw [hd]; exact T.dst_range hidx), T.e_k0, hd]

theorem e_tq0 : (T.W11 main_v28 : FVec Ideal S800000x128 .f32)
    = Cert.Stages.take (F := Ideal) (Cert.Stages.proj (F := Ideal) T.h0 (Cert.Stages.mat0 (T.W0 main_arg6))) T.src := by
  have hd : (T.W10 main_v1 : IVec S800000 32) = T.src := by keeps T; exact T.e_src
  have hq : (T.W10 main_v24 : FVec Ideal S50000x128 .f32) = Cert.Stages.proj (F := Ideal) T.h0 (Cert.Stages.mat0 (T.W0 main_arg6)) := by
    keeps T; exact T.e_q0
  rw [T.t11 (by rw [hd]; exact T.src_range hidx), hq, hd]

theorem e_tv0 : (T.W12 main_v29 : FVec Ideal S800000x128 .f32)
    = Cert.Stages.take (F := Ideal) (Cert.Stages.proj (F := Ideal) T.h0 (Cert.Stages.mat0 (T.W0 main_arg7))) T.src := by
  have hd : (T.W11 main_v1 : IVec S800000 32) = T.src := by keeps T; exact T.e_src
  have hv : (T.W11 main_v25 : FVec Ideal S50000x128 .f32) = Cert.Stages.proj (F := Ideal) T.h0 (Cert.Stages.mat0 (T.W0 main_arg7)) := by
    keeps T; exact T.e_v0
  rw [T.t12 (by rw [hd]; exact T.src_range hidx), hv, hd]

theorem e_msg0 : (T.W13 main_v30 : FVec Ideal S800000x128 .f32)
    = Cert.Stages.msg (F := Ideal)
        (Cert.Stages.take (F := Ideal) (Cert.Stages.proj (F := Ideal) T.h0 (Cert.Stages.mat0 (T.W0 main_arg5))) T.dst)
        (Cert.Stages.take (F := Ideal) (Cert.Stages.proj (F := Ideal) T.h0 (Cert.Stages.mat0 (T.W0 main_arg6))) T.src)
        (Cert.Stages.take (F := Ideal) (Cert.Stages.proj (F := Ideal) T.h0 (Cert.Stages.mat0 (T.W0 main_arg7))) T.src) := by
  rw [T.v13]; keeps T; rw [T.e_tk0 hidx, T.e_tq0 hidx, T.e_tv0 hidx]

theorem e_agg0 : (T.W14 main_v33 : FVec Ideal S50000x128 .f32)
    = Cert.Stages.agg (F := Ideal) (Cert.Stages.msg (F := Ideal)
        (Cert.Stages.take (F := Ideal) (Cert.Stages.proj (F := Ideal) T.h0 (Cert.Stages.mat0 (T.W0 main_arg5))) T.dst)
        (Cert.Stages.take (F := Ideal) (Cert.Stages.proj (F := Ideal) T.h0 (Cert.Stages.mat0 (T.W0 main_arg6))) T.src)
        (Cert.Stages.take (F := Ideal) (Cert.Stages.proj (F := Ideal) T.h0 (Cert.Stages.mat0 (T.W0 main_arg7))) T.src)) T.dst := by
  rw [T.s14, s4_agg]; keeps T; rw [T.e_msg0 hidx, T.e_dst]

theorem e_c0 : (T.W14 main_v34 : FVec Ideal S50000x128 .f32) = T.c0 := by
  rw [T.s14, s4_sum]; keeps T; rw [T.e_s0, T.e_msg0 hidx, T.e_dst]; rfl

theorem e_mean0 : (T.W14 main_v38 : FVec Ideal S1x128 .f32) = Cert.Stages.mean (F := Ideal) T.c0 := by
  rw [T.s14, s4_mean]; keeps T; rw [T.e_s0, T.e_msg0 hidx, T.e_dst]; rfl

omit hidx in
theorem e_c4 : (T.W14 main_c_4 : IVec S_ 32) = constantI S_ 32 0#32 := by rw [T.s14]; exact s4_c _

theorem e_var0 : (T.W15 main_v39 : FVec Ideal S1x128 .f32) = Cert.Stages.var (F := Ideal) T.c0 := by
  rw [T.s15, s4_1_var _ T.e_c4, T.e_c0 hidx]

omit hidx in
theorem e_g0 : (T.W16 main_v42 : FVec Ideal S1x128 .f32) = Cert.Stages.asRow (F := Ideal) (Cert.Stages.vec0 (T.W0 main_arg9)) := by
  rw [T.s16, s4_2_g]; keeps T
omit hidx in
theorem e_b0 : (T.W16 main_v45 : FVec Ideal S1x128 .f32) = Cert.Stages.asRow (F := Ideal) (Cert.Stages.vec0 (T.W0 main_arg10)) := by
  rw [T.s16, s4_2_b]; keeps T

theorem e_h1 : (T.W17 main_v46 : FVec Ideal S50000x128 .f32) = T.h1 := by
  rw [T.v17]; keeps T; rw [T.e_s0, T.e_agg0 hidx, T.e_mean0 hidx, T.e_var0 hidx, T.e_g0, T.e_b0]; rfl

end

theorem e_cat1 : (T.W18 main_v55 : FVec Ideal S128x512 .f32)
    = concatenate S128x512 1 [⟨S128x128, Cert.Stages.mat1 (F := Ideal) (T.W0 main_arg5)⟩, ⟨S128x128, Cert.Stages.mat1 (F := Ideal) (T.W0 main_arg6)⟩,
        ⟨S128x128, Cert.Stages.mat1 (F := Ideal) (T.W0 main_arg7)⟩, ⟨S128x128, Cert.Stages.mat1 (F := Ideal) (T.W0 main_arg8)⟩]
        concatenates_S128x128_S128x128_S128x128_S128x128_S128x512_d1 := by
  rw [T.s18, s5_cat]
  have e5 : T.W17 main_arg5 = T.W0 main_arg5 := by keeps T
  have e6 : T.W17 main_arg6 = T.W0 main_arg6 := by keeps T
  have e7 : T.W17 main_arg7 = T.W0 main_arg7 := by keeps T
  have e8 : T.W17 main_arg8 = T.W0 main_arg8 := by keeps T
  rw [e5, e6, e7, e8]

section
variable (hidx : ∀ i : S2x800000.Idx, 0 ≤ ((T.W0 main_arg1 : IVec S2x800000 32) i).toInt ∧ ((T.W0 main_arg1 : IVec S2x800000 32) i).toInt < 50000)
include hidx

theorem e_h1' : (T.W18 main_v46 : FVec Ideal S50000x128 .f32) = T.h1 := by keeps T; exact T.e_h1 hidx

theorem e_k1 : (T.W20 main_v57 : FVec Ideal S50000x128 .f32) = Cert.Stages.proj (F := Ideal) T.h1 (Cert.Stages.mat1 (T.W0 main_arg5)) := by
  rw [T.s20, s6_k, ← T.e_h1' hidx]; exact (T.v19 _ _ _ _ T.e_cat1).1
theorem e_q1 : (T.W20 main_v58 : FVec Ideal S50000x128 .f32) = Cert.Stages.proj (F := Ideal) T.h1 (Cert.Stages.mat1 (T.W0 main_arg6)) := by
  rw [T.s20, s6_q, ← T.e_h1' hidx]; exact (T.v19 _ _ _ _ T.e_cat1).2.1
theorem e_v1 : (T.W20 main_v59 : FVec Ideal S50000x128 .f32) = Cert.Stages.proj (F := Ideal) T.h1 (Cert.Stages.mat1 (T.W0 main_arg7)) := by
  rw [T.s20, s6_v, ← T.e_h1' hidx]; exact (T.v19 _ _ _ _ T.e_cat1).2.2.1
theorem e_s1 : (T.W20 main_v60 : FVec Ideal S50000x128 .f32) = Cert.Stages.proj (F := Ideal) T.h1 (Cert.Stages.mat1 (T.W0 main_arg8)) := by
  rw [T.s20, s6_s, ← T.e_h1' hidx]; exact (T.v19 _ _ _ _ T.e_cat1).2.2.2

theorem e_tk1 : (T.W21 main_v61 : FVec Ideal S800000x128 .f32)
    = Cert.Stages.take (F := Ideal) (Cert.Stages.proj (F := Ideal) T.h1 (Cert.Stages.mat1 (T.W0 main_arg5))) T.dst := by
  have hd : (T.W20 main_v3 : IVec S800000 32) = T.dst := by keeps T; exact T.e_dst
  rw [T.t21 (by rw [hd]; exact T.dst_range hidx), T.e_k1 hidx, hd]

theorem e_tq1 : (T.W22 main_v62 : FVec Ideal S800000x128 .f32)
    = Cert.Stages.take (F := Ideal) (Cert.Stages.proj (F := Ideal) T.h1 (Cert.Stages.mat1 (T.W0 main_arg6))) T.src := by
  have hd : (T.W21 main_v1 : IVec S800000 32) = T.src := by keeps T; exact T.e_src
  have hq : (T.W21 main_v58 : FVec Ideal S50000x128 .f32) = Cert.Stages.proj (F := Ideal) T.h1 (Cert.Stages.mat1 (T.W0 main_arg6)) := by
    keeps T; exact T.e_q1 hidx
  rw [T.t22 (by rw [hd]; exact T.src_range hidx), hq, hd]

theorem e_tv1 : (T.W23 main_v63 : FVec Ideal S800000x128 .f32)
    = Cert.Stages.take (F := Ideal) (Cert.Stages.proj (F := Ideal) T.h1 (Cert.Stages.mat1 (T.W0 main_arg7))) T.src := by
  have hd : (T.W22 main_v1 : IVec S800000 32) = T.src := by keeps T; exact T.e_src
  have hv : (T.W22 main_v59 : FVec Ideal S50000x128 .f32) = Cert.Stages.proj (F := Ideal) T.h1 (Cert.Stages.mat1 (T.W0 main_arg7)) := by
    keeps T; exact T.e_v1 hidx
  rw [T.t23 (by rw [hd]; exact T.src_range hidx), hv, hd]

theorem e_msg1 : (T.W24 main_v64 : FVec Ideal S800000x128 .f32)
    = Cert.Stages.msg (F := Ideal)
        (Cert.Stages.take (F := Ideal) (Cert.Stages.proj (F := Ideal) T.h1 (Cert.Stages.mat1 (T.W0 main_arg5))) T.dst)
        (Cert.Stages.take (F := Ideal) (Cert.Stages.proj (F := Ideal) T.h1 (Cert.Stages.mat1 (T.W0 main_arg6))) T.src)
        (Cert.Stages.take (F := Ideal) (Cert.Stages.proj (F := Ideal) T.h1 (Cert.Stages.mat1 (T.W0 main_arg7))) T.src) := by
  rw [T.v24]; keeps T; rw [T.e_tk1 hidx, T.e_tq1 hidx, T.e_tv1 hidx]

theorem e_agg1 : (T.W25 main_v67 : FVec Ideal S50000x128 .f32)
    = Cert.Stages.agg (F := Ideal) (Cert.Stages.msg (F := Ideal)
        (Cert.Stages.take (F := Ideal) (Cert.Stages.proj (F := Ideal) T.h1 (Cert.Stages.mat1 (T.W0 main_arg5))) T.dst)
        (Cert.Stages.take (F := Ideal) (Cert.Stages.proj (F := Ideal) T.h1 (Cert.Stages.mat1 (T.W0 main_arg6))) T.src)
        (Cert.Stages.take (F := Ideal) (Cert.Stages.proj (F := Ideal) T.h1 (Cert.Stages.mat1 (T.W0 main_arg7))) T.src)) T.dst := by
  rw [T.s25, s7_agg]; keeps T; rw [T.e_msg1 hidx, T.e_dst]

theorem e_c1 : (T.W25 main_v68 : FVec Ideal S50000x128 .f32) = T.c1 := by
  rw [T.s25, s7_sum]; keeps T; rw [T.e_s1 hidx, T.e_msg1 hidx, T.e_dst]; rfl

theorem e_mean1 : (T.W25 main_v72 : FVec Ideal S1x128 .f32) = Cert.Stages.mean (F := Ideal) T.c1 := by
  rw [T.s25, s7_mean]; keeps T; rw [T.e_s1 hidx, T.e_msg1 hidx, T.e_dst]; rfl

omit hidx in
theorem e_c8 : (T.W25 main_c_8 : IVec S_ 32) = constantI S_ 32 0#32 := by rw [T.s25]; exact s7_c _

theorem e_var1 : (T.W26 main_v73 : FVec Ideal S1x128 .f32) = Cert.Stages.var (F := Ideal) T.c1 := by
  rw [T.s26, s7_1_var _ T.e_c8, T.e_c1 hidx]

omit hidx in
theorem e_g1 : (T.W27 main_v76 : FVec Ideal S1x128 .f32) = Cert.Stages.asRow (F := Ideal) (Cert.Stages.vec1 (T.W0 main_arg9)) := by
  rw [T.s27, s7_2_g]; keeps T
omit hidx in
theorem e_b1 : (T.W27 main_v79 : FVec Ideal S1x128 .f32) = Cert.Stages.asRow (F := Ideal) (Cert.Stages.vec1 (T.W0 main_arg10)) := by
  rw [T.s27, s7_2_b]; keeps T

theorem value : (T.W28 main_v80 : FVec Ideal S50000x128 .f32)
    = Cert.Stages.out (F := Ideal) (T.W0 main_arg0) (T.W0 main_arg1) (T.W0 main_arg2) (T.W0 main_arg3) (T.W0 main_arg4)
        (T.W0 main_arg5) (T.W0 main_arg6) (T.W0 main_arg7) (T.W0 main_arg8) (T.W0 main_arg9) (T.W0 main_arg10) := by
  rw [T.out_eq, T.v28]; keeps T
  rw [T.e_s1 hidx, T.e_agg1 hidx, T.e_mean1 hidx, T.e_var1 hidx, T.e_g1, T.e_b1]; rfl

end

end Trace

end Cert.KernelIdeal.Hand

end
-- ==== Proof.KI.Value.lean ====
import proofs.«411794_j45286135169328_1_alg».proof.Proof.KI.Fold
import proofs.«411794_j45286135169328_1_alg».proof.Proof.KI.Take
import proofs.«411794_j45286135169328_1_alg».proof.Proof.KI.Value2
import Idealize.ShloMosaic.Lib.StableHlo.Run

set_option maxRecDepth 16384

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

theorem update_keep {A : Valuation τ sig (Elt Ideal)} {o : Ref sig .tc} (v : (Proc.devRef (τ := τ) .tc o).ty.Contents (Elt Ideal))
    (r : Ref sig .tc) (h : r ≠ o) : Function.update A (Proc.devRef .tc o) v (Proc.devRef .tc r) = A (Proc.devRef .tc r) :=
  Function.update_of_ne (StableHlo.devRef_ne_of_ne h) _ _

def trace (c : Dev nD) : Trace where
  W0 := W0 m c
  W1 := W1 m c
  W2 := W2 m c
  W3 := W3 m c
  W4 := W4 m c
  W5 := W5 m c
  W6 := W6 m c
  W7 := W7 m c
  W8 := W8 m c
  W9 := W9 m c
  W10 := W10 m c
  W11 := W11 m c
  W12 := W12 m c
  W13 := W13 m c
  W14 := W14 m c
  W15 := W15 m c
  W16 := W16 m c
  W17 := W17 m c
  W18 := W18 m c
  W19 := W19 m c
  W20 := W20 m c
  W21 := W21 m c
  W22 := W22 m c
  W23 := W23 m c
  W24 := W24 m c
  W25 := W25 m c
  W26 := W26 m c
  W27 := W27 m c
  W28 := W28 m c
  s1 := rfl
  k2 := fun r h => update_keep _ r h
  v2 := by
    have e : W2 m c main_v4 = o0 m c := outs_2 m c
    rw [e]; exact val0 (E0 m) c
  s3 := rfl
  s4 := rfl
  s5 := rfl
  k6 := fun r h => update_keep _ r h
  v6 := by
    have e : W6 m c main_v12 = o1 m c := outs_6 m c
    rw [e]; exact val1 (E1 m) c
  s7 := rfl
  k8 := fun r h => update_keep _ r h
  v8 := fun wk wq wv ws hcat => by
    have e : W8 m c main_v22 = o2 m c := outs_8 m c
    rw [e]; exact val2 (E2 m) c wk wq wv ws hcat
  s9 := rfl
  s10 := rfl
  t10 := fun h => take3_1 (W9 m c) h
  s11 := rfl
  t11 := fun h => take3_2 (W10 m c) h
  s12 := rfl
  t12 := fun h => take3_3 (W11 m c) h
  k13 := fun r h => update_keep _ r h
  v13 := by
    have e : W13 m c main_v30 = o3 m c := outs_13 m c
    rw [e]; exact val3 (E3 m) c
  s14 := rfl
  s15 := rfl
  s16 := rfl
  k17 := fun r h => update_keep _ r h
  v17 := by
    have e : W17 m c main_v46 = o4 m c := outs_17 m c
    rw [e]; exact val4 (E4 m) c
  s18 := rfl
  k19 := fun r h => update_keep _ r h
  v19 := fun wk wq wv ws hcat => by
    have e : W19 m c main_v56 = o5 m c := outs_19 m c
    rw [e]; exact val5 (E5 m) c wk wq wv ws hcat
  s20 := rfl
  s21 := rfl
  t21 := fun h => take6_1 (W20 m c) h
  s22 := rfl
  t22 := fun h => take6_2 (W21 m c) h
  s23 := rfl
  t23 := fun h => take6_3 (W22 m c) h
  k24 := fun r h => update_keep _ r h
  v24 := by
    have e : W24 m c main_v64 = o6 m c := outs_24 m c
    rw [e]; exact val6 (E6 m) c
  s25 := rfl
  s26 := rfl
  s27 := rfl
  v28 := by
    have e : W28 m c main_v80 = o7 m c := outs_28 m c
    rw [e]; exact val7 (E7 m) c

theorem kval (c : Dev nD)
    (hidx : ∀ i : S2x800000.Idx, 0 ≤ ((m ((c : Thread nD τ).loc main_arg1)) i : BitVec 32).toInt
      ∧ ((m ((c : Thread nD τ).loc main_arg1)) i : BitVec 32).toInt < 50000) :
    (W28 m c main_v80 : FVec Ideal S50000x128 .f32)
      = Cert.Stages.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  (trace m c).value hidx

end Cert.KernelIdeal.Hand

end
-- ==== Proof.Ref.Ops.lean ====
import proofs.«411794_j45286135169328_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem

variable {F : FTy → Type} [FloatOps F] [Facts]
open Facts₀ Facts

abbrev s_lin : List (HloOp τ sig (Elt F)) :=
  [ StableHlo.binary main_arg0 main_arg2 main_v0 (fun l r => Host.dotGeneral dot_S50000x20_S20x128_S50000x128_1_0_0_1_n_n none l r) ]

abbrev s_bn0 : List (HloOp τ sig (Elt F)) :=
  [ StableHlo.nullary main_cst (constant S_ .f32 0x00000000#32),
    StableHlo.binary main_v0 main_cst main_v1 (fun x v => Host.reduceAdd x v reducesTo_S50000x128_S128_d0 h_S_),
    StableHlo.unary main_v1 main_v2 (broadcastInDim S1x128 ![1] bcast_S128_S1x128_1),
    StableHlo.nullary main_cst_0 (constant S_ .f32 0x47435000#32),
    StableHlo.unary main_cst_0 main_v3 (broadcastInDim S1x128 ![] bcast_S_S1x128),
    StableHlo.binary main_v2 main_v3 main_v4 Host.divf,
    StableHlo.nullary main_c (constantI S_ 32 0#32),
    StableHlo.TRef.nullary main_call0.cst (constant S_ .f32 0x00000000#32),
    StableHlo.TRef.binary (.of main_v0 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v0 : StableHlo.TRef sig ⟨S50000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v9 main_call0.v10 (broadcastInDim S1x128 ![1] bcast_S128_S1x128_1),
    StableHlo.TRef.unary main_call0.v8 main_call0.v11 (broadcastInDim S1x128 ![] bcast_S_S1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x128 ![] bcast_S_S1x128),
    StableHlo.TRef.ternary main_call0.v13 main_call0.v12 main_call0.call0.v1 main_call0.call0.v2 (fun p a b => select (broadcastInDim S1x128 ![] bcast_S_S1x128 p) a b),
    StableHlo.unary main_v4 main_v6 (broadcastInDim S50000x128 ![0, 1] bcast_S1x128_S50000x128_0_1),
    StableHlo.binary main_v0 main_v6 main_v7 subf,
    StableHlo.nullary main_cst_1 (constant S_ .f32 0x3727C5AC#32),
    StableHlo.unary main_cst_1 main_v8 (broadcastInDim S1x128 ![] bcast_S_S1x128),
    StableHlo.binary main_v5 main_v8 main_v9 addf,
    StableHlo.unary main_v9 main_v10 Host.rsqrt,
    StableHlo.unary main_v10 main_v11 (broadcastInDim S50000x128 ![0, 1] bcast_S1x128_S50000x128_0_1),
    StableHlo.binary main_v7 main_v11 main_v12 mulf,
    StableHlo.unary main_arg3 main_v13 (broadcastInDim S1x128 ![1] bcast_S128_S1x128_1),
    StableHlo.unary main_v13 main_v14 (broadcastInDim S50000x128 ![0, 1] bcast_S1x128_S50000x128_0_1),
    StableHlo.binary main_v12 main_v14 main_v15 mulf,
    StableHlo.unary main_arg4 main_v16 (broadcastInDim S1x128 ![1] bcast_S128_S1x128_1),
    StableHlo.unary main_v16 main_v17 (broadcastInDim S50000x128 ![0, 1] bcast_S1x128_S50000x128_0_1),
    StableHlo.binary main_v15 main_v17 main_v18 addf,
    StableHlo.TRef.nullary main_call1.cst (constant S_ .f32 0x00000000#32),
    StableHlo.TRef.unary main_call1.cst main_call1.v0 (broadcastInDim S50000x128 ![] bcast_S_S50000x128),
    StableHlo.TRef.binary (.of main_v18 : StableHlo.TRef sig ⟨S50000x128, .f32⟩) main_call1.v0 main_call1.v1 maximumf,
    StableHlo.binary main_v19 main_v19 main_v20 mulf,
    StableHlo.nullary main_cst_2 (constant S_ .f32 0x00000000#32),
    StableHlo.binary main_v20 main_cst_2 main_v21 (fun x v => Host.reduceAdd x v reducesTo_S50000x128_S50000_d1 h_S_),
    StableHlo.unary main_v21 main_v22 (broadcastInDim S50000x1 ![0] bcast_S50000_S50000x1_0),
    StableHlo.unary main_v22 main_v23 Host.sqrt,
    StableHlo.nullary main_cst_3 (constant S_ .f32 0x2B8CBCCC#32),
    StableHlo.unary main_cst_3 main_v24 (broadcastInDim S50000x1 ![] bcast_S_S50000x1),
    StableHlo.binary main_v23 main_v24 main_v25 maximumf,
    StableHlo.unary main_v25 main_v26 (broadcastInDim S50000x128 ![0, 1] bcast_S50000x1_S50000x128_0_1),
    StableHlo.binary main_v19 main_v26 main_v27 Host.divf ]

abbrev s_c0a : List (HloOp τ sig (Elt F)) :=
  [ StableHlo.unary main_arg5 main_v28 ((extractStridedSlice S1x128x128 ![0, 0, 0] · slices_S2x128x128_S1x128x128_0_0_0)),
    StableHlo.reshape main_v28 main_v29 rfl shapeCasts_S1x128x128_S128x128,
    StableHlo.unary main_arg6 main_v30 ((extractStridedSlice S1x128x128 ![0, 0, 0] · slices_S2x128x128_S1x128x128_0_0_0)),
    StableHlo.reshape main_v30 main_v31 rfl shapeCasts_S1x128x128_S128x128,
    StableHlo.unary main_arg7 main_v32 ((extractStridedSlice S1x128x128 ![0, 0, 0] · slices_S2x128x128_S1x128x128_0_0_0)),
    StableHlo.reshape main_v32 main_v33 rfl shapeCasts_S1x128x128_S128x128,
    StableHlo.unary main_arg8 main_v34 ((extractStridedSlice S1x128x128 ![0, 0, 0] · slices_S2x128x128_S1x128x128_0_0_0)),
    StableHlo.reshape main_v34 main_v35 rfl shapeCasts_S1x128x128_S128x128,
    StableHlo.unary main_arg1 main_v36 ((extractStridedSlice S1x800000 ![0, 0] · slices_S2x800000_S1x800000_0_0)),
    StableHlo.reshape main_v36 main_v37 rfl shapeCasts_S1x800000_S800000,
    StableHlo.unary main_arg1 main_v38 ((extractStridedSlice S1x800000 ![1, 0] · slices_S2x800000_S1x800000_1_0)),
    StableHlo.reshape main_v38 main_v39 rfl shapeCasts_S1x800000_S800000,
    StableHlo.binary main_v27 main_v29 main_v40 (fun l r => Host.dotGeneral dot_S50000x128_S128x128_S50000x128_1_0_0_1_n_n none l r),
    StableHlo.binary main_v27 main_v31 main_v41 (fun l r => Host.dotGeneral dot_S50000x128_S128x128_S50000x128_1_0_0_1_n_n none l r),
    StableHlo.binary main_v27 main_v33 main_v42 (fun l r => Host.dotGeneral dot_S50000x128_S128x128_S50000x128_1_0_0_1_n_n none l r),
    StableHlo.nullary main_c_4 (constantI S_ 32 0#32),
    StableHlo.unary main_c_4 main_v43 (broadcastInDim S800000 ![] bcast_S_S800000),
    StableHlo.binary main_v39 main_v43 main_v44 (cmpi .slt),
    StableHlo.nullary main_c_5 (constantI S_ 32 50000#32),
    StableHlo.unary main_c_5 main_v45 (broadcastInDim S800000 ![] bcast_S_S800000),
    StableHlo.binary main_v39 main_v45 main_v46 addi,
    StableHlo.ternary main_v44 main_v46 main_v39 main_v47 select,
    StableHlo.unary main_v47 main_v48 (broadcastInDim S800000x1 ![0] bcast_S800000_S800000x1_0),
    StableHlo.binary main_v40 main_v48 main_v49 (fun x i => Host.gather gather_S50000x128_S800000x1_S800000x128_1_0_n_n_0_1_1128 x i),
    StableHlo.nullary main_c_6 (constantI S_ 32 0#32),
    StableHlo.unary main_c_6 main_v50 (broadcastInDim S800000 ![] bcast_S_S800000) ]

abbrev s_c0b : List (HloOp τ sig (Elt F)) :=
  [ StableHlo.binary main_v37 main_v50 main_v51 (cmpi .slt),
    StableHlo.nullary main_c_7 (constantI S_ 32 50000#32),
    StableHlo.unary main_c_7 main_v52 (broadcastInDim S800000 ![] bcast_S_S800000),
    StableHlo.binary main_v37 main_v52 main_v53 addi,
    StableHlo.ternary main_v51 main_v53 main_v37 main_v54 select,
    StableHlo.unary main_v54 main_v55 (broadcastInDim S800000x1 ![0] bcast_S800000_S800000x1_0),
    StableHlo.binary main_v41 main_v55 main_v56 (fun x i => Host.gather gather_S50000x128_S800000x1_S800000x128_1_0_n_n_0_1_1128 x i),
    StableHlo.binary main_v49 main_v56 main_v57 addf,
    StableHlo.unary main_v57 main_v58 Host.negf,
    StableHlo.unary main_v58 main_v59 Host.exp,
    StableHlo.nullary main_cst_8 (constant S_ .f32 0x3F800000#32),
    StableHlo.unary main_cst_8 main_v60 (broadcastInDim S800000x128 ![] bcast_S_S800000x128),
    StableHlo.binary main_v60 main_v59 main_v61 addf,
    StableHlo.nullary main_cst_9 (constant S_ .f32 0x3F800000#32),
    StableHlo.unary main_cst_9 main_v62 (broadcastInDim S800000x128 ![] bcast_S_S800000x128),
    StableHlo.binary main_v62 main_v61 main_v63 Host.divf,
    StableHlo.nullary main_c_10 (constantI S_ 32 0#32),
    StableHlo.unary main_c_10 main_v64 (broadcastInDim S800000 ![] bcast_S_S800000),
    StableHlo.binary main_v37 main_v64 main_v65 (cmpi .slt),
    StableHlo.nullary main_c_11 (constantI S_ 32 50000#32),
    StableHlo.unary main_c_11 main_v66 (broadcastInDim S800000 ![] bcast_S_S800000),
    StableHlo.binary main_v37 main_v66 main_v67 addi,
    StableHlo.ternary main_v65 main_v67 main_v37 main_v68 select,
    StableHlo.unary main_v68 main_v69 (broadcastInDim S800000x1 ![0] bcast_S800000_S800000x1_0),
    StableHlo.binary main_v42 main_v69 main_v70 (fun x i => Host.gather gather_S50000x128_S800000x1_S800000x128_1_0_n_n_0_1_1128 x i),
    StableHlo.binary main_v63 main_v70 main_v71 mulf,
    StableHlo.nullary main_cst_12 (constant S_ .f32 0x00000000#32),
    StableHlo.unary main_cst_12 main_v72 (broadcastInDim S50000x128 ![] bcast_S_S50000x128),
    StableHlo.unary main_v39 main_v73 (broadcastInDim S800000x1 ![0] bcast_S800000_S800000x1_0),
    StableHlo.ternary main_v72 main_v73 main_v71 main_v74 (fun x i u => Host.scatterAdd scatter_S50000x128_S800000x1_S800000x128_1_0_0_1 x i u),
    StableHlo.binary main_v27 main_v35 main_v75 (fun l r => Host.dotGeneral dot_S50000x128_S128x128_S50000x128_1_0_0_1_n_n none l r),
    StableHlo.binary main_v75 main_v74 main_v76 addf ]

abbrev s_bn1a : List (HloOp τ sig (Elt F)) :=
  [ StableHlo.unary main_arg9 main_v77 ((extractStridedSlice S1x128 ![0, 0] · slices_S2x128_S1x128_0_0)),
    StableHlo.reshape main_v77 main_v78 rfl shapeCasts_S1x128_S128,
    StableHlo.unary main_arg10 main_v79 ((extractStridedSlice S1x128 ![0, 0] · slices_S2x128_S1x128_0_0)),
    StableHlo.reshape main_v79 main_v80 rfl shapeCasts_S1x128_S128,
    StableHlo.nullary main_cst_13 (constant S_ .f32 0x00000000#32),
    StableHlo.binary main_v76 main_cst_13 main_v81 (fun x v => Host.reduceAdd x v reducesTo_S50000x128_S128_d0 h_S_),
    StableHlo.unary main_v81 main_v82 (broadcastInDim S1x128 ![1] bcast_S128_S1x128_1),
    StableHlo.nullary main_cst_14 (constant S_ .f32 0x47435000#32),
    StableHlo.unary main_cst_14 main_v83 (broadcastInDim S1x128 ![] bcast_S_S1x128),
    StableHlo.binary main_v82 main_v83 main_v84 Host.divf,
    StableHlo.nullary main_c_15 (constantI S_ 32 0#32),
    StableHlo.TRef.nullary main_call2.cst (constant S_ .f32 0x00000000#32),
    StableHlo.TRef.binary (.of main_v76 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v76 : StableHlo.TRef sig ⟨S50000x128, .f32⟩) main_call2.v4 main_call2.v5 subf,
    StableHlo.TRef.binary main_call2.v5 main_call2.v5 main_call2.v6 mulf,
    StableHlo.TRef.unary (.of main_c_15 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v9 main_call2.v10 (broadcastInDim S1x128 ![1] bcast_S128_S1x128_1),
    StableHlo.TRef.unary main_call2.v8 main_call2.v11 (broadcastInDim S1x128 ![] bcast_S_S1x128),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x128 ![] bcast_S_S1x128),
    StableHlo.TRef.ternary main_call2.v13 main_call2.v12 main_call2.call0.v1 main_call2.call0.v2 (fun p a b => select (broadcastInDim S1x128 ![] bcast_S_S1x128 p) a b),
    StableHlo.unary main_v84 main_v86 (broadcastInDim S50000x128 ![0, 1] bcast_S1x128_S50000x128_0_1),
    StableHlo.binary main_v76 main_v86 main_v87 subf,
    StableHlo.nullary main_cst_16 (constant S_ .f32 0x3727C5AC#32),
    StableHlo.unary main_cst_16 main_v88 (broadcastInDim S1x128 ![] bcast_S_S1x128),
    StableHlo.binary main_v85 main_v88 main_v89 addf,
    StableHlo.unary main_v89 main_v90 Host.rsqrt,
    StableHlo.unary main_v90 main_v91 (broadcastInDim S50000x128 ![0, 1] bcast_S1x128_S50000x128_0_1),
    StableHlo.binary main_v87 main_v91 main_v92 mulf,
    StableHlo.unary main_v78 main_v93 (broadcastInDim S1x128 ![1] bcast_S128_S1x128_1),
    StableHlo.unary main_v93 main_v94 (broadcastInDim S50000x128 ![0, 1] bcast_S1x128_S50000x128_0_1),
    StableHlo.binary main_v92 main_v94 main_v95 mulf,
    StableHlo.unary main_v80 main_v96 (broadcastInDim S1x128 ![1] bcast_S128_S1x128_1),
    StableHlo.unary main_v96 main_v97 (broadcastInDim S50000x128 ![0, 1] bcast_S1x128_S50000x128_0_1),
    StableHlo.binary main_v95 main_v97 main_v98 addf,
    StableHlo.TRef.nullary main_call3.cst (constant S_ .f32 0x00000000#32),
    StableHlo.TRef.unary main_call3.cst main_call3.v0 (broadcastInDim S50000x128 ![] bcast_S_S50000x128),
    StableHlo.TRef.binary (.of main_v98 : StableHlo.TRef sig ⟨S50000x128, .f32⟩) main_call3.v0 main_call3.v1 maximumf,
    StableHlo.binary main_v99 main_v99 main_v100 mulf ]

abbrev s_bn1b : List (HloOp τ sig (Elt F)) :=
  [ StableHlo.nullary main_cst_17 (constant S_ .f32 0x00000000#32),
    StableHlo.binary main_v100 main_cst_17 main_v101 (fun x v => Host.reduceAdd x v reducesTo_S50000x128_S50000_d1 h_S_),
    StableHlo.unary main_v101 main_v102 (broadcastInDim S50000x1 ![0] bcast_S50000_S50000x1_0),
    StableHlo.unary main_v102 main_v103 Host.sqrt,
    StableHlo.nullary main_cst_18 (constant S_ .f32 0x2B8CBCCC#32),
    StableHlo.unary main_cst_18 main_v104 (broadcastInDim S50000x1 ![] bcast_S_S50000x1),
    StableHlo.binary main_v103 main_v104 main_v105 maximumf,
    StableHlo.unary main_v105 main_v106 (broadcastInDim S50000x128 ![0, 1] bcast_S50000x1_S50000x128_0_1),
    StableHlo.binary main_v99 main_v106 main_v107 Host.divf ]

abbrev s_c1a : List (HloOp τ sig (Elt F)) :=
  [ StableHlo.unary main_arg5 main_v108 ((extractStridedSlice S1x128x128 ![1, 0, 0] · slices_S2x128x128_S1x128x128_1_0_0)),
    StableHlo.reshape main_v108 main_v109 rfl shapeCasts_S1x128x128_S128x128,
    StableHlo.unary main_arg6 main_v110 ((extractStridedSlice S1x128x128 ![1, 0, 0] · slices_S2x128x128_S1x128x128_1_0_0)),
    StableHlo.reshape main_v110 main_v111 rfl shapeCasts_S1x128x128_S128x128,
    StableHlo.unary main_arg7 main_v112 ((extractStridedSlice S1x128x128 ![1, 0, 0] · slices_S2x128x128_S1x128x128_1_0_0)),
    StableHlo.reshape main_v112 main_v113 rfl shapeCasts_S1x128x128_S128x128,
    StableHlo.unary main_arg8 main_v114 ((extractStridedSlice S1x128x128 ![1, 0, 0] · slices_S2x128x128_S1x128x128_1_0_0)),
    StableHlo.reshape main_v114 main_v115 rfl shapeCasts_S1x128x128_S128x128,
    StableHlo.unary main_arg1 main_v116 ((extractStridedSlice S1x800000 ![0, 0] · slices_S2x800000_S1x800000_0_0)),
    StableHlo.reshape main_v116 main_v117 rfl shapeCasts_S1x800000_S800000,
    StableHlo.unary main_arg1 main_v118 ((extractStridedSlice S1x800000 ![1, 0] · slices_S2x800000_S1x800000_1_0)),
    StableHlo.reshape main_v118 main_v119 rfl shapeCasts_S1x800000_S800000,
    StableHlo.binary main_v107 main_v109 main_v120 (fun l r => Host.dotGeneral dot_S50000x128_S128x128_S50000x128_1_0_0_1_n_n none l r),
    StableHlo.binary main_v107 main_v111 main_v121 (fun l r => Host.dotGeneral dot_S50000x128_S128x128_S50000x128_1_0_0_1_n_n none l r),
    StableHlo.binary main_v107 main_v113 main_v122 (fun l r => Host.dotGeneral dot_S50000x128_S128x128_S50000x128_1_0_0_1_n_n none l r),
    StableHlo.nullary main_c_19 (constantI S_ 32 0#32),
    StableHlo.unary main_c_19 main_v123 (broadcastInDim S800000 ![] bcast_S_S800000),
    StableHlo.binary main_v119 main_v123 main_v124 (cmpi .slt),
    StableHlo.nullary main_c_20 (constantI S_ 32 50000#32),
    StableHlo.unary main_c_20 main_v125 (broadcastInDim S800000 ![] bcast_S_S800000),
    StableHlo.binary main_v119 main_v125 main_v126 addi,
    StableHlo.ternary main_v124 main_v126 main_v119 main_v127 select,
    StableHlo.unary main_v127 main_v128 (broadcastInDim S800000x1 ![0] bcast_S800000_S800000x1_0),
    StableHlo.binary main_v120 main_v128 main_v129 (fun x i => Host.gather gather_S50000x128_S800000x1_S800000x128_1_0_n_n_0_1_1128 x i),
    StableHlo.nullary main_c_21 (constantI S_ 32 0#32),
    StableHlo.unary main_c_21 main_v130 (broadcastInDim S800000 ![] bcast_S_S800000),
    StableHlo.binary main_v117 main_v130 main_v131 (cmpi .slt),
    StableHlo.nullary main_c_22 (constantI S_ 32 50000#32),
    StableHlo.unary main_c_22 main_v132 (broadcastInDim S800000 ![] bcast_S_S800000),
    StableHlo.binary main_v117 main_v132 main_v133 addi,
    StableHlo.ternary main_v131 main_v133 main_v117 main_v134 select,
    StableHlo.unary main_v134 main_v135 (broadcastInDim S800000x1 ![0] bcast_S800000_S800000x1_0),
    StableHlo.binary main_v121 main_v135 main_v136 (fun x i => Host.gather gather_S50000x128_S800000x1_S800000x128_1_0_n_n_0_1_1128 x i),
    StableHlo.binary main_v129 main_v136 main_v137 addf,
    StableHlo.unary main_v137 main_v138 Host.negf,
    StableHlo.unary main_v138 main_v139 Host.exp,
    StableHlo.nullary main_cst_23 (constant S_ .f32 0x3F800000#32),
    StableHlo.unary main_cst_23 main_v140 (broadcastInDim S800000x128 ![] bcast_S_S800000x128),
    StableHlo.binary main_v140 main_v139 main_v141 addf,
    StableHlo.nullary main_cst_24 (constant S_ .f32 0x3F800000#32),
    StableHlo.unary main_cst_24 main_v142 (broadcastInDim S800000x128 ![] bcast_S_S800000x128),
    StableHlo.binary main_v142 main_v141 main_v143 Host.divf,
    StableHlo.nullary main_c_25 (constantI S_ 32 0#32),
    StableHlo.unary main_c_25 main_v144 (broadcastInDim S800000 ![] bcast_S_S800000),
    StableHlo.binary main_v117 main_v144 main_v145 (cmpi .slt),
    StableHlo.nullary main_c_26 (constantI S_ 32 50000#32),
    StableHlo.unary main_c_26 main_v146 (broadcastInDim S800000 ![] bcast_S_S800000),
    StableHlo.binary main_v117 main_v146 main_v147 addi,
    StableHlo.ternary main_v145 main_v147 main_v117 main_v148 select,
    StableHlo.unary main_v148 main_v149 (broadcastInDim S800000x1 ![0] bcast_S800000_S800000x1_0),
    StableHlo.binary main_v122 main_v149 main_v150 (fun x i => Host.gather gather_S50000x128_S800000x1_S800000x128_1_0_n_n_0_1_1128 x i) ]

abbrev s_c1b : List (HloOp τ sig (Elt F)) :=
  [ StableHlo.binary main_v143 main_v150 main_v151 mulf,
    StableHlo.nullary main_cst_27 (constant S_ .f32 0x00000000#32),
    StableHlo.unary main_cst_27 main_v152 (broadcastInDim S50000x128 ![] bcast_S_S50000x128),
    StableHlo.unary main_v119 main_v153 (broadcastInDim S800000x1 ![0] bcast_S800000_S800000x1_0),
    StableHlo.ternary main_v152 main_v153 main_v151 main_v154 (fun x i u => Host.scatterAdd scatter_S50000x128_S800000x1_S800000x128_1_0_0_1 x i u),
    StableHlo.binary main_v107 main_v115 main_v155 (fun l r => Host.dotGeneral dot_S50000x128_S128x128_S50000x128_1_0_0_1_n_n none l r),
    StableHlo.binary main_v155 main_v154 main_v156 addf ]

abbrev s_bn2 : List (HloOp τ sig (Elt F)) :=
  [ StableHlo.unary main_arg9 main_v157 ((extractStridedSlice S1x128 ![1, 0] · slices_S2x128_S1x128_1_0)),
    StableHlo.reshape main_v157 main_v158 rfl shapeCasts_S1x128_S128,
    StableHlo.unary main_arg10 main_v159 ((extractStridedSlice S1x128 ![1, 0] · slices_S2x128_S1x128_1_0)),
    StableHlo.reshape main_v159 main_v160 rfl shapeCasts_S1x128_S128,
    StableHlo.nullary main_cst_28 (constant S_ .f32 0x00000000#32),
    StableHlo.binary main_v156 main_cst_28 main_v161 (fun x v => Host.reduceAdd x v reducesTo_S50000x128_S128_d0 h_S_),
    StableHlo.unary main_v161 main_v162 (broadcastInDim S1x128 ![1] bcast_S128_S1x128_1),
    StableHlo.nullary main_cst_29 (constant S_ .f32 0x47435000#32),
    StableHlo.unary main_cst_29 main_v163 (broadcastInDim S1x128 ![] bcast_S_S1x128),
    StableHlo.binary main_v162 main_v163 main_v164 Host.divf,
    StableHlo.nullary main_c_30 (constantI S_ 32 0#32),
    StableHlo.TRef.nullary main_call4.cst (constant S_ .f32 0x00000000#32),
    StableHlo.TRef.binary (.of main_v156 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v156 : StableHlo.TRef sig ⟨S50000x128, .f32⟩) main_call4.v4 main_call4.v5 subf,
    StableHlo.TRef.binary main_call4.v5 main_call4.v5 main_call4.v6 mulf,
    StableHlo.TRef.unary (.of main_c_30 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v9 main_call4.v10 (broadcastInDim S1x128 ![1] bcast_S128_S1x128_1),
    StableHlo.TRef.unary main_call4.v8 main_call4.v11 (broadcastInDim S1x128 ![] bcast_S_S1x128),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1x128 ![] bcast_S_S1x128),
    StableHlo.TRef.ternary main_call4.v13 main_call4.v12 main_call4.call0.v1 main_call4.call0.v2 (fun p a b => select (broadcastInDim S1x128 ![] bcast_S_S1x128 p) a b),
    StableHlo.unary main_v164 main_v166 (broadcastInDim S50000x128 ![0, 1] bcast_S1x128_S50000x128_0_1),
    StableHlo.binary main_v156 main_v166 main_v167 subf,
    StableHlo.nullary main_cst_31 (constant S_ .f32 0x3727C5AC#32),
    StableHlo.unary main_cst_31 main_v168 (broadcastInDim S1x128 ![] bcast_S_S1x128),
    StableHlo.binary main_v165 main_v168 main_v169 addf,
    StableHlo.unary main_v169 main_v170 Host.rsqrt,
    StableHlo.unary main_v170 main_v171 (broadcastInDim S50000x128 ![0, 1] bcast_S1x128_S50000x128_0_1),
    StableHlo.binary main_v167 main_v171 main_v172 mulf,
    StableHlo.unary main_v158 main_v173 (broadcastInDim S1x128 ![1] bcast_S128_S1x128_1),
    StableHlo.unary main_v173 main_v174 (broadcastInDim S50000x128 ![0, 1] bcast_S1x128_S50000x128_0_1),
    StableHlo.binary main_v172 main_v174 main_v175 mulf,
    StableHlo.unary main_v160 main_v176 (broadcastInDim S1x128 ![1] bcast_S128_S1x128_1),
    StableHlo.unary main_v176 main_v177 (broadcastInDim S50000x128 ![0, 1] bcast_S1x128_S50000x128_0_1),
    StableHlo.binary main_v175 main_v177 main_v178 addf,
    StableHlo.TRef.nullary main_call5.cst (constant S_ .f32 0x00000000#32),
    StableHlo.TRef.unary main_call5.cst main_call5.v0 (broadcastInDim S50000x128 ![] bcast_S_S50000x128),
    StableHlo.TRef.binary (.of main_v178 : StableHlo.TRef sig ⟨S50000x128, .f32⟩) main_call5.v0 main_call5.v1 maximumf,
    StableHlo.binary main_v179 main_v179 main_v180 mulf,
    StableHlo.nullary main_cst_32 (constant S_ .f32 0x00000000#32),
    StableHlo.binary main_v180 main_cst_32 main_v181 (fun x v => Host.reduceAdd x v reducesTo_S50000x128_S50000_d1 h_S_),
    StableHlo.unary main_v181 main_v182 (broadcastInDim S50000x1 ![0] bcast_S50000_S50000x1_0),
    StableHlo.unary main_v182 main_v183 Host.sqrt,
    StableHlo.nullary main_cst_33 (constant S_ .f32 0x2B8CBCCC#32),
    StableHlo.unary main_cst_33 main_v184 (broadcastInDim S50000x1 ![] bcast_S_S50000x1),
    StableHlo.binary main_v183 main_v184 main_v185 maximumf,
    StableHlo.unary main_v185 main_v186 (broadcastInDim S50000x128 ![0, 1] bcast_S50000x1_S50000x128_0_1),
    StableHlo.binary main_v179 main_v186 main_v187 Host.divf ]

abbrev s_c0 : List (HloOp τ sig (Elt F)) := s_c0a ++ s_c0b
abbrev s_bn1 : List (HloOp τ sig (Elt F)) := s_bn1a ++ s_bn1b
abbrev s_c1 : List (HloOp τ sig (Elt F)) := s_c1a ++ s_c1b

abbrev ops : List (HloOp τ sig (Elt F)) := s_lin ++ (s_bn0 ++ (s_c0 ++ (s_bn1 ++ (s_c1 ++ s_bn2))))

end Cert.ReferenceIdeal.Hand

end
-- ==== Proof.Ref.MainEq.lean ====
import proofs.«411794_j45286135169328_1_alg».proof.Proof.Ref.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

abbrev P (F : FTy → Type) [FloatOps F] [Facts] : Type 1 :=
  Prog (TpuEff nD τ sig (Elt F) (Pipeline.Sig Λ₀ (Fin 0) fun p => (pcfgs (F := F) p).Adm) .tc) PUnit

set_option maxRecDepth 100000 in
theorem main_eq (d : Dev nD) : main (F := F) d = (seq ops : P F) := rfl

theorem scopedRefs_eq : (Finset.univ.filter fun b : Ref sig .tc => b.isScoped) = ∅ := by decide
theorem scopedSems_eq : (Finset.univ.filter fun sm : SemLoc sig => sm.isScoped .tc) = ∅ := by decide

theorem s_lin_sub : (s_lin : List (HloOp τ sig (Elt F))).Forall fun op => op.bufs ⊆ tcRefs τ sig := by
  simp only [List.Forall, nullary_bufs_sub, unary_bufs_sub, binary_bufs_sub, ternary_bufs_sub, reshape_bufs_sub, and_self]
theorem s_lin_fresh : (s_lin : List (HloOp τ sig (Elt F))).Forall fun op => op.fresh = ∅ := by
  simp only [List.Forall]; repeat' constructor
theorem s_bn0_sub : (s_bn0 : List (HloOp τ sig (Elt F))).Forall fun op => op.bufs ⊆ tcRefs τ sig := by
  simp only [List.Forall, nullary_bufs_sub, unary_bufs_sub, binary_bufs_sub, ternary_bufs_sub, reshape_bufs_sub, and_self]
theorem s_bn0_fresh : (s_bn0 : List (HloOp τ sig (Elt F))).Forall fun op => op.fresh = ∅ := by
  simp only [List.Forall]; repeat' constructor
theorem s_c0a_sub : (s_c0a : List (HloOp τ sig (Elt F))).Forall fun op => op.bufs ⊆ tcRefs τ sig := by
  simp only [List.Forall, nullary_bufs_sub, unary_bufs_sub, binary_bufs_sub, ternary_bufs_sub, reshape_bufs_sub, and_self]
theorem s_c0a_fresh : (s_c0a : List (HloOp τ sig (Elt F))).Forall fun op => op.fresh = ∅ := by
  simp only [List.Forall]; repeat' constructor
theorem s_c0b_sub : (s_c0b : List (HloOp τ sig (Elt F))).Forall fun op => op.bufs ⊆ tcRefs τ sig := by
  simp only [List.Forall, nullary_bufs_sub, unary_bufs_sub, binary_bufs_sub, ternary_bufs_sub, reshape_bufs_sub, and_self]
theorem s_c0b_fresh : (s_c0b : List (HloOp τ sig (Elt F))).Forall fun op => op.fresh = ∅ := by
  simp only [List.Forall]; repeat' constructor
theorem s_bn1a_sub : (s_bn1a : List (HloOp τ sig (Elt F))).Forall fun op => op.bufs ⊆ tcRefs τ sig := by
  simp only [List.Forall, nullary_bufs_sub, unary_bufs_sub, binary_bufs_sub, ternary_bufs_sub, reshape_bufs_sub, and_self]
theorem s_bn1a_fresh : (s_bn1a : List (HloOp τ sig (Elt F))).Forall fun op => op.fresh = ∅ := by
  simp only [List.Forall]; repeat' constructor
theorem s_bn1b_sub : (s_bn1b : List (HloOp τ sig (Elt F))).Forall fun op => op.bufs ⊆ tcRefs τ sig := by
  simp only [List.Forall, nullary_bufs_sub, unary_bufs_sub, binary_bufs_sub, ternary_bufs_sub, reshape_bufs_sub, and_self]
theorem s_bn1b_fresh : (s_bn1b : List (HloOp τ sig (Elt F))).Forall fun op => op.fresh = ∅ := by
  simp only [List.Forall]; repeat' constructor
theorem s_c1a_sub : (s_c1a : List (HloOp τ sig (Elt F))).Forall fun op => op.bufs ⊆ tcRefs τ sig := by
  simp only [List.Forall, nullary_bufs_sub, unary_bufs_sub, binary_bufs_sub, ternary_bufs_sub, reshape_bufs_sub, and_self]
theorem s_c1a_fresh : (s_c1a : List (HloOp τ sig (Elt F))).Forall fun op => op.fresh = ∅ := by
  simp only [List.Forall]; repeat' constructor
theorem s_c1b_sub : (s_c1b : List (HloOp τ sig (Elt F))).Forall fun op => op.bufs ⊆ tcRefs τ sig := by
  simp only [List.Forall, nullary_bufs_sub, unary_bufs_sub, binary_bufs_sub, ternary_bufs_sub, reshape_bufs_sub, and_self]
theorem s_c1b_fresh : (s_c1b : List (HloOp τ sig (Elt F))).Forall fun op => op.fresh = ∅ := by
  simp only [List.Forall]; repeat' constructor
theorem s_bn2_sub : (s_bn2 : List (HloOp τ sig (Elt F))).Forall fun op => op.bufs ⊆ tcRefs τ sig := by
  simp only [List.Forall, nullary_bufs_sub, unary_bufs_sub, binary_bufs_sub, ternary_bufs_sub, reshape_bufs_sub, and_self]
theorem s_bn2_fresh : (s_bn2 : List (HloOp τ sig (Elt F))).Forall fun op => op.fresh = ∅ := by
  simp only [List.Forall]; repeat' constructor

theorem ops_sub : (ops : List (HloOp τ sig (Elt F))).Forall fun op => op.bufs ⊆ tcRefs τ sig := by
  simp only [ops, s_c0, s_bn1, s_c1, List.forall_append]
  exact ⟨s_lin_sub, s_bn0_sub, ⟨s_c0a_sub, s_c0b_sub⟩, ⟨s_bn1a_sub, s_bn1b_sub⟩, ⟨s_c1a_sub, s_c1b_sub⟩, s_bn2_sub⟩

theorem ops_fresh : (ops : List (HloOp τ sig (Elt F))).Forall fun op => op.fresh = ∅ := by
  simp only [ops, s_c0, s_bn1, s_c1, List.forall_append]
  exact ⟨s_lin_fresh, s_bn0_fresh, ⟨s_c0a_fresh, s_c0b_fresh⟩, ⟨s_bn1a_fresh, s_bn1b_fresh⟩, ⟨s_c1a_fresh, s_c1b_fresh⟩, s_bn2_fresh⟩

theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Hand

end
-- ==== Proof.Ref.Value.lean ====
import proofs.«411794_j45286135169328_1_alg».proof.Proof.Ref.Ops
import proofs.«411794_j45286135169328_1_alg».proof.Proof.Stages

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ops_after (V : Valuation τ sig (Elt F)) :
    after ops V = after s_bn2 (after s_c1 (after s_bn1 (after s_c0 (after s_bn0 (after s_lin V))))) :=
  (after_append s_lin _ V).trans ((after_append s_bn0 _ _).trans ((after_append s_c0 _ _).trans
    ((after_append s_bn1 _ _).trans (after_append s_c1 s_bn2 _))))

abbrev s_lin_W : List (Ref sig .tc) := [main_v0]
theorem s_lin_writes : (s_lin : List (HloOp τ sig (Elt F))).Forall fun op => op.writes ⊆ (s_lin_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_lin_keep (W : Valuation τ sig (Elt F)) (r : Ref sig .tc) (h : r ∉ s_lin_W) :
    after s_lin W (Proc.devRef .tc r) = W (Proc.devRef .tc r) :=
  after_of_writes_sub s_lin W s_lin_writes h

abbrev s_bn0_W : List (Ref sig .tc) := [main_cst, main_v1, main_v2, main_cst_0, main_v3, main_v4, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v5, main_v6, main_v7, main_cst_1, main_v8, main_v9, main_v10, main_v11, main_v12, main_v13, main_v14, main_v15, main_v16, main_v17, main_v18, main_call1_cst, main_call1_v0, main_v19, main_v20, main_cst_2, main_v21, main_v22, main_v23, main_cst_3, main_v24, main_v25, main_v26, main_v27]
theorem s_bn0_writes : (s_bn0 : List (HloOp τ sig (Elt F))).Forall fun op => op.writes ⊆ (s_bn0_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_bn0_keep (W : Valuation τ sig (Elt F)) (r : Ref sig .tc) (h : r ∉ s_bn0_W) :
    after s_bn0 W (Proc.devRef .tc r) = W (Proc.devRef .tc r) :=
  after_of_writes_sub s_bn0 W s_bn0_writes h

abbrev s_c0a_W : List (Ref sig .tc) := [main_v28, main_v29, main_v30, main_v31, main_v32, main_v33, main_v34, main_v35, main_v36, main_v37, main_v38, main_v39, main_v40, main_v41, main_v42, main_c_4, main_v43, main_v44, main_c_5, main_v45, main_v46, main_v47, main_v48, main_v49, main_c_6, main_v50]
theorem s_c0a_writes : (s_c0a : List (HloOp τ sig (Elt F))).Forall fun op => op.writes ⊆ (s_c0a_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_c0a_keep (W : Valuation τ sig (Elt F)) (r : Ref sig .tc) (h : r ∉ s_c0a_W) :
    after s_c0a W (Proc.devRef .tc r) = W (Proc.devRef .tc r) :=
  after_of_writes_sub s_c0a W s_c0a_writes h

abbrev s_c0b_W : List (Ref sig .tc) := [main_v51, main_c_7, main_v52, main_v53, main_v54, main_v55, main_v56, main_v57, main_v58, main_v59, main_cst_8, main_v60, main_v61, main_cst_9, main_v62, main_v63, main_c_10, main_v64, main_v65, main_c_11, main_v66, main_v67, main_v68, main_v69, main_v70, main_v71, main_cst_12, main_v72, main_v73, main_v74, main_v75, main_v76]
theorem s_c0b_writes : (s_c0b : List (HloOp τ sig (Elt F))).Forall fun op => op.writes ⊆ (s_c0b_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_c0b_keep (W : Valuation τ sig (Elt F)) (r : Ref sig .tc) (h : r ∉ s_c0b_W) :
    after s_c0b W (Proc.devRef .tc r) = W (Proc.devRef .tc r) :=
  after_of_writes_sub s_c0b W s_c0b_writes h

abbrev s_bn1a_W : List (Ref sig .tc) := [main_v77, main_v78, main_v79, main_v80, main_cst_13, main_v81, main_v82, main_cst_14, main_v83, main_v84, main_c_15, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v85, main_v86, main_v87, main_cst_16, main_v88, main_v89, main_v90, main_v91, main_v92, main_v93, main_v94, main_v95, main_v96, main_v97, main_v98, main_call3_cst, main_call3_v0, main_v99, main_v100]
theorem s_bn1a_writes : (s_bn1a : List (HloOp τ sig (Elt F))).Forall fun op => op.writes ⊆ (s_bn1a_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_bn1a_keep (W : Valuation τ sig (Elt F)) (r : Ref sig .tc) (h : r ∉ s_bn1a_W) :
    after s_bn1a W (Proc.devRef .tc r) = W (Proc.devRef .tc r) :=
  after_of_writes_sub s_bn1a W s_bn1a_writes h

abbrev s_bn1b_W : List (Ref sig .tc) := [main_cst_17, main_v101, main_v102, main_v103, main_cst_18, main_v104, main_v105, main_v106, main_v107]
theorem s_bn1b_writes : (s_bn1b : List (HloOp τ sig (Elt F))).Forall fun op => op.writes ⊆ (s_bn1b_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_bn1b_keep (W : Valuation τ sig (Elt F)) (r : Ref sig .tc) (h : r ∉ s_bn1b_W) :
    after s_bn1b W (Proc.devRef .tc r) = W (Proc.devRef .tc r) :=
  after_of_writes_sub s_bn1b W s_bn1b_writes h

abbrev s_c1a_W : List (Ref sig .tc) := [main_v108, main_v109, main_v110, main_v111, main_v112, main_v113, main_v114, main_v115, main_v116, main_v117, main_v118, main_v119, main_v120, main_v121, main_v122, main_c_19, main_v123, main_v124, main_c_20, main_v125, main_v126, main_v127, main_v128, main_v129, main_c_21, main_v130, main_v131, main_c_22, main_v132, main_v133, main_v134, main_v135, main_v136, main_v137, main_v138, main_v139, main_cst_23, main_v140, main_v141, main_cst_24, main_v142, main_v143, main_c_25, main_v144, main_v145, main_c_26, main_v146, main_v147, main_v148, main_v149, main_v150]
theorem s_c1a_writes : (s_c1a : List (HloOp τ sig (Elt F))).Forall fun op => op.writes ⊆ (s_c1a_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_c1a_keep (W : Valuation τ sig (Elt F)) (r : Ref sig .tc) (h : r ∉ s_c1a_W) :
    after s_c1a W (Proc.devRef .tc r) = W (Proc.devRef .tc r) :=
  after_of_writes_sub s_c1a W s_c1a_writes h

abbrev s_c1b_W : List (Ref sig .tc) := [main_v151, main_cst_27, main_v152, main_v153, main_v154, main_v155, main_v156]
theorem s_c1b_writes : (s_c1b : List (HloOp τ sig (Elt F))).Forall fun op => op.writes ⊆ (s_c1b_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_c1b_keep (W : Valuation τ sig (Elt F)) (r : Ref sig .tc) (h : r ∉ s_c1b_W) :
    after s_c1b W (Proc.devRef .tc r) = W (Proc.devRef .tc r) :=
  after_of_writes_sub s_c1b W s_c1b_writes h

abbrev s_bn2_W : List (Ref sig .tc) := [main_v157, main_v158, main_v159, main_v160, main_cst_28, main_v161, main_v162, main_cst_29, main_v163, main_v164, main_c_30, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v165, main_v166, main_v167, main_cst_31, main_v168, main_v169, main_v170, main_v171, main_v172, main_v173, main_v174, main_v175, main_v176, main_v177, main_v178, main_call5_cst, main_call5_v0, main_v179, main_v180, main_cst_32, main_v181, main_v182, main_v183, main_cst_33, main_v184, main_v185, main_v186, main_v187]
theorem s_bn2_writes : (s_bn2 : List (HloOp τ sig (Elt F))).Forall fun op => op.writes ⊆ (s_bn2_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
theorem s_bn2_keep (W : Valuation τ sig (Elt F)) (r : Ref sig .tc) (h : r ∉ s_bn2_W) :
    after s_bn2 W (Proc.devRef .tc r) = W (Proc.devRef .tc r) :=
  after_of_writes_sub s_bn2 W s_bn2_writes h

theorem s_c0_keep (W : Valuation τ sig (Elt F)) (r : Ref sig .tc) (ha : r ∉ s_c0a_W) (hb : r ∉ s_c0b_W) :
    after s_c0 W (Proc.devRef .tc r) = W (Proc.devRef .tc r) :=
  (congrFun (after_append s_c0a s_c0b W) _).trans ((s_c0b_keep _ r hb).trans (s_c0a_keep W r ha))

theorem s_bn1_keep (W : Valuation τ sig (Elt F)) (r : Ref sig .tc) (ha : r ∉ s_bn1a_W) (hb : r ∉ s_bn1b_W) :
    after s_bn1 W (Proc.devRef .tc r) = W (Proc.devRef .tc r) :=
  (congrFun (after_append s_bn1a s_bn1b W) _).trans ((s_bn1b_keep _ r hb).trans (s_bn1a_keep W r ha))

theorem s_c1_keep (W : Valuation τ sig (Elt F)) (r : Ref sig .tc) (ha : r ∉ s_c1a_W) (hb : r ∉ s_c1b_W) :
    after s_c1 W (Proc.devRef .tc r) = W (Proc.devRef .tc r) :=
  (congrFun (after_append s_c1a s_c1b W) _).trans ((s_c1b_keep _ r hb).trans (s_c1a_keep W r ha))

theorem lin_val (W : Valuation τ sig (Elt F)) :
    after s_lin W (Proc.devRef .tc main_v0) = Cert.Stages.lin (W (Proc.devRef .tc main_arg0)) (W (Proc.devRef .tc main_arg2)) := by
  after_results_simp
  rfl

set_option maxHeartbeats 1600000 in
set_option maxRecDepth 8192 in
theorem bn0_val (W : Valuation τ sig (Elt F)) :
    after s_bn0 W (Proc.devRef .tc main_v27)
      = Cert.Stages.bn (W (Proc.devRef .tc main_v0)) (W (Proc.devRef .tc main_arg3)) (W (Proc.devRef .tc main_arg4)) := by
  after_results_simp
  rfl

set_option maxHeartbeats 1600000 in
set_option maxRecDepth 8192 in
theorem c0_val (W : Valuation τ sig (Elt F)) :
    after s_c0 W (Proc.devRef .tc main_v76)
      = Cert.Stages.conv (W (Proc.devRef .tc main_v27)) (Cert.Stages.row0 (W (Proc.devRef .tc main_arg1))) (Cert.Stages.row1 (W (Proc.devRef .tc main_arg1)))
          (Cert.Stages.mat0 (W (Proc.devRef .tc main_arg5))) (Cert.Stages.mat0 (W (Proc.devRef .tc main_arg6)))
          (Cert.Stages.mat0 (W (Proc.devRef .tc main_arg7))) (Cert.Stages.mat0 (W (Proc.devRef .tc main_arg8))) := by
  refine (congrFun (after_append s_c0a s_c0b W) _).trans ?_
  after_results_simp
  rfl

set_option maxHeartbeats 1600000 in
set_option maxRecDepth 8192 in
theorem bn1_val (W : Valuation τ sig (Elt F)) :
    after s_bn1 W (Proc.devRef .tc main_v107)
      = Cert.Stages.bn (W (Proc.devRef .tc main_v76)) (Cert.Stages.vec0 (W (Proc.devRef .tc main_arg9))) (Cert.Stages.vec0 (W (Proc.devRef .tc main_arg10))) := by
  refine (congrFun (after_append s_bn1a s_bn1b W) _).trans ?_
  after_results_simp
  rfl

set_option maxHeartbeats 1600000 in
set_option maxRecDepth 8192 in
theorem c1_val (W : Valuation τ sig (Elt F)) :
    after s_c1 W (Proc.devRef .tc main_v156)
      = Cert.Stages.conv (W (Proc.devRef .tc main_v107)) (Cert.Stages.row0 (W (Proc.devRef .tc main_arg1))) (Cert.Stages.row1 (W (Proc.devRef .tc main_arg1)))
          (Cert.Stages.mat1 (W (Proc.devRef .tc main_arg5))) (Cert.Stages.mat1 (W (Proc.devRef .tc main_arg6)))
          (Cert.Stages.mat1 (W (Proc.devRef .tc main_arg7))) (Cert.Stages.mat1 (W (Proc.devRef .tc main_arg8))) := by
  refine (congrFun (after_append s_c1a s_c1b W) _).trans ?_
  after_results_simp
  rfl

set_option maxHeartbeats 1600000 in
set_option maxRecDepth 8192 in
theorem bn2_val (W : Valuation τ sig (Elt F)) :
    after s_bn2 W (Proc.devRef .tc main_v187)
      = Cert.Stages.bn (W (Proc.devRef .tc main_v156)) (Cert.Stages.vec1 (W (Proc.devRef .tc main_arg9))) (Cert.Stages.vec1 (W (Proc.devRef .tc main_arg10))) := by
  after_results_simp
  rfl

abbrev Kept (r : Ref sig .tc) : Prop :=
  r ∉ s_lin_W ∧ r ∉ s_bn0_W ∧ r ∉ s_c0a_W ∧ r ∉ s_c0b_W ∧ r ∉ s_bn1a_W ∧ r ∉ s_bn1b_W ∧ r ∉ s_c1a_W ∧ r ∉ s_c1b_W ∧ r ∉ s_bn2_W

variable (V : Valuation τ sig (Elt F)) (r : Ref sig .tc)

theorem keep1 (h : Kept r) : after s_lin V (Proc.devRef .tc r) = V (Proc.devRef .tc r) := s_lin_keep V r h.1
theorem keep2 (h : Kept r) : after s_bn0 (after s_lin V) (Proc.devRef .tc r) = V (Proc.devRef .tc r) :=
  (s_bn0_keep _ r h.2.1).trans (keep1 V r h)
theorem keep3 (h : Kept r) : after s_c0 (after s_bn0 (after s_lin V)) (Proc.devRef .tc r) = V (Proc.devRef .tc r) :=
  (s_c0_keep _ r h.2.2.1 h.2.2.2.1).trans (keep2 V r h)
theorem keep4 (h : Kept r) : after s_bn1 (after s_c0 (after s_bn0 (after s_lin V))) (Proc.devRef .tc r) = V (Proc.devRef .tc r) :=
  (s_bn1_keep _ r h.2.2.2.2.1 h.2.2.2.2.2.1).trans (keep3 V r h)
theorem keep5 (h : Kept r) :
    after s_c1 (after s_bn1 (after s_c0 (after s_bn0 (after s_lin V)))) (Proc.devRef .tc r) = V (Proc.devRef .tc r) :=
  (s_c1_keep _ r h.2.2.2.2.2.2.1 h.2.2.2.2.2.2.2.1).trans (keep4 V r h)
theorem keep_all (h : Kept r) : after ops V (Proc.devRef .tc r) = V (Proc.devRef .tc r) :=
  (congrFun (ops_after V) _).trans ((s_bn2_keep _ r h.2.2.2.2.2.2.2.2).trans (keep5 V r h))

theorem out_val :
    after ops V (Proc.devRef .tc main_v187)
      = Cert.Stages.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_after, bn2_val, c1_val, bn1_val, c0_val, bn0_val, lin_val,
    keep5 V main_arg9 (by decide), keep5 V main_arg10 (by decide),
    keep4 V main_arg1 (by decide), keep4 V main_arg5 (by decide), keep4 V main_arg6 (by decide), keep4 V main_arg7 (by decide), keep4 V main_arg8 (by decide),
    keep3 V main_arg9 (by decide), keep3 V main_arg10 (by decide),
    keep2 V main_arg1 (by decide), keep2 V main_arg5 (by decide), keep2 V main_arg6 (by decide), keep2 V main_arg7 (by decide), keep2 V main_arg8 (by decide),
    keep1 V main_arg3 (by decide), keep1 V main_arg4 (by decide)]
  rfl

end Cert.ReferenceIdeal.Hand

end
-- ==== Proof.Ref.Run.lean ====
import proofs.«411794_j45286135169328_1_alg».proof.Proof.Ref.MainEq
import proofs.«411794_j45286135169328_1_alg».proof.Proof.Ref.Value
import Idealize.ShloMosaic.PureOps.Ideal

open Idealize.ShloMosaic Idealize.ShloMosaic.TcCoe Idealize.SL.Sem Cert.ReferenceIdeal in
theorem Cert.ReferenceIdeal.Hand.run (m : (l : Loc nD τ sig) → Buf (Elt Ideal) l) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v187) = Cert.Stages.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_v187).trans (Cert.ReferenceIdeal.Hand.out_val (StableHlo.launchContents m c)),
      (h c main_arg0).trans (Cert.ReferenceIdeal.Hand.keep_all (StableHlo.launchContents m c) main_arg0 (by decide)),
      (h c main_arg1).trans (Cert.ReferenceIdeal.Hand.keep_all (StableHlo.launchContents m c) main_arg1 (by decide)),
      (h c main_arg2).trans (Cert.ReferenceIdeal.Hand.keep_all (StableHlo.launchContents m c) main_arg2 (by decide)),
      (h c main_arg3).trans (Cert.ReferenceIdeal.Hand.keep_all (StableHlo.launchContents m c) main_arg3 (by decide)),
      (h c main_arg4).trans (Cert.ReferenceIdeal.Hand.keep_all (StableHlo.launchContents m c) main_arg4 (by decide)),
      (h c main_arg5).trans (Cert.ReferenceIdeal.Hand.keep_all (StableHlo.launchContents m c) main_arg5 (by decide)),
      (h c main_arg6).trans (Cert.ReferenceIdeal.Hand.keep_all (StableHlo.launchContents m c) main_arg6 (by decide)),
      (h c main_arg7).trans (Cert.ReferenceIdeal.Hand.keep_all (StableHlo.launchContents m c) main_arg7 (by decide)),
      (h c main_arg8).trans (Cert.ReferenceIdeal.Hand.keep_all (StableHlo.launchContents m c) main_arg8 (by decide)),
      (h c main_arg9).trans (Cert.ReferenceIdeal.Hand.keep_all (StableHlo.launchContents m c) main_arg9 (by decide)),
      (h c main_arg10).trans (Cert.ReferenceIdeal.Hand.keep_all (StableHlo.launchContents m c) main_arg10 (by decide))⟩)
    (Cert.ReferenceIdeal.Hand.run_all m ρ)
-- ==== Proof.PreIdx.lean ====
import proofs.«411794_j45286135169328_1_alg».proof.Defs
import proofs.«411794_j45286135169328_1_alg».proof.Proof.Gen.Pre_finite_inputs
import proofs.«411794_j45286135169328_1_alg».proof.Proof.Gen.KernelIdeal
import Idealize.ShloMosaic.Lib.ReduceAll
import Idealize.ShloMosaic.Lib.StableHlo.Predicate

noncomputable section

namespace Cert.Proof.PreIdx

open Idealize.ShloMosaic Idealize.SL.Sem

instance : Subsingleton Cert.Pre_finite_inputs.S_.Idx := ⟨fun a b => funext fun d => d.elim0⟩

section
open Cert.Pre_finite_inputs Cert.Pre_finite_inputs.Facts

theorem range_of_tail {F : FTy → Type} [FloatOps F] (a1 : IVec S2x800000 32) (v48 : IVec S_ 1) (j : S_.Idx)
    (e : fn_part3 (F := F) a1 v48
          (cmpi .sge a1 (broadcastInDim S2x800000 ![] bcast_S_S2x800000 (constantI S_ 32 0#32))) j = 1#1)
    (i : S2x800000.Idx) : 0 ≤ (a1 i).toInt ∧ (a1 i).toInt < 50000 := by
  unfold fn_part3 at e
  dsimp only [andi] at e
  obtain ⟨e1, elt⟩ := IntOp.andi_eq_one.1 e
  obtain ⟨-, ege⟩ := IntOp.andi_eq_one.1 e1
  have hge := Host.reduce_andi_all _ _ _ _ j ege i
  have hlt := Host.reduce_andi_all _ _ _ _ j elt i
  dsimp only [cmpi, broadcastInDim, constantI] at hge hlt
  rw [IntOp.cmpi_sge] at hge
  rw [IntOp.cmpi_slt] at hlt
  exact ⟨by simpa using hge, by simpa using hlt⟩

end

theorem idx_of_pre (m : (l : Loc Cert.KernelIdeal.nD Cert.KernelIdeal.τ Cert.KernelIdeal.sig) → Buf (Elt Ideal) l)
    (h : Cert.Pre_KernelIdeal m) (c : Dev Cert.KernelIdeal.nD) :
    ∀ i : Cert.KernelIdeal.S2x800000.Idx,
      0 ≤ ((m ((c.tc : Thread Cert.KernelIdeal.nD Cert.KernelIdeal.τ).loc Cert.KernelIdeal.main_arg1)) i : BitVec 32).toInt
      ∧ ((m ((c.tc : Thread Cert.KernelIdeal.nD Cert.KernelIdeal.τ).loc Cert.KernelIdeal.main_arg1)) i : BitVec 32).toInt < 50000 := by
  intro i
  have e := congrFun (h c) (fun d => d.elim0)
  exact range_of_tail (F := Ideal) _ _ _ e i

end Cert.Proof.PreIdx

end
-- ==== Proof.lean ====
import proofs.«411794_j45286135169328_1_alg».proof.Defs
import proofs.«411794_j45286135169328_1_alg».proof.Proof.Gen.Kernel
import proofs.«411794_j45286135169328_1_alg».proof.Proof.Gen.KernelIdeal
import proofs.«411794_j45286135169328_1_alg».proof.Proof.Gen.ReferenceIdeal
import proofs.«411794_j45286135169328_1_alg».proof.Proof.Gen.Pre_finite_inputs
import proofs.«411794_j45286135169328_1_alg».proof.Proof.KB.Run
import proofs.«411794_j45286135169328_1_alg».proof.Proof.KI.Run
import proofs.«411794_j45286135169328_1_alg».proof.Proof.KI.Value
import proofs.«411794_j45286135169328_1_alg».proof.Proof.Ref.Run
import proofs.«411794_j45286135169328_1_alg».proof.Proof.PreIdx
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun _ h c => (h c).2) (Cert.Kernel.Hand.run_args (F := Bits) m ρ)
theorem frame_ki : Cert.frame_KernelIdeal := fun m ρ _ =>
  (θ_run (Cert.KernelIdeal.defs (F := Ideal)) _ _).mono (fun _ h c => (h c).2) (Cert.KernelIdeal.Hand.run_args (F := Ideal) m ρ)
theorem frame_ri : Cert.frame_ReferenceIdeal := fun m ρ _ =>
  (θ_run (Cert.ReferenceIdeal.defs (F := Ideal)) _ _).mono (fun _ h c => (h c).2) (Cert.ReferenceIdeal.Hand.run m ρ)

open Cert.KernelIdeal Cert.KernelIdeal.Hand in
/-- Both programs end at Cert.Stages.out of the arguments: the kernel by its regions' values chained along the fold, the reference operation by operation. -/
theorem algebraic : Cert.algebraic_KernelIdeal_ReferenceIdeal := by
  intro m ρ m' ρ' hpre hagree
  refine ⟨fun c => Cert.Stages.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)), ?_, ?_⟩
  · exact (θ_run (defs (F := Ideal)) _ _).mono
      (fun r h c => ⟨(h c).1.trans (kval m c (Cert.Proof.PreIdx.idx_of_pre m hpre c)), (h c).2⟩) (run_args (F := Ideal) m ρ)
  · refine (θ_run (Cert.ReferenceIdeal.defs (F := Ideal)) _ _).mono (fun r h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
